-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S2048 : S_.BroadcastsInDim S2048 (![] : Fin 0 → Fin S2048.rank)
  reducesTo_S2048_S_d0 : S2048.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S64x64 .f32) (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg16
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_arg14 main_arg15 main_arg16 main_arg17 main_v48 main_v49 main_v50

def fn_part1 {F : FTy → Type} [FloatOps F] (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x16 .f32) (main_arg2 : FVec F S10000x2048 .f32) (main_arg3 : FVec F S2048 .f32) (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x16 .f32 := Host.absf main_arg1
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S10000x2048 .f32 := Host.absf main_arg2
  let main_cst_2 : FVec F S_ .f32 := constant S_ .f32 0x7F800000#32
  let main_v10 : FVec F S10000x2048 .f32 := broadcastInDim S10000x2048 ![] bcast_S_S10000x2048 main_cst_2
  let main_v11 : IVec S10000x2048 1 := cmpf .olt main_v9 main_v10
  let main_c_3 : IVec S_ 1 := constantI S_ 1 1#1
  let main_v12 : IVec S_ 1 := (fun x v => Host.reduce IntOp.andi x v reducesTo_S10000x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S2048x1 : Shape := ⟨2, ![2048, 1]⟩
abbrev S1x2048 : Shape := ⟨2, ![1, 2048]⟩
abbrev S1x32 : Shape := ⟨2, ![1, 32]⟩
abbrev S1x64 : Shape := ⟨2, ![1, 64]⟩
abbrev S1x2 : Shape := ⟨2, ![1, 2]⟩
abbrev S10000x32 : Shape := ⟨2, ![10000, 32]⟩
abbrev S10000x2 : Shape := ⟨2, ![10000, 2]⟩
abbrev S200x2048 : Shape := ⟨2, ![200, 2048]⟩
abbrev S200x128 : Shape := ⟨2, ![200, 128]⟩
abbrev S200x16 : Shape := ⟨2, ![200, 16]⟩
abbrev S200x32 : Shape := ⟨2, ![200, 32]⟩
abbrev S2000x2 : Shape := ⟨2, ![2000, 2]⟩
abbrev S64x2048 : Shape := ⟨2, ![64, 2048]⟩
abbrev S2048x64 : Shape := ⟨2, ![2048, 64]⟩
abbrev S200x1 : Shape := ⟨2, ![200, 1]⟩
abbrev S1x200 : Shape := ⟨2, ![1, 200]⟩
abbrev S200x64 : Shape := ⟨2, ![200, 64]⟩
abbrev S2000x2048 : Shape := ⟨2, ![2000, 2048]⟩
abbrev S2000x1 : Shape := ⟨2, ![2000, 1]⟩
abbrev S2000x64 : Shape := ⟨2, ![2000, 64]⟩

abbrev nBuf : Space → Nat
  | .hbm => 30
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S2048x1, .f32⟩
  | .hbm, ⟨19, _⟩ => ⟨S2048x1, .bf16⟩
  | .hbm, ⟨20, _⟩ => ⟨S1x2048, .f32⟩
  | .hbm, ⟨21, _⟩ => ⟨S1x32, .f32⟩
  | .hbm, ⟨22, _⟩ => ⟨S1x32, .f32⟩
  | .hbm, ⟨23, _⟩ => ⟨S1x64, .f32⟩
  | .hbm, ⟨24, _⟩ => ⟨S1x32, .f32⟩
  | .hbm, ⟨25, _⟩ => ⟨S1x64, .f32⟩
  | .hbm, ⟨26, _⟩ => ⟨S1x64, .f32⟩
  | .hbm, ⟨27, _⟩ => ⟨S1x2, .f32⟩
  | .hbm, ⟨28, _⟩ => ⟨S10000x32, .f32⟩
  | .hbm, ⟨29, _⟩ => ⟨S10000x2, .f32⟩
  | .local _ .vmem, ⟨0, _⟩ => ⟨S200x2048, .f32⟩
  | .local _ .vmem, ⟨1, _⟩ => ⟨S200x2048, .f32⟩
  | .local _ .vmem, ⟨2, _⟩ => ⟨S200x128, .f32⟩
  | .local _ .vmem, ⟨3, _⟩ => ⟨S200x128, .f32⟩
  | .local _ .vmem, ⟨4, _⟩ => ⟨S200x16, .f32⟩
  | .local _ .vmem, ⟨5, _⟩ => ⟨S200x16, .f32⟩
  | .local _ .vmem, ⟨6, _⟩ => ⟨S2048x1, .bf16⟩
  | .local _ .vmem, ⟨7, _⟩ => ⟨S1x2048, .f32⟩
  | .local _ .vmem, ⟨8, _⟩ => ⟨S128x32, .f32⟩
  | .local _ .vmem, ⟨9, _⟩ => ⟨S1x32, .f32⟩
  | .local _ .vmem, ⟨10, _⟩ => ⟨S16x32, .f32⟩
  | .local _ .vmem, ⟨11, _⟩ => ⟨S1x32, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x2, .f32⟩
  | .local _ .vmem, ⟨21, _⟩ => ⟨S1x2, .f32⟩
  | .local _ .vmem, ⟨22, _⟩ => ⟨S200x32, .f32⟩
  | .local _ .vmem, ⟨23, _⟩ => ⟨S200x32, .f32⟩
  | .local _ .vmem, ⟨24, _⟩ => ⟨S2000x2, .f32⟩
  | .local _ .vmem, ⟨25, _⟩ => ⟨S2000x2, .f32⟩
  | .local _ .vmem, ⟨26, _⟩ => ⟨S10000x2048, .bf16⟩
  | .local _ .vmem, ⟨27, _⟩ => ⟨S1x2048, .f32⟩
  | .local _ .vmem, ⟨28, _⟩ => ⟨S64x2048, .f32⟩
  | .local _ .vmem, ⟨29, _⟩ => ⟨S64x2048, .f32⟩
  | .local _ .vmem, ⟨30, _⟩ => ⟨S2048x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![60], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v22 : BitVec 32 := Scalar.muli arg0 c200_i32
  let v23 : Index := Scalar.indexCast v22
  let c0_11 : Index := 0#32
  ![v23.toNat, 0]
def k0_cond4 (i : grid0.Coords) : BitVec 1 :=
  let arg0 : BitVec 32 := BitVec.ofNat 32 (i 0).val
  let c50_i32_4 : BitVec 32 := 50#32
  let v9 : BitVec 1 := Scalar.cmpi .sge arg0 c50_i32_4
  let c55_i32 : BitVec 32 := 55#32
  let v10 : BitVec 1 := Scalar.cmpi .slt arg0 c55_i32
  let v11 : BitVec 1 := Scalar.andi v9 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let arg0 : BitVec 32 := BitVec.ofNat 32 (i 0).val
  let c50_i32_10 : BitVec 32 := 50#32
  let v20 : BitVec 32 := Scalar.subi arg0 c50_i32_10
  let c2000_i32 : BitVec 32 := 2000#32
  let v21 : BitVec 32 := Scalar.muli v20 c2000_i32
  let v22 : Index := Scalar.indexCast v21
  let c0 : Index := 0#32
  ![v22.toNat, 0]
def k0_cond6 (i : grid0.Coords) : BitVec 1 :=
  let arg0 : BitVec 32 := BitVec.ofNat 32 (i 0).val
  let c55_i32_8 : BitVec 32 := 55#32
  let v17 : BitVec 1 := Scalar.cmpi .sge arg0 c55_i32_8
  let v18 : BitVec 32 := Scalar.extui v17
  let c0_i32_9 : BitVec 32 := 0#32
  let v19 : BitVec 1 := Scalar.cmpi .ne v18 c0_i32_9
  v19

def k0_off3 (i : grid0.Coords) : Fin 2 → Nat :=
  let arg0 : BitVec 32 := BitVec.ofNat 32 (i 0).val
  let c55_i32_10 : BitVec 32 := 55#32
  let v20 : BitVec 32 := Scalar.subi arg0 c55_i32_10
  let c2000_i32 : BitVec 32 := 2000#32
  let v21 : BitVec 32 := Scalar.muli v20 c2000_i32
  let v22 : Index := Scalar.indexCast v21
  let c0 : Index := 0#32
  ![v22.toNat, 0]
def cc0_transform_0 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c55_i32 : BitVec 32 := 55#32
  let v0 : BitVec 32 := Scalar.subi arg0 c55_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S200x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S200x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2000x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S2048_S2048x1 : S2048.ShapeCasts S2048x1
  bitsLt_bf16_f32 : FTy.bits .bf16 < FTy.bits .f32
  shapeCasts_S2048_S1x2048 : S2048.ShapeCasts S1x2048
  shapeCasts_S32_S1x32 : S32.ShapeCasts S1x32
  shapeCasts_S64_S1x64 : S64.ShapeCasts S1x64
  shapeCasts_S2_S1x2 : S2.ShapeCasts S1x2
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S200x2048_S200x2048_0_0 : ∀ a, (![0, 0] : Fin 2 → Nat) a + S200x2048.size a ≤ S200x2048.size a
  h_S200x2048 : 0 < S200x2048.numel
  shapeCasts_S200x2048_S200x2048 : S200x2048.ShapeCasts S200x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S200x128_S200x128_0_0 : ∀ a, (![0, 0] : Fin 2 → Nat) a + S200x128.size a ≤ S200x128.size a
  h_S200x128 : 0 < S200x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S200x32 : S1x32.Broadcasts S200x32
  inb_S200x16_S200x16_0_0 : ∀ a, (![0, 0] : Fin 2 → Nat) a + S200x16.size a ≤ S200x16.size a
  h_S200x16 : 0 < S200x16.numel
  inb_S16x32_S16x32_0_0 : ∀ a, (![0, 0] : Fin 2 → Nat) a + S16x32.size a ≤ S16x32.size a
  h_S16x32 : 0 < S16x32.numel
  concatenates_S200x32_S200x32_S200x64_d1 : Shape.Concatenates [S200x32, S200x32] S200x64 1
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x32_S64x32_0_0 : ∀ a, (![0, 0] : Fin 2 → Nat) a + S64x32.size a ≤ S64x32.size a
  h_S64x32 : 0 < S64x32.numel
  inb_S200x32_S200x32_0_0 : ∀ a, (![0, 0] : Fin 2 → Nat) a + S200x32.size a ≤ S200x32.size a
  h_S200x32 : 0 < S200x32.numel
  inb_S32x64_S32x64_0_0 : ∀ a, (![0, 0] : Fin 2 → Nat) a + S32x64.size a ≤ S32x64.size a
  h_S32x64 : 0 < S32x64.numel
  broadcasts_S200x1_S200x64 : S200x1.Broadcasts S200x64
  broadcasts_S1x2048_S64x2048 : S1x2048.Broadcasts S64x2048
  transposes_S64x2048_p1_0_S2048x64 : S64x2048.Transposes [1, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S2000x2048 : 0 < S2000x2048.numel
  broadcasts_S2000x1_S2000x64 : S2000x1.Broadcasts S2000x64
  broadcasts_S1x64_S2000x64 : S1x64.Broadcasts S2000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S200x2048_S2048x1_S200x1_1_0_0_1_n_n_wf : DotDims.WF S200x2048 S2048x1 S200x1 [1] [0] [0] [1] [] []
  dot_S1x200_S200x2048_S1x2048_1_0_0_1_n_n_wf : DotDims.WF S1x200 S200x2048 S1x2048 [1] [0] [0] [1] [] []
  dot_S200x128_S128x32_S200x32_1_0_0_1_n_n_wf : DotDims.WF S200x128 S128x32 S200x32 [1] [0] [0] [1] [] []
  dot_S200x16_S16x32_S200x32_1_0_0_1_n_n_wf : DotDims.WF S200x16 S16x32 S200x32 [1] [0] [0] [1] [] []
  dot_S200x64_S64x64_S200x64_1_0_0_1_n_n_wf : DotDims.WF S200x64 S64x64 S200x64 [1] [0] [0] [1] [] []
  dot_S200x64_S64x32_S200x32_1_0_0_1_n_n_wf : DotDims.WF S200x64 S64x32 S200x32 [1] [0] [0] [1] [] []
  dot_S200x32_S32x64_S200x64_1_0_0_1_n_n_wf : DotDims.WF S200x32 S32x64 S200x64 [1] [0] [0] [1] [] []
  dot_S200x64_S200x2048_S64x2048_0_0_1_1_n_n_wf : DotDims.WF S200x64 S200x2048 S64x2048 [0] [0] [1] [1] [] []
  dot_S2000x2048_S2048x1_S2000x1_1_0_0_1_n_n_wf : DotDims.WF S2000x2048 S2048x1 S2000x1 [1] [0] [0] [1] [] []
  dot_S2000x2048_S2048x64_S2000x64_1_0_0_1_n_n_wf : DotDims.WF S2000x2048 S2048x64 S2000x64 [1] [0] [0] [1] [] []
  dot_S2000x64_S64x64_S2000x64_1_0_0_1_n_n_wf : DotDims.WF S2000x64 S64x64 S2000x64 [1] [0] [0] [1] [] []
  dot_S2000x64_S2000x2048_S64x2048_0_0_1_1_n_n_wf : DotDims.WF S2000x64 S2000x2048 S64x2048 [0] [0] [1] [1] [] []
  dot_S2000x64_S64x2_S2000x2_1_0_0_1_n_n_wf : DotDims.WF S2000x64 S64x2 S2000x2 [1] [0] [0] [1] [] []
  hrank0 : 0 < grid0.rank
  k0_off1_inb : ∀ i : grid0.Coords, ∀ (k0_h2 : k0_cond2 i = 1#1), ∀ a, (k0_off1 i) a + S200x2048.size a ≤ S10000x2048.size a
  k0_off1_packedbf16 : ∀ i : grid0.Coords, ∀ (k0_h2 : k0_cond2 i = 1#1), (Rect.unit (s := S10000x2048) (k0_off1 i) S200x2048.size (k0_off1_inb i k0_h2)).PackedRows (EltTy.packing .bf16)
  k0_off2_inb : ∀ i : grid0.Coords, ∀ (k0_h4 : k0_cond4 i = 1#1), ∀ a, (k0_off2 i) a + S2000x2048.size a ≤ S10000x2048.size a
  k0_off3_inb : ∀ i : grid0.Coords, ∀ (k0_h6 : k0_cond6 i = 1#1), ∀ a, (k0_off3 i) a + S2000x2048.size a ≤ S10000x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x2048.size a ≤ S10000x2048.size a
  hwx0_0 : ∀ i : grid0.Coords, EltTy.bits .f32 = 32 ∨ (Rect.block (s := S10000x2048) S200x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S10000x128.size a
  hwx0_1 : ∀ i : grid0.Coords, EltTy.bits .f32 = 32 ∨ (Rect.block (s := S10000x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x16.size a ≤ S10000x16.size a
  hwx0_2 : ∀ i : grid0.Coords, EltTy.bits .f32 = 32 ∨ (Rect.block (s := S10000x16) S200x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2048x1.size a
  hwx0_3 : ∀ i : grid0.Coords, EltTy.bits .bf16 = 32 ∨ (Rect.block (s := S2048x1) S2048x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x32.size a ≤ S16x32.size a
  hwx0_7 : ∀ i : grid0.Coords, EltTy.bits .f32 = 32 ∨ (Rect.block (s := S16x32) S16x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .f32 = 32 ∨ (Rect.block (s := S64x32) S64x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x64.size a ≤ S32x64.size a
  hwx0_13 : ∀ i : grid0.Coords, EltTy.bits .f32 = 32 ∨ (Rect.block (s := S32x64) S32x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x2.size a ≤ S64x2.size a
  hwx0_17 : ∀ i : grid0.Coords, EltTy.bits .f32 = 32 ∨ (Rect.block (s := S64x2) S64x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2.size a ≤ S1x2.size a
  hwx0_18 : ∀ i : grid0.Coords, EltTy.bits .f32 = 32 ∨ (Rect.block (s := S1x2) S1x2.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S200x32.size a ≤ S10000x32.size a
  hwx0_19 : ∀ i : grid0.Coords, EltTy.bits .f32 = 32 ∨ (Rect.block (s := S10000x32) S200x32.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2000x2.size a ≤ S10000x2.size a
  hwx0_20 : ∀ i : grid0.Coords, EltTy.bits .f32 = 32 ∨ (Rect.block (s := S10000x2) S2000x2.size (cc0_transform_20 i) (hinb0_20 i)).WholeWords (EltTy.packing .f32)

variable [Facts₀]

def dot_S200x2048_S2048x1_S200x1_1_0_0_1_n_n : DotDims S200x2048 S2048x1 S200x1 where
  lhsContracting := [1]
  rhsContracting := [0]
  lhsNonContracting := [0]
  rhsNonContracting := [1]
  lhsBatch := []
  rhsBatch := []
  wf := dot_S200x2048_S2048x1_S200x1_1_0_0_1_n_n_wf
def dot_S1x200_S200x2048_S1x2048_1_0_0_1_n_n : DotDims S1x200 S200x2048 S1x2048 where
  lhsContracting := [1]
  rhsContracting := [0]
  lhsNonContracting := [0]
  rhsNonContracting := [1]
  lhsBatch := []
  rhsBatch := []
  wf := dot_S1x200_S200x2048_S1x2048_1_0_0_1_n_n_wf
def dot_S200x128_S128x32_S200x32_1_0_0_1_n_n : DotDims S200x128 S128x32 S200x32 where
  lhsContracting := [1]
  rhsContracting := [0]
  lhsNonContracting := [0]
  rhsNonContracting := [1]
  lhsBatch := []
  rhsBatch := []
  wf := dot_S200x128_S128x32_S200x32_1_0_0_1_n_n_wf
def dot_S200x16_S16x32_S200x32_1_0_0_1_n_n : DotDims S200x16 S16x32 S200x32 where
  lhsContracting := [1]
  rhsContracting := [0]
  lhsNonContracting := [0]
  rhsNonContracting := [1]
  lhsBatch := []
  rhsBatch := []
  wf := dot_S200x16_S16x32_S200x32_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x64_S64x32_S200x32_1_0_0_1_n_n : DotDims S200x64 S64x32 S200x32 where
  lhsContracting := [1]
  rhsContracting := [0]
  lhsNonContracting := [0]
  rhsNonContracting := [1]
  lhsBatch := []
  rhsBatch := []
  wf := dot_S200x64_S64x32_S200x32_1_0_0_1_n_n_wf
def dot_S200x32_S32x64_S200x64_1_0_0_1_n_n : DotDims S200x32 S32x64 S200x64 where
  lhsContracting := [1]
  rhsContracting := [0]
  lhsNonContracting := [0]
  rhsNonContracting := [1]
  lhsBatch := []
  rhsBatch := []
  wf := dot_S200x32_S32x64_S200x64_1_0_0_1_n_n_wf
def dot_S200x64_S200x2048_S64x2048_0_0_1_1_n_n : DotDims S200x64 S200x2048 S64x2048 where
  lhsContracting := [0]
  rhsContracting := [0]
  lhsNonContracting := [1]
  rhsNonContracting := [1]
  lhsBatch := []
  rhsBatch := []
  wf := dot_S200x64_S200x2048_S64x2048_0_0_1_1_n_n_wf
def dot_S2000x2048_S2048x1_S2000x1_1_0_0_1_n_n : DotDims S2000x2048 S2048x1 S2000x1 where
  lhsContracting := [1]
  rhsContracting := [0]
  lhsNonContracting := [0]
  rhsNonContracting := [1]
  lhsBatch := []
  rhsBatch := []
  wf := dot_S2000x2048_S2048x1_S2000x1_1_0_0_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S2000x2048_S64x2048_0_0_1_1_n_n : DotDims S2000x64 S2000x2048 S64x2048 where
  lhsContracting := [0]
  rhsContracting := [0]
  lhsNonContracting := [1]
  rhsNonContracting := [1]
  lhsBatch := []
  rhsBatch := []
  wf := dot_S2000x64_S2000x2048_S64x2048_0_0_1_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg2) S200x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S32x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S64x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v9) S1x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v10_0) S200x32.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v10_1) S2000x2.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev idle0 : Fin 21 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond2 i == 1#1) | 20 => fun i => !(k0_cond6 i == 1#1) | ⟨_ + 21, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S10000x32 : Shape := ⟨2, ![10000, 32]⟩
abbrev S1x32 : Shape := ⟨2, ![1, 32]⟩
abbrev S10000x64 : Shape := ⟨2, ![10000, 64]⟩
abbrev S1x64 : Shape := ⟨2, ![1, 64]⟩
abbrev S_ : Shape := ⟨0, ![]⟩
abbrev S1x2048 : Shape := ⟨2, ![1, 2048]⟩
abbrev S10000 : Shape := ⟨1, ![10000]⟩
abbrev S10000x1 : Shape := ⟨2, ![10000, 1]⟩
abbrev S2048x10000 : Shape := ⟨2, ![2048, 10000]⟩
abbrev S2048x64 : Shape := ⟨2, ![2048, 64]⟩
abbrev S2048x1 : Shape := ⟨2, ![2048, 1]⟩
abbrev S10000x2 : Shape := ⟨2, ![10000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S1x32, .f32⟩
  | .hbm, ⟨24, _⟩ => ⟨S10000x32, .f32⟩
  | .hbm, ⟨25, _⟩ => ⟨S10000x32, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x32, .f32⟩
  | .hbm, ⟨35, _⟩ => ⟨S1x32, .f32⟩
  | .hbm, ⟨36, _⟩ => ⟨S10000x32, .f32⟩
  | .hbm, ⟨37, _⟩ => ⟨S10000x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S_, .f32⟩
  | .hbm, ⟨44, _⟩ => ⟨S10000x32, .f32⟩
  | .hbm, ⟨45, _⟩ => ⟨S10000x32, .f32⟩
  | .hbm, ⟨46, _⟩ => ⟨S10000x32, .f32⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S1x2048, .f32⟩
  | .hbm, ⟨57, _⟩ => ⟨S10000x2048, .f32⟩
  | .hbm, ⟨58, _⟩ => ⟨S10000x2048, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S10000, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x64, .f32⟩
  | .hbm, ⟨69, _⟩ => ⟨S10000x64, .f32⟩
  | .hbm, ⟨70, _⟩ => ⟨S2048x10000, .f32⟩
  | .hbm, ⟨71, _⟩ => ⟨S2048x64, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x64, .f32⟩
  | .hbm, ⟨78, _⟩ => ⟨S2048x64, .f32⟩
  | .hbm, ⟨79, _⟩ => ⟨S10000x64, .f32⟩
  | .hbm, ⟨80, _⟩ => ⟨S10000x1, .f32⟩
  | .hbm, ⟨81, _⟩ => ⟨S10000x64, .f32⟩
  | .hbm, ⟨82, _⟩ => ⟨S10000x64, .f32⟩
  | .hbm, ⟨83, _⟩ => ⟨S_, .f32⟩
  | .hbm, ⟨84, _⟩ => ⟨S10000x64, .f32⟩
  | .hbm, ⟨85, _⟩ => ⟨S10000x64, .f32⟩
  | .hbm, ⟨86, _⟩ => ⟨S10000x64, .f32⟩
  | .hbm, ⟨87, _⟩ => ⟨S1x64, .f32⟩
  | .hbm, ⟨88, _⟩ => ⟨S10000x64, .f32⟩
  | .hbm, ⟨89, _⟩ => ⟨S10000x64, .f32⟩
  | .hbm, ⟨90, _⟩ => ⟨S1x2048, .f32⟩
  | .hbm, ⟨91, _⟩ => ⟨S10000x2048, .f32⟩
  | .hbm, ⟨92, _⟩ => ⟨S10000x2048, .f32⟩
  | .hbm, ⟨93, _⟩ => ⟨S_, .f32⟩
  | .hbm, ⟨94, _⟩ => ⟨S10000, .f32⟩
  | .hbm, ⟨95, _⟩ => ⟨S_, .f32⟩
  | .hbm, ⟨96, _⟩ => ⟨S2048, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000, .f32⟩
  | .hbm, ⟨101, _⟩ => ⟨S10000x1, .f32⟩
  | .hbm, ⟨102, _⟩ => ⟨S10000x64, .f32⟩
  | .hbm, ⟨103, _⟩ => ⟨S10000x64, .f32⟩
  | .hbm, ⟨104, _⟩ => ⟨S2048x10000, .f32⟩
  | .hbm, ⟨105, _⟩ => ⟨S2048x64, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048x1, .f32⟩
  | .hbm, ⟨111, _⟩ => ⟨S2048x64, .f32⟩
  | .hbm, ⟨112, _⟩ => ⟨S2048x64, .f32⟩
  | .hbm, ⟨113, _⟩ => ⟨S10000x64, .f32⟩
  | .hbm, ⟨114, _⟩ => ⟨S10000x1, .f32⟩
  | .hbm, ⟨115, _⟩ => ⟨S10000x64, .f32⟩
  | .hbm, ⟨116, _⟩ => ⟨S10000x64, .f32⟩
  | .hbm, ⟨117, _⟩ => ⟨S_, .f32⟩
  | .hbm, ⟨118, _⟩ => ⟨S10000x64, .f32⟩
  | .hbm, ⟨119, _⟩ => ⟨S10000x64, .f32⟩
  | .hbm, ⟨120, _⟩ => ⟨S10000x2, .f32⟩
  | .hbm, ⟨121, _⟩ => ⟨S1x2, .f32⟩
  | .hbm, ⟨122, _⟩ => ⟨S10000x2, .f32⟩
  | .hbm, ⟨123, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_cst : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_cst_8 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x32_S10000x32_S10000x64_d1 : Shape.Concatenates [S10000x32, S10000x32] S10000x64 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S10000x32 : S_.BroadcastsInDim S10000x32 (![] : Fin 0 → Fin S10000x32.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  reducesTo_S10000x2048_S10000_d1 : S10000x2048.ReducesTo [1] S10000
  h_S_ : 0 < S_.numel
  reducesTo_S10000x2048_S2048_d0 : S10000x2048.ReducesTo [0] S2048
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  transposes_S10000x2048_S2048x10000_1_0 : S10000x2048.Transposes [1, 0] S2048x10000
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S10000x128_S128x32_S10000x32_1_0_0_1_n_n_wf : DotDims.WF S10000x128 S128x32 S10000x32 [1] [0] [0] [1] [] []
  dot_S10000x16_S16x32_S10000x32_1_0_0_1_n_n_wf : DotDims.WF S10000x16 S16x32 S10000x32 [1] [0] [0] [1] [] []
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S2048x10000_S10000x64_S2048x64_1_0_0_1_n_n_wf : DotDims.WF S2048x10000 S10000x64 S2048x64 [1] [0] [0] [1] [] []
  dot_S10000x2048_S2048x64_S10000x64_1_0_0_1_n_n_wf : DotDims.WF S10000x2048 S2048x64 S10000x64 [1] [0] [0] [1] [] []
  dot_S10000x64_S64x2_S10000x2_1_0_0_1_n_n_wf : DotDims.WF S10000x64 S64x2 S10000x2 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S2048x10000_S10000x64_S2048x64_1_0_0_1_n_n : DotDims S2048x10000 S10000x64 S2048x64 where
  lhsContracting := [1]
  rhsContracting := [0]
  lhsNonContracting := [0]
  rhsNonContracting := [1]
  lhsBatch := []
  rhsBatch := []
  wf := dot_S2048x10000_S10000x64_S2048x64_1_0_0_1_n_n_wf
def dot_S10000x2048_S2048x64_S10000x64_1_0_0_1_n_n : DotDims S10000x2048 S2048x64 S10000x64 where
  lhsContracting := [1]
  rhsContracting := [0]
  lhsNonContracting := [0]
  rhsNonContracting := [1]
  lhsBatch := []
  rhsBatch := []
  wf := dot_S10000x2048_S2048x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

class Facts : Prop extends Facts₀ where

variable [Facts]
-- ==== Proof.Word.Step.lean ====
import proofs.«134735_g40587440947829_cont_sun_m_1101_19_alg».proof.Proof.Gen.Kernel.Frame
import proofs.«134735_g40587440947829_cont_sun_m_1101_19_alg».proof.Proof.Gen.Kernel.Skeleton
import Idealize.ShloMosaic.Lib.ValueIdx

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

abbrev HA (c : Dev nD) : Vec F S10000x2048 .f32 := V m c main_arg2
abbrev xA (c : Dev nD) : Vec F S10000x128 .f32 := V m c main_arg0
abbrev zA (c : Dev nD) : Vec F S10000x16 .f32 := V m c main_arg1

abbrev wcol (c : Dev nD) : Vec F S2048x1 .bf16 := V m c main_v1
abbrev wrow (c : Dev nD) : Vec F S1x2048 .f32 := V m c main_v2

abbrev psiW (c : Dev nD) : Vec F S128x32 .f32 := V m c main_arg4
abbrev psib (c : Dev nD) : Vec F S1x32 .f32 := V m c main_v3
abbrev phiW (c : Dev nD) : Vec F S16x32 .f32 := V m c main_arg6
abbrev phib (c : Dev nD) : Vec F S1x32 .f32 := V m c main_v4
abbrev g1W (c : Dev nD) : Vec F S64x64 .f32 := V m c main_arg8
abbrev g1b (c : Dev nD) : Vec F S1x64 .f32 := V m c main_v5
abbrev g2W (c : Dev nD) : Vec F S64x32 .f32 := V m c main_arg10
abbrev g2b (c : Dev nD) : Vec F S1x32 .f32 := V m c main_v6
abbrev c1W (c : Dev nD) : Vec F S32x64 .f32 := V m c main_arg12
abbrev c1b (c : Dev nD) : Vec F S1x64 .f32 := V m c main_v7
abbrev c2W (c : Dev nD) : Vec F S64x64 .f32 := V m c main_arg14
abbrev c2b (c : Dev nD) : Vec F S1x64 .f32 := V m c main_v8
abbrev hdW (c : Dev nD) : Vec F S64x2 .f32 := V m c main_arg16
abbrev hdb (c : Dev nD) : Vec F S1x2 .f32 := V m c main_v9

/-- Rows [200·b, 200·b + 200) of the incidence matrix; likewise of the two feature matrices below. -/
def Htile (c : Dev nD) (b : Fin 50) : Vec F S200x2048 .f32 := fun y =>
  HA m c (ValueIdx.ix2 (⟨200 * b.val + (y 0).val, by have := b.isLt; have : (y 0).val < 200 := (y 0).isLt; omega⟩ : Fin 10000) (⟨(y 1).val, (y 1).isLt⟩ : Fin 2048))
def xtile (c : Dev nD) (b : Fin 50) : Vec F S200x128 .f32 := fun y =>
  xA m c (ValueIdx.ix2 (⟨200 * b.val + (y 0).val, by have := b.isLt; have : (y 0).val < 200 := (y 0).isLt; omega⟩ : Fin 10000) (⟨(y 1).val, (y 1).isLt⟩ : Fin 128))
def ztile (c : Dev nD) (b : Fin 50) : Vec F S200x16 .f32 := fun y =>
  zA m c (ValueIdx.ix2 (⟨200 * b.val + (y 0).val, by have := b.isLt; have : (y 0).val < 200 := (y 0).isLt; omega⟩ : Fin 10000) (⟨(y 1).val, (y 1).isLt⟩ : Fin 16))

theorem N_eq : cfg0.N = 60 := N_0

/-- Tile `b`'s projected node features, and its projected auxiliary features before the bias. -/
def x1Tile (c : Dev nD) (b : Fin 50) : Vec F S200x32 .f32 := k0_pay13 (xtile m c b) (psiW m c) (psib m c)
def z0Tile (c : Dev nD) (b : Fin 50) : Vec F S200x32 .f32 := k0_pay14 (ztile m c b) (phiW m c)

/-- Tile `b`'s rows of the gate. -/
def gTile (c : Dev nD) (b : Fin 50) : Vec F S200x32 .f32 :=
  k0_pay16 (x1Tile m c b) (z0Tile m c b) (phib m c) (g1W m c) (g1b m c) (g2W m c) (g2b m c)

/-- Tile `b`'s share of the first node-to-hyperedge aggregation, transposed. -/
def agg1Tile (c : Dev nD) (b : Fin 50) : Vec F S64x2048 .f32 :=
  k0_pay17 (k0_pay9 (Htile m c b)) (k0_pay11 (Htile m c b) (wcol m c)) (x1Tile m c b) (z0Tile m c b) (phib m c)
    (g1W m c) (g1b m c) (g2W m c) (g2b m c) (c1W m c) (c1b m c)

/-- The hyperedge degrees summed over tiles 0..n. -/
def deAt (c : Dev nD) : (n : ℕ) → n < 50 → Vec F S1x2048 .f32
  | 0, hn => k0_pay12 (Htile m c ⟨0, hn⟩) (k0_pay1 (F := F))
  | n + 1, hn => k0_pay12 (Htile m c ⟨n + 1, hn⟩) (deAt c n (Nat.lt_of_succ_lt hn))

/-- The first aggregation summed over tiles 0..n. -/
def agg1At (c : Dev nD) : (n : ℕ) → n < 50 → Vec F S64x2048 .f32
  | 0, hn => k0_pay4 (k0_pay2 (F := F)) (agg1Tile m c ⟨0, hn⟩)
  | n + 1, hn => k0_pay4 (agg1At c n (Nat.lt_of_succ_lt hn)) (agg1Tile m c ⟨n + 1, hn⟩)

/-- The 16-bit copy of tile `b`. -/
def hqRow (c : Dev nD) (b : Fin 50) : Vec F S200x2048 .bf16 := k0_pay10 (Htile m c b)

/-- The kept copy holds the first `n` tiles. -/
def HqOk (c : Dev nD) (n : ℕ) (hq : Vec F S10000x2048 .bf16) : Prop :=
  ∀ (b : Fin 50), b.val < n → ∀ (r : Fin 200) (j : Fin 2048),
    hq (ValueIdx.ix2 (⟨200 * b.val + r.val, by have := b.isLt; have := r.isLt; omega⟩ : Fin 10000) j)
      = hqRow m c b (ValueIdx.ix2 r j)

/-- Rows [2000·k, 2000·k + 2000) of the kept copy. -/
def hqTile (c : Dev nD) (k : Fin 5) : Vec F S2000x2048 .bf16 := fun y =>
  hqRow m c ⟨10 * k.val + (y 0).val / 200, by have := k.isLt; have : (y 0).val < 2000 := (y 0).isLt; omega⟩
    (ValueIdx.ix2 (⟨(y 0).val % 200, Nat.mod_lt _ (by decide)⟩ : Fin 200) (⟨(y 1).val, (y 1).isLt⟩ : Fin 2048))

def deEnd (c : Dev nD) : Vec F S1x2048 .f32 := deAt m c 49 (by decide)
def agg1End (c : Dev nD) : Vec F S64x2048 .f32 := agg1At m c 49 (by decide)

/-- The first aggregation scaled per hyperedge by weight over degree, transposed. -/
def mn1 (c : Dev nD) : Vec F S2048x64 .bf16 := k0_pay5 (wrow m c) (deEnd m c) (agg1End m c)

/-- The second aggregation summed over scatter tiles 0..k. -/
def agg2At (c : Dev nD) : (k : ℕ) → k < 5 → Vec F S64x2048 .f32
  | 0, hk => k0_pay6 (hqTile m c ⟨0, hk⟩) (wcol m c) (mn1 m c) (c2W m c) (c2b m c) (k0_pay3 (F := F))
  | k + 1, hk => k0_pay6 (hqTile m c ⟨k + 1, hk⟩) (wcol m c) (mn1 m c) (c2W m c) (c2b m c) (agg2At c k (Nat.lt_of_succ_lt hk))

def agg2End (c : Dev nD) : Vec F S64x2048 .f32 := agg2At m c 4 (by decide)

/-- The second aggregation scaled per hyperedge and transposed. -/
def mn2 (c : Dev nD) : Vec F S2048x64 .bf16 := k0_pay7 (wrow m c) (deEnd m c) (agg2End m c)

/-- Rows [2000·k, 2000·k + 2000) of the logits. -/
def loTile (c : Dev nD) (k : Fin 5) : Vec F S2000x2 .f32 :=
  k0_pay8 (hqTile m c k) (wcol m c) (mn2 m c) (hdW m c) (hdb m c)

end Cert.Kernel.Hand

end
-- ==== Proof.Word.Cases.lean ====
import proofs.«134735_g40587440947829_cont_sun_m_1101_19_alg».proof.Proof.Word.Step

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- The six conditions the body branches on; below, the grid points at which each holds. -/
abbrev condInit (i : grid0.Coords) : Prop :=
  (Scalar.cmpi .ne (Scalar.extui (Scalar.cmpi .eq (BitVec.ofNat 32 (i 0).val) 0#32)) 0#32) = 1#1

abbrev condStream (i : grid0.Coords) : Prop := k0_cond2 i = 1#1

abbrev condNorm1 (i : grid0.Coords) : Prop :=
  (Scalar.cmpi .ne (Scalar.extui (Scalar.cmpi .eq (BitVec.ofNat 32 (i 0).val) 50#32)) 0#32) = 1#1

abbrev condScat1 (i : grid0.Coords) : Prop := k0_cond4 i = 1#1

abbrev condNorm2 (i : grid0.Coords) : Prop :=
  (Scalar.cmpi .ne (Scalar.extui (Scalar.cmpi .eq (BitVec.ofNat 32 (i 0).val) 55#32)) 0#32) = 1#1

abbrev condScat2 (i : grid0.Coords) : Prop := k0_cond6 i = 1#1

theorem hcondInit : ∀ t : Fin cfg0.N, condInit (grid0.coords t) ↔ t.val = 0 :=
  (by decide +kernel : ∀ t : Fin grid0.N, condInit (grid0.coords t) ↔ t.val = 0)
theorem hcondStream : ∀ t : Fin cfg0.N, condStream (grid0.coords t) ↔ t.val < 50 :=
  (by decide +kernel : ∀ t : Fin grid0.N, condStream (grid0.coords t) ↔ t.val < 50)
theorem hcondNorm1 : ∀ t : Fin cfg0.N, condNorm1 (grid0.coords t) ↔ t.val = 50 :=
  (by decide +kernel : ∀ t : Fin grid0.N, condNorm1 (grid0.coords t) ↔ t.val = 50)
theorem hcondScat1 : ∀ t : Fin cfg0.N, condScat1 (grid0.coords t) ↔ (50 ≤ t.val ∧ t.val < 55) :=
  (by decide +kernel : ∀ t : Fin grid0.N, condScat1 (grid0.coords t) ↔ (50 ≤ t.val ∧ t.val < 55))
theorem hcondNorm2 : ∀ t : Fin cfg0.N, condNorm2 (grid0.coords t) ↔ t.val = 55 :=
  (by decide +kernel : ∀ t : Fin grid0.N, condNorm2 (grid0.coords t) ↔ t.val = 55)
theorem hcondScat2 : ∀ t : Fin cfg0.N, condScat2 (grid0.coords t) ↔ 55 ≤ t.val :=
  (by decide +kernel : ∀ t : Fin grid0.N, condScat2 (grid0.coords t) ↔ 55 ≤ t.val)

/-- The row offsets the body computes from the grid point. -/
theorem off_stream : ∀ t : Fin cfg0.N, t.val < 50 → k0_off1 (grid0.coords t) = ![200 * t.val, 0] :=
  (by decide +kernel : ∀ t : Fin grid0.N, t.val < 50 → k0_off1 (grid0.coords t) = ![200 * t.val, 0])
theorem off_scat1 : ∀ t : Fin cfg0.N, 50 ≤ t.val → t.val < 55 → k0_off2 (grid0.coords t) = ![2000 * (t.val - 50), 0] :=
  (by decide +kernel : ∀ t : Fin grid0.N, 50 ≤ t.val → t.val < 55 → k0_off2 (grid0.coords t) = ![2000 * (t.val - 50), 0])
theorem off_scat2 : ∀ t : Fin cfg0.N, 55 ≤ t.val → k0_off3 (grid0.coords t) = ![2000 * (t.val - 55), 0] :=
  (by decide +kernel : ∀ t : Fin grid0.N, 55 ≤ t.val → k0_off3 (grid0.coords t) = ![2000 * (t.val - 55), 0])

/-- `new` is `old` with rows [off, off + 200) replaced by `tile`. -/
def PutTile (off : ℕ) (tile : Vec F S200x2048 .bf16) (old new : Vec F S10000x2048 .bf16) : Prop :=
  (∀ (r : Fin 200) (j : Fin 2048) (h : off + r.val < 10000), new (ValueIdx.ix2 (⟨off + r.val, h⟩ : Fin 10000) j) = tile (ValueIdx.ix2 r j)) ∧
  (∀ (i : Fin 10000) (j : Fin 2048), (i.val < off ∨ off + 200 ≤ i.val) → new (ValueIdx.ix2 i j) = old (ValueIdx.ix2 i j))

/-- Rows [off, off + 2000) of the kept copy. -/
def getTile (off : ℕ) (h : off + 2000 ≤ 10000) (hq : Vec F S10000x2048 .bf16) : Vec F S2000x2048 .bf16 := fun y =>
  hq (ValueIdx.ix2 (⟨off + (y 0).val, by have : (y 0).val < 2000 := (y 0).isLt; omega⟩ : Fin 10000) (⟨(y 1).val, (y 1).isLt⟩ : Fin 2048))

/-- Putting tile `n` into a copy that holds the tiles before it gives one that holds tiles 0..n. -/
theorem HqOk_put (c : Dev nD) (n : ℕ) (hn : n < 50) (old new : Vec F S10000x2048 .bf16)
    (hold : HqOk m c n old) (hput : PutTile (200 * n) (hqRow m c ⟨n, hn⟩) old new) : HqOk m c (n + 1) new := by
  intro b hb r j
  by_cases hbn : b.val = n
  · obtain ⟨b, hb'⟩ := b
    subst hbn
    exact hput.1 r j _
  · have hlt : b.val < n := by omega
    rw [hput.2 _ j (Or.inl (by have := r.isLt; dsimp only; omega))]
    exact hold b hlt r j

/-- Once all fifty tiles are in, a window of 2000 rows is the ten tiles it spans. -/
theorem getTile_of_HqOk (c : Dev nD) (hq : Vec F S10000x2048 .bf16) (hok : HqOk m c 50 hq) (k : Fin 5)
    (h : 2000 * k.val + 2000 ≤ 10000) : getTile (2000 * k.val) h hq = hqTile m c k := by
  funext y
  unfold getTile hqTile
  have hy : (y 0).val < 2000 := (y 0).isLt
  have := hok ⟨10 * k.val + (y 0).val / 200, by have := k.isLt; omega⟩ (by have := k.isLt; dsimp only; omega)
    ⟨(y 0).val % 200, Nat.mod_lt _ (by decide)⟩ ⟨(y 1).val, (y 1).isLt⟩
  dsimp only at this
  rw [← this]
  congr 1
  apply congrArg (fun a => ValueIdx.ix2 a _)
  apply Fin.ext
  dsimp only
  omega

abbrev scHq : Memref sig .tc .vmem S10000x2048 .bf16 := Memref.whole cc0_scratch0
abbrev scDe : Memref sig .tc .vmem S1x2048 .f32 := Memref.whole cc0_scratch1
abbrev scA1 : Memref sig .tc .vmem S64x2048 .f32 := Memref.whole cc0_scratch2
abbrev scA2 : Memref sig .tc .vmem S64x2048 .f32 := Memref.whole cc0_scratch3
abbrev scMn : Memref sig .tc .vmem S2048x64 .bf16 := Memref.whole cc0_scratch4

/-- The body's 26 buffers, each a whole memref of its literal shape. -/
structure Bufs where
  a1 : Memref sig .tc .vmem S200x2048 .f32
  h1 : a1.IsWhole
  a2 : Memref sig .tc .vmem S200x128 .f32
  h2 : a2.IsWhole
  a3 : Memref sig .tc .vmem S200x16 .f32
  h3 : a3.IsWhole
  a4 : Memref sig .tc .vmem S2048x1 .bf16
  h4 : a4.IsWhole
  a5 : Memref sig .tc .vmem S1x2048 .f32
  h5 : a5.IsWhole
  a6 : Memref sig .tc .vmem S128x32 .f32
  h6 : a6.IsWhole
  a7 : Memref sig .tc .vmem S1x32 .f32
  h7 : a7.IsWhole
  a8 : Memref sig .tc .vmem S16x32 .f32
  h8 : a8.IsWhole
  a9 : Memref sig .tc .vmem S1x32 .f32
  h9 : a9.IsWhole
  a10 : Memref sig .tc .vmem S64x64 .f32
  h10 : a10.IsWhole
  a11 : Memref sig .tc .vmem S1x64 .f32
  h11 : a11.IsWhole
  a12 : Memref sig .tc .vmem S64x32 .f32
  h12 : a12.IsWhole
  a13 : Memref sig .tc .vmem S1x32 .f32
  h13 : a13.IsWhole
  a14 : Memref sig .tc .vmem S32x64 .f32
  h14 : a14.IsWhole
  a15 : Memref sig .tc .vmem S1x64 .f32
  h15 : a15.IsWhole
  a16 : Memref sig .tc .vmem S64x64 .f32
  h16 : a16.IsWhole
  a17 : Memref sig .tc .vmem S1x64 .f32
  h17 : a17.IsWhole
  a18 : Memref sig .tc .vmem S64x2 .f32
  h18 : a18.IsWhole
  a19 : Memref sig .tc .vmem S1x2 .f32
  h19 : a19.IsWhole
  a20 : Memref sig .tc .vmem S200x32 .f32
  h20 : a20.IsWhole
  a21 : Memref sig .tc .vmem S2000x2 .f32
  h21 : a21.IsWhole
  a22 : Memref sig .tc .vmem S10000x2048 .bf16
  h22 : a22.IsWhole
  a23 : Memref sig .tc .vmem S1x2048 .f32
  h23 : a23.IsWhole
  a24 : Memref sig .tc .vmem S64x2048 .f32
  h24 : a24.IsWhole
  a25 : Memref sig .tc .vmem S64x2048 .f32
  h25 : a25.IsWhole
  a26 : Memref sig .tc .vmem S2048x64 .bf16
  h26 : a26.IsWhole

/-- What the body finds in its nineteen input buffers. -/
structure Ins (F : FTy → Type) where
  x1 : Vec F S200x2048 .f32
  x2 : Vec F S200x128 .f32
  x3 : Vec F S200x16 .f32
  x4 : Vec F S2048x1 .bf16
  x5 : Vec F S1x2048 .f32
  x6 : Vec F S128x32 .f32
  x7 : Vec F S1x32 .f32
  x8 : Vec F S16x32 .f32
  x9 : Vec F S1x32 .f32
  x10 : Vec F S64x64 .f32
  x11 : Vec F S1x64 .f32
  x12 : Vec F S64x32 .f32
  x13 : Vec F S1x32 .f32
  x14 : Vec F S32x64 .f32
  x15 : Vec F S1x64 .f32
  x16 : Vec F S64x64 .f32
  x17 : Vec F S1x64 .f32
  x18 : Vec F S64x2 .f32
  x19 : Vec F S1x2 .f32

end Cert.Kernel.Hand

end
-- ==== Proof.Word.Dats.lean ====
import proofs.«134735_g40587440947829_cont_sun_m_1101_19_alg».proof.Proof.Word.Cases
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S200x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x2 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x2 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S200x32 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S2000x2 .f32 := win0_20.stage (cfg0.slots t 20)
abbrev hs20 (t : Fin cfg0.N) : (ms20 t).IsWhole := hstage0_20 ((cfg0.slots t 20).cast nbuf0_20)

/-- The body's buffers at point `t`. -/
def bufs (t : Fin cfg0.N) : Bufs :=
  ⟨ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t, ms12 t, hs12 t, ms13 t, hs13 t, ms14 t, hs14 t, ms15 t, hs15 t, ms16 t, hs16 t, ms17 t, hs17 t, ms18 t, hs18 t, ms19 t, hs19 t, ms20 t, hs20 t, scHq, Memref.isWhole_whole _, scDe, Memref.isWhole_whole _, scA1, Memref.isWhole_whole _, scA2, Memref.isWhole_whole _, scMn, Memref.isWhole_whole _⟩

/-- The input windows' blocks at point `t`. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- Before the first point and after the last, each of the five scratch buffers is held at some contents. -/
theorem PhiA0_eq (c : Dev nD) :
    (Pipeline.ΦA spec0 c : sProp 𝕄)
      = iprop(iprop((∃ d, owns (c : Thread nD τ) scHq fullShare d) ∗ (∃ d, owns (c : Thread nD τ) scDe fullShare d) ∗ (∃ d, owns (c : Thread nD τ) scA1 fullShare d) ∗ (∃ d, owns (c : Thread nD τ) scA2 fullShare d) ∗ (∃ d, owns (c : Thread nD τ) scMn fullShare d)) ∗ (∃ r, prngReg c r)) := by
  unfold Pipeline.ΦA; rw [scopedRest0_eq]; simp only [scHq, scDe, scA1, scA2, scMn, owns_whole]; try rfl

/-- The accumulators before point `n`: sums over the tiles already run. -/
def deBefore (c : Dev nD) (n : ℕ) : Vec F S1x2048 .f32 := deAt m c (min (n - 1) 49) (by omega)
def agg1Before (c : Dev nD) (n : ℕ) : Vec F S64x2048 .f32 := agg1At m c (min (n - 1) 49) (by omega)
def agg2Before (c : Dev nD) (n : ℕ) : Vec F S64x2048 .f32 :=
  if n ≤ 50 then k0_pay3 (F := F) else agg2At m c (min (n - 51) 4) (by omega)

/-- The normalised aggregation before point `n`: the first from point 51 to 55, the second from 56 on. -/
def MnOk (c : Dev nD) (n : ℕ) (mn : Vec F S2048x64 .bf16) : Prop :=
  (51 ≤ n → n ≤ 55 → mn = mn1 m c) ∧ (56 ≤ n → mn = mn2 m c)

/-- The invariant before point `n`: the kept copy holds the tiles streamed so far, the accumulators their sums so far. -/
def PhiS (c : Dev nD) : (n : ℕ) → n ≤ cfg0.N → sProp 𝕄
  | 0, _ => Pipeline.ΦA spec0 c
  | n + 1, _ => iprop(iprop((∃ hq, ⌜HqOk m c (n + 1) hq⌝ ∗ owns (c : Thread nD τ) scHq fullShare hq)
      ∗ owns (c : Thread nD τ) scDe fullShare (deBefore m c (n + 1))
      ∗ owns (c : Thread nD τ) scA1 fullShare (agg1Before m c (n + 1))
      ∗ owns (c : Thread nD τ) scA2 fullShare (agg2Before m c (n + 1))
      ∗ (∃ mn, ⌜MnOk m c (n + 1) mn⌝ ∗ owns (c : Thread nD τ) scMn fullShare mn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ hq, ⌜HqOk m c n hq⌝ ∗ owns (c : Thread nD τ) scHq fullShare hq)
      ∗ owns (c : Thread nD τ) scDe fullShare (deBefore m c n)
      ∗ owns (c : Thread nD τ) scA1 fullShare (agg1Before m c n)
      ∗ owns (c : Thread nD τ) scA2 fullShare (agg2Before m c n)
      ∗ (∃ mn, ⌜MnOk m c n mn⌝ ∗ owns (c : Thread nD τ) scMn fullShare mn)) ∗ (∃ r, prngReg c r)) := by
  cases n with
  | zero => exact absurd rfl hz
  | succ n => rfl

/-- What the gate's and the logits' buffers hold after point `t`. -/
def gAfter (c : Dev nD) (t : Fin cfg0.N) : Vec F S200x32 .f32 := gTile m c ⟨min t.val 49, by omega⟩

def loAfter (c : Dev nD) (t : Fin cfg0.N) : Vec F S2000x2 .f32 := loTile m c ⟨min (t.val - 55) 4, by omega⟩

/-- What each buffer holds after point `t`: an input its block, the two outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => gAfter m c t
    | ⟨20, _⟩ => loAfter m c t
    | ⟨_ + 21, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = gAfter m c t := by dsimp only [dats]
theorem after_20 (c : Dev nD) (t : Fin cfg0.N) : (dats m 0 c).after 20 t = loAfter m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

theorem flush_19 : ∀ t : Fin cfg0.N, (cfg0.win 19).flush t = true ↔ (t.val < 49 ∨ t.val = 59) :=
  (by decide +kernel : ∀ t : Fin grid0.N, win0_19.flush t = true ↔ (t.val < 49 ∨ t.val = 59))
theorem flush_20 : ∀ t : Fin cfg0.N, (cfg0.win 20).flush t = true ↔ 55 ≤ t.val :=
  (by decide +kernel : ∀ t : Fin grid0.N, win0_20.flush t = true ↔ 55 ≤ t.val)
theorem idle_19 : ∀ t : Fin cfg0.N, cfg0.idle 19 (grid0.coords t) = true ↔ 50 ≤ t.val :=
  (by decide +kernel : ∀ t : Fin grid0.N, idle0 19 (grid0.coords t) = true ↔ 50 ≤ t.val)
theorem idle_20 : ∀ t : Fin cfg0.N, cfg0.idle 20 (grid0.coords t) = true ↔ t.val < 55 :=
  (by decide +kernel : ∀ t : Fin grid0.N, idle0 20 (grid0.coords t) = true ↔ t.val < 55)

/-- What the body finds in the two output buffers, by induction over the points. -/
theorem before_19_stream (c : Dev nD) (t : Fin cfg0.N) (ht : t.val < 50) (d) : (dats m 0 c).before 19 t d = d := by
  apply Dat.before_out_reset (dats m 0 c) 19 rfl t
  by_cases h0 : t.val = 0
  · exact Or.inl h0
  · exact Or.inr ⟨h0, (flush_19 _).mpr (Or.inl (by show t.val - 1 < 49; omega))⟩

theorem kept_19 (c : Dev nD) (t : Fin cfg0.N) (d) : (dats m 0 c).kept 19 t d = gAfter m c t := by
  unfold Dat.kept
  rw [Pipeline.fill_of_clip_none (cfg := cfg0) 19 _ (fun _ => rfl) d ((dats m 0 c).after 19 t), Window.fill_cut, after_19]

theorem before_19_late_aux (c : Dev nD) (d) : ∀ (n : ℕ) (hn : n < cfg0.N), 50 ≤ n →
    (dats m 0 c).before 19 ⟨n, hn⟩ d = gTile m c ⟨49, by decide⟩
  | 0, _, h => absurd h (by decide)
  | n + 1, hn, h => by
    have hN : cfg0.N = 60 := N_0
    rw [Dat.before_of_pos (dats m 0 c) 19 ⟨n + 1, hn⟩ (Nat.succ_ne_zero n) ((cfg0.win 19).fetch_out rfl _)]
    show (if (cfg0.win 19).flush ⟨n, Nat.lt_of_succ_lt hn⟩ then d else (dats m 0 c).left 19 ⟨n, Nat.lt_of_succ_lt hn⟩ d) = _
    have hfl : (cfg0.win 19).flush ⟨n, Nat.lt_of_succ_lt hn⟩ = false := by
      cases hh : (cfg0.win 19).flush ⟨n, Nat.lt_of_succ_lt hn⟩ with
      | false => rfl
      | true => exact absurd ((flush_19 _).mp hh) (by show ¬(n < 49 ∨ n = 59); omega)
    rw [hfl, if_neg Bool.false_ne_true]
    unfold Dat.left
    by_cases h50 : 50 ≤ n
    · rw [(idle_19 ⟨n, Nat.lt_of_succ_lt hn⟩).mpr h50]
      exact before_19_late_aux c d n _ h50
    · have hi : cfg0.idle 19 (grid0.coords ⟨n, Nat.lt_of_succ_lt hn⟩) = false := by
        cases hh : cfg0.idle 19 (grid0.coords ⟨n, Nat.lt_of_succ_lt hn⟩) with
        | false => rfl
        | true => exact absurd ((idle_19 _).mp hh) h50
      rw [hi]
      show (dats m 0 c).kept 19 ⟨n, Nat.lt_of_succ_lt hn⟩ d = _
      rw [kept_19]
      unfold gAfter
      exact congrArg (gTile m c) (Fin.ext (by show min n 49 = 49; omega))

theorem before_19_late (c : Dev nD) (t : Fin cfg0.N) (ht : 50 ≤ t.val) (d) :
    (dats m 0 c).before 19 t d = gTile m c ⟨49, by decide⟩ :=
  before_19_late_aux m c d t.val t.isLt ht

theorem before_20_aux (c : Dev nD) (d) : ∀ (n : ℕ) (hn : n < cfg0.N), (dats m 0 c).before 20 ⟨n, hn⟩ d = d
  | 0, hn => Dat.before_out_reset (dats m 0 c) 20 rfl ⟨0, hn⟩ (Or.inl rfl) d
  | n + 1, hn => by
    have hN : cfg0.N = 60 := N_0
    by_cases h55 : 55 ≤ n
    · exact Dat.before_out_reset (dats m 0 c) 20 rfl ⟨n + 1, hn⟩ (Or.inr ⟨Nat.succ_ne_zero n, (flush_20 _).mpr h55⟩) d
    · rw [Dat.before_of_pos (dats m 0 c) 20 ⟨n + 1, hn⟩ (Nat.succ_ne_zero n) ((cfg0.win 20).fetch_out rfl _)]
      show (if (cfg0.win 20).flush ⟨n, Nat.lt_of_succ_lt hn⟩ then d else (dats m 0 c).left 20 ⟨n, Nat.lt_of_succ_lt hn⟩ d) = _
      have hfl : (cfg0.win 20).flush ⟨n, Nat.lt_of_succ_lt hn⟩ = false := by
        cases hh : (cfg0.win 20).flush ⟨n, Nat.lt_of_succ_lt hn⟩ with
        | false => rfl
        | true => exact absurd ((flush_20 _).mp hh) h55
      rw [hfl, if_neg Bool.false_ne_true]
      unfold Dat.left
      rw [(idle_20 ⟨n, Nat.lt_of_succ_lt hn⟩).mpr (by show n < 55; omega)]
      exact before_20_aux c d n _
theorem before_20 (c : Dev nD) (t : Fin cfg0.N) (d) : (dats m 0 c).before 20 t d = d :=
  before_20_aux m c d t.val t.isLt

theorem live_in : ∀ w : Fin cfg0.W, w.val < 19 → ∀ t : Fin cfg0.N, cfg0.idle w (grid0.coords t) = false :=
  (by decide +kernel : ∀ w : Fin 21, w.val < 19 → ∀ t : Fin grid0.N, idle0 w (grid0.coords t) = false)

theorem leaves_0 (c : Dev nD) (t : Fin cfg0.N) :
    (dats m 0 c).leavesExact 0 t = owns (c : Thread nD τ) (ms0 t) fullShare (iblk m c 0 t) := by
  unfold Dat.leavesExact; rw [live_in 0 (by decide) t, after_0]
theorem leaves_1 (c : Dev nD) (t : Fin cfg0.N) :
    (dats m 0 c).leavesExact 1 t = owns (c : Thread nD τ) (ms1 t) fullShare (iblk m c 1 t) := by
  unfold Dat.leavesExact; rw [live_in 1 (by decide) t, after_1]
theorem leaves_2 (c : Dev nD) (t : Fin cfg0.N) :
    (dats m 0 c).leavesExact 2 t = owns (c : Thread nD τ) (ms2 t) fullShare (iblk m c 2 t) := by
  unfold Dat.leavesExact; rw [live_in 2 (by decide) t, after_2]
theorem leaves_3 (c : Dev nD) (t : Fin cfg0.N) :
    (dats m 0 c).leavesExact 3 t = owns (c : Thread nD τ) (ms3 t) fullShare (iblk m c 3 t) := by
  unfold Dat.leavesExact; rw [live_in 3 (by decide) t, after_3]
theorem leaves_4 (c : Dev nD) (t : Fin cfg0.N) :
    (dats m 0 c).leavesExact 4 t = owns (c : Thread nD τ) (ms4 t) fullShare (iblk m c 4 t) := by
  unfold Dat.leavesExact; rw [live_in 4 (by decide) t, after_4]
theorem leaves_5 (c : Dev nD) (t : Fin cfg0.N) :
    (dats m 0 c).leavesExact 5 t = owns (c : Thread nD τ) (ms5 t) fullShare (iblk m c 5 t) := by
  unfold Dat.leavesExact; rw [live_in 5 (by decide) t, after_5]
theorem leaves_6 (c : Dev nD) (t : Fin cfg0.N) :
    (dats m 0 c).leavesExact 6 t = owns (c : Thread nD τ) (ms6 t) fullShare (iblk m c 6 t) := by
  unfold Dat.leavesExact; rw [live_in 6 (by decide) t, after_6]
theorem leaves_7 (c : Dev nD) (t : Fin cfg0.N) :
    (dats m 0 c).leavesExact 7 t = owns (c : Thread nD τ) (ms7 t) fullShare (iblk m c 7 t) := by
  unfold Dat.leavesExact; rw [live_in 7 (by decide) t, after_7]
theorem leaves_8 (c : Dev nD) (t : Fin cfg0.N) :
    (dats m 0 c).leavesExact 8 t = owns (c : Thread nD τ) (ms8 t) fullShare (iblk m c 8 t) := by
  unfold Dat.leavesExact; rw [live_in 8 (by decide) t, after_8]
theorem leaves_9 (c : Dev nD) (t : Fin cfg0.N) :
    (dats m 0 c).leavesExact 9 t = owns (c : Thread nD τ) (ms9 t) fullShare (iblk m c 9 t) := by
  unfold Dat.leavesExact; rw [live_in 9 (by decide) t, after_9]
theorem leaves_10 (c : Dev nD) (t : Fin cfg0.N) :
    (dats m 0 c).leavesExact 10 t = owns (c : Thread nD τ) (ms10 t) fullShare (iblk m c 10 t) := by
  unfold Dat.leavesExact; rw [live_in 10 (by decide) t, after_10]
theorem leaves_11 (c : Dev nD) (t : Fin cfg0.N) :
    (dats m 0 c).leavesExact 11 t = owns (c : Thread nD τ) (ms11 t) fullShare (iblk m c 11 t) := by
  unfold Dat.leavesExact; rw [live_in 11 (by decide) t, after_11]
theorem leaves_12 (c : Dev nD) (t : Fin cfg0.N) :
    (dats m 0 c).leavesExact 12 t = owns (c : Thread nD τ) (ms12 t) fullShare (iblk m c 12 t) := by
  unfold Dat.leavesExact; rw [live_in 12 (by decide) t, after_12]
theorem leaves_13 (c : Dev nD) (t : Fin cfg0.N) :
    (dats m 0 c).leavesExact 13 t = owns (c : Thread nD τ) (ms13 t) fullShare (iblk m c 13 t) := by
  unfold Dat.leavesExact; rw [live_in 13 (by decide) t, after_13]
theorem leaves_14 (c : Dev nD) (t : Fin cfg0.N) :
    (dats m 0 c).leavesExact 14 t = owns (c : Thread nD τ) (ms14 t) fullShare (iblk m c 14 t) := by
  unfold Dat.leavesExact; rw [live_in 14 (by decide) t, after_14]
theorem leaves_15 (c : Dev nD) (t : Fin cfg0.N) :
    (dats m 0 c).leavesExact 15 t = owns (c : Thread nD τ) (ms15 t) fullShare (iblk m c 15 t) := by
  unfold Dat.leavesExact; rw [live_in 15 (by decide) t, after_15]
theorem leaves_16 (c : Dev nD) (t : Fin cfg0.N) :
    (dats m 0 c).leavesExact 16 t = owns (c : Thread nD τ) (ms16 t) fullShare (iblk m c 16 t) := by
  unfold Dat.leavesExact; rw [live_in 16 (by decide) t, after_16]
theorem leaves_17 (c : Dev nD) (t : Fin cfg0.N) :
    (dats m 0 c).leavesExact 17 t = owns (c : Thread nD τ) (ms17 t) fullShare (iblk m c 17 t) := by
  unfold Dat.leavesExact; rw [live_in 17 (by decide) t, after_17]
theorem leaves_18 (c : Dev nD) (t : Fin cfg0.N) :
    (dats m 0 c).leavesExact 18 t = owns (c : Thread nD τ) (ms18 t) fullShare (iblk m c 18 t) := by
  unfold Dat.leavesExact; rw [live_in 18 (by decide) t, after_18]
theorem leaves_19_stream (c : Dev nD) (t : Fin cfg0.N) (ht : t.val < 50) :
    (dats m 0 c).leavesExact 19 t = owns (c : Thread nD τ) (ms19 t) fullShare (gTile m c ⟨t.val, ht⟩) := by
  have hi : cfg0.idle 19 (grid0.coords t) = false := by
    cases hh : cfg0.idle 19 (grid0.coords t) with
    | false => rfl
    | true => exact absurd ((idle_19 t).mp hh) (by omega)
  unfold Dat.leavesExact; rw [hi, after_19]
  unfold gAfter
  rw [show (⟨min t.val 49, by omega⟩ : Fin 50) = ⟨t.val, ht⟩ from Fin.ext (by show min t.val 49 = t.val; omega)]
theorem leaves_19_late (c : Dev nD) (t : Fin cfg0.N) (ht : 50 ≤ t.val) :
    owns (c : Thread nD τ) (ms19 t) fullShare (gTile m c ⟨49, by decide⟩) ⊢ (dats m 0 c).leavesExact 19 t := by
  have hN : cfg0.N = 60 := N_0
  have hi : cfg0.idle 19 (grid0.coords t) = true := (idle_19 t).mpr ht
  by_cases h59 : t.val = 59
  · have hf : (cfg0.win 19).flush t = true := (flush_19 t).mpr (Or.inr h59)
    unfold Dat.leavesExact; rw [hi, hf, after_19]
    unfold gAfter
    rw [show (⟨min t.val 49, by omega⟩ : Fin 50) = ⟨49, by decide⟩ from Fin.ext (by show min t.val 49 = 49; omega)]
  · have hf : (cfg0.win 19).flush t = false := by
      cases hh : (cfg0.win 19).flush t with
      | false => rfl
      | true => exact absurd ((flush_19 t).mp hh) (by omega)
    rw [Dat.leavesExact_idle (dats m 0 c) 19 t hi hf]
    iintro H
    iexists (gTile m c ⟨49, by decide⟩)
    rw [before_19_late m c t ht]
    iexact H
theorem leaves_20_early (c : Dev nD) (t : Fin cfg0.N) (ht : t.val < 55) (d : Vec F S2000x2 .f32) :
    owns (c : Thread nD τ) (ms20 t) fullShare d ⊢ (dats m 0 c).leavesExact 20 t := by
  have hi : cfg0.idle 20 (grid0.coords t) = true := (idle_20 t).mpr ht
  have hf : (cfg0.win 20).flush t = false := by
    cases hh : (cfg0.win 20).flush t with
    | false => rfl
    | true => exact absurd ((flush_20 t).mp hh) (by omega)
  rw [Dat.leavesExact_idle (dats m 0 c) 20 t hi hf]
  iintro H
  iexists d
  rw [before_20 m c t]
  iexact H
theorem leaves_20_late (c : Dev nD) (t : Fin cfg0.N) (ht : 55 ≤ t.val) :
    (dats m 0 c).leavesExact 20 t = owns (c : Thread nD τ) (ms20 t) fullShare (loTile m c ⟨t.val - 55, by have := t.isLt; have : cfg0.N = 60 := N_0; omega⟩) := by
  have hN : cfg0.N = 60 := N_0
  have hi : cfg0.idle 20 (grid0.coords t) = false := by
    cases hh : cfg0.idle 20 (grid0.coords t) with
    | false => rfl
    | true => exact absurd ((idle_20 t).mp hh) (by omega)
  unfold Dat.leavesExact; rw [hi, after_20]
  unfold loAfter
  rw [show (⟨min (t.val - 55) 4, by omega⟩ : Fin 5) = ⟨t.val - 55, by have := t.isLt; omega⟩ from Fin.ext (by show min (t.val - 55) 4 = t.val - 55; have := t.isLt; omega)]

/-- The body's precondition and postcondition at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

theorem body_obligation_of (c : Dev nD)
    (h : ∀ t : Fin cfg0.N, bodyPre m c t ⊢ wp frame (wpE (defs₀ (F := F)) Variants.none c none) Set.univ (bodyAt0 t) (fun _ => bodyPost m c t)) :
    BodyObligation (dats (F := F) m 0 c) (defs₀ (F := F)) Variants.none () Set.univ := fun t => by
  rw [bigSep_W0, bigSep_W0]
  exact h t

/-- A streamed window's block at streaming point `t` is tile `t` of its array. -/
theorem iblk_0_stream (c : Dev nD) (t : Fin cfg0.N) (ht : t.val < 50) : (iblk m c 0 t : Vec F S200x2048 .f32) = Htile m c ⟨t.val, ht⟩ := by
  obtain ⟨e0, e1⟩ := (by decide +kernel : ∀ t : Fin grid0.N, t.val < 50 → win0_0.index t (0 : Fin 2) = t.val ∧ win0_0.index t (1 : Fin 2) = 0) t ht
  funext y
  unfold Htile
  show V m c main_arg2 (((cfg0.win 0).blk t).view.emb y) = V m c main_arg2 _
  apply congrArg; funext a; apply Fin.ext
  match a with
  | ⟨0, _⟩ => show win0_0.index t (0 : Fin 2) * 200 + 1 * (y 0).val = 200 * t.val + (y 0).val; omega
  | ⟨1, _⟩ => show win0_0.index t (1 : Fin 2) * 2048 + 1 * (y 1).val = (y 1).val; omega
theorem iblk_1_stream (c : Dev nD) (t : Fin cfg0.N) (ht : t.val < 50) : (iblk m c 1 t : Vec F S200x128 .f32) = xtile m c ⟨t.val, ht⟩ := by
  obtain ⟨e0, e1⟩ := (by decide +kernel : ∀ t : Fin grid0.N, t.val < 50 → win0_1.index t (0 : Fin 2) = t.val ∧ win0_1.index t (1 : Fin 2) = 0) t ht
  funext y
  unfold xtile
  show V m c main_arg0 (((cfg0.win 1).blk t).view.emb y) = V m c main_arg0 _
  apply congrArg; funext a; apply Fin.ext
  match a with
  | ⟨0, _⟩ => show win0_1.index t (0 : Fin 2) * 200 + 1 * (y 0).val = 200 * t.val + (y 0).val; omega
  | ⟨1, _⟩ => show win0_1.index t (1 : Fin 2) * 128 + 1 * (y 1).val = (y 1).val; omega
theorem iblk_2_stream (c : Dev nD) (t : Fin cfg0.N) (ht : t.val < 50) : (iblk m c 2 t : Vec F S200x16 .f32) = ztile m c ⟨t.val, ht⟩ := by
  obtain ⟨e0, e1⟩ := (by decide +kernel : ∀ t : Fin grid0.N, t.val < 50 → win0_2.index t (0 : Fin 2) = t.val ∧ win0_2.index t (1 : Fin 2) = 0) t ht
  funext y
  unfold ztile
  show V m c main_arg1 (((cfg0.win 2).blk t).view.emb y) = V m c main_arg1 _
  apply congrArg; funext a; apply Fin.ext
  match a with
  | ⟨0, _⟩ => show win0_2.index t (0 : Fin 2) * 200 + 1 * (y 0).val = 200 * t.val + (y 0).val; omega
  | ⟨1, _⟩ => show win0_2.index t (1 : Fin 2) * 16 + 1 * (y 1).val = (y 1).val; omega

/-- A window over a whole array has that array as its block at every point. -/
theorem iblk_3 (c : Dev nD) (t : Fin cfg0.N) : (iblk m c 3 t : Vec F S2048x1 .bf16) = wcol m c := by
  obtain ⟨e0, e1⟩ := (by decide +kernel : ∀ t : Fin grid0.N, win0_3.index t (0 : Fin 2) = 0 ∧ win0_3.index t (1 : Fin 2) = 0) t
  funext y
  show V m c main_v1 (((cfg0.win 3).blk t).view.emb y) = V m c main_v1 y
  apply congrArg; funext a; apply Fin.ext
  match a with
  | ⟨0, _⟩ => show win0_3.index t (0 : Fin 2) * 2048 + 1 * (y 0).val = (y 0).val; omega
  | ⟨1, _⟩ => show win0_3.index t (1 : Fin 2) * 1 + 1 * (y 1).val = (y 1).val; omega
theorem iblk_4 (c : Dev nD) (t : Fin cfg0.N) : (iblk m c 4 t : Vec F S1x2048 .f32) = wrow m c := by
  obtain ⟨e0, e1⟩ := (by decide +kernel : ∀ t : Fin grid0.N, win0_4.index t (0 : Fin 2) = 0 ∧ win0_4.index t (1 : Fin 2) = 0) t
  funext y
  show V m c main_v2 (((cfg0.win 4).blk t).view.emb y) = V m c main_v2 y
  apply congrArg; funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega
theorem iblk_5 (c : Dev nD) (t : Fin cfg0.N) : (iblk m c 5 t : Vec F S128x32 .f32) = psiW m c := by
  obtain ⟨e0, e1⟩ := (by decide +kernel : ∀ t : Fin grid0.N, win0_5.index t (0 : Fin 2) = 0 ∧ win0_5.index t (1 : Fin 2) = 0) t
  funext y
  show V m c main_arg4 (((cfg0.win 5).blk t).view.emb y) = V m c main_arg4 y
  apply congrArg; funext a; apply Fin.ext
  match a with
  | ⟨0, _⟩ => show win0_5.index t (0 : Fin 2) * 128 + 1 * (y 0).val = (y 0).val; omega
  | ⟨1, _⟩ => show win0_5.index t (1 : Fin 2) * 32 + 1 * (y 1).val = (y 1).val; omega
theorem iblk_6 (c : Dev nD) (t : Fin cfg0.N) : (iblk m c 6 t : Vec F S1x32 .f32) = psib m c := by
  obtain ⟨e0, e1⟩ := (by decide +kernel : ∀ t : Fin grid0.N, win0_6.index t (0 : Fin 2) = 0 ∧ win0_6.index t (1 : Fin 2) = 0) t
  funext y
  show V m c main_v3 (((cfg0.win 6).blk t).view.emb y) = V m c main_v3 y
  apply congrArg; funext a; apply Fin.ext
  match a with
  | ⟨0, _⟩ => show win0_6.index t (0 : Fin 2) * 1 + 1 * (y 0).val = (y 0).val; omega
  | ⟨1, _⟩ => show win0_6.index t (1 : Fin 2) * 32 + 1 * (y 1).val = (y 1).val; omega
theorem iblk_7 (c : Dev nD) (t : Fin cfg0.N) : (iblk m c 7 t : Vec F S16x32 .f32) = phiW m c := by
  obtain ⟨e0, e1⟩ := (by decide +kernel : ∀ t : Fin grid0.N, win0_7.index t (0 : Fin 2) = 0 ∧ win0_7.index t (1 : Fin 2) = 0) t
  funext y
  show V m c main_arg6 (((cfg0.win 7).blk t).view.emb y) = V m c main_arg6 y
  apply congrArg; funext a; apply Fin.ext
  match a with
  | ⟨0, _⟩ => show win0_7.index t (0 : Fin 2) * 16 + 1 * (y 0).val = (y 0).val; omega
  | ⟨1, _⟩ => show win0_7.index t (1 : Fin 2) * 32 + 1 * (y 1).val = (y 1).val; omega
theorem iblk_8 (c : Dev nD) (t : Fin cfg0.N) : (iblk m c 8 t : Vec F S1x32 .f32) = phib m c := by
  obtain ⟨e0, e1⟩ := (by decide +kernel : ∀ t : Fin grid0.N, win0_8.index t (0 : Fin 2) = 0 ∧ win0_8.index t (1 : Fin 2) = 0) t
  funext y
  show V m c main_v4 (((cfg0.win 8).blk t).view.emb y) = V m c main_v4 y
  apply congrArg; funext a; apply Fin.ext
  match a with
  | ⟨0, _⟩ => show win0_8.index t (0 : Fin 2) * 1 + 1 * (y 0).val = (y 0).val; omega
  | ⟨1, _⟩ => show win0_8.index t (1 : Fin 2) * 32 + 1 * (y 1).val = (y 1).val; omega
theorem iblk_9 (c : Dev nD) (t : Fin cfg0.N) : (iblk m c 9 t : Vec F S64x64 .f32) = g1W m c := by
  obtain ⟨e0, e1⟩ := (by decide +kernel : ∀ t : Fin grid0.N, win0_9.index t (0 : Fin 2) = 0 ∧ win0_9.index t (1 : Fin 2) = 0) t
  funext y
  show V m c main_arg8 (((cfg0.win 9).blk t).view.emb y) = V m c main_arg8 y
  apply congrArg; funext a; apply Fin.ext
  match a with
  | ⟨0, _⟩ => show win0_9.index t (0 : Fin 2) * 64 + 1 * (y 0).val = (y 0).val; omega
  | ⟨1, _⟩ => show win0_9.index t (1 : Fin 2) * 64 + 1 * (y 1).val = (y 1).val; omega
theorem iblk_10 (c : Dev nD) (t : Fin cfg0.N) : (iblk m c 10 t : Vec F S1x64 .f32) = g1b m c := by
  obtain ⟨e0, e1⟩ := (by decide +kernel : ∀ t : Fin grid0.N, win0_10.index t (0 : Fin 2) = 0 ∧ win0_10.index t (1 : Fin 2) = 0) t
  funext y
  show V m c main_v5 (((cfg0.win 10).blk t).view.emb y) = V m c main_v5 y
  apply congrArg; funext a; apply Fin.ext
  match a with
  | ⟨0, _⟩ => show win0_10.index t (0 : Fin 2) * 1 + 1 * (y 0).val = (y 0).val; omega
  | ⟨1, _⟩ => show win0_10.index t (1 : Fin 2) * 64 + 1 * (y 1).val = (y 1).val; omega
theorem iblk_11 (c : Dev nD) (t : Fin cfg0.N) : (iblk m c 11 t : Vec F S64x32 .f32) = g2W m c := by
  obtain ⟨e0, e1⟩ := (by decide +kernel : ∀ t : Fin grid0.N, win0_11.index t (0 : Fin 2) = 0 ∧ win0_11.index t (1 : Fin 2) = 0) t
  funext y
  show V m c main_arg10 (((cfg0.win 11).blk t).view.emb y) = V m c main_arg10 y
  apply congrArg; funext a; apply Fin.ext
  match a with
  | ⟨0, _⟩ => show win0_11.index t (0 : Fin 2) * 64 + 1 * (y 0).val = (y 0).val; omega
  | ⟨1, _⟩ => show win0_11.index t (1 : Fin 2) * 32 + 1 * (y 1).val = (y 1).val; omega
theorem iblk_12 (c : Dev nD) (t : Fin cfg0.N) : (iblk m c 12 t : Vec F S1x32 .f32) = g2b m c := by
  obtain ⟨e0, e1⟩ := (by decide +kernel : ∀ t : Fin grid0.N, win0_12.index t (0 : Fin 2) = 0 ∧ win0_12.index t (1 : Fin 2) = 0) t
  funext y
  show V m c main_v6 (((cfg0.win 12).blk t).view.emb y) = V m c main_v6 y
  apply congrArg; funext a; apply Fin.ext
  match a with
  | ⟨0, _⟩ => show win0_12.index t (0 : Fin 2) * 1 + 1 * (y 0).val = (y 0).val; omega
  | ⟨1, _⟩ => show win0_12.index t (1 : Fin 2) * 32 + 1 * (y 1).val = (y 1).val; omega
theorem iblk_13 (c : Dev nD) (t : Fin cfg0.N) : (iblk m c 13 t : Vec F S32x64 .f32) = c1W m c := by
  obtain ⟨e0, e1⟩ := (by decide +kernel : ∀ t : Fin grid0.N, win0_13.index t (0 : Fin 2) = 0 ∧ win0_13.index t (1 : Fin 2) = 0) t
  funext y
  show V m c main_arg12 (((cfg0.win 13).blk t).view.emb y) = V m c main_arg12 y
  apply congrArg; funext a; apply Fin.ext
  match a with
  | ⟨0, _⟩ => show win0_13.index t (0 : Fin 2) * 32 + 1 * (y 0).val = (y 0).val; omega
  | ⟨1, _⟩ => show win0_13.index t (1 : Fin 2) * 64 + 1 * (y 1).val = (y 1).val; omega
theorem iblk_14 (c : Dev nD) (t : Fin cfg0.N) : (iblk m c 14 t : Vec F S1x64 .f32) = c1b m c := by
  obtain ⟨e0, e1⟩ := (by decide +kernel : ∀ t : Fin grid0.N, win0_14.index t (0 : Fin 2) = 0 ∧ win0_14.index t (1 : Fin 2) = 0) t
  funext y
  show V m c main_v7 (((cfg0.win 14).blk t).view.emb y) = V m c main_v7 y
  apply congrArg; funext a; apply Fin.ext
  match a with
  | ⟨0, _⟩ => show win0_14.index t (0 : Fin 2) * 1 + 1 * (y 0).val = (y 0).val; omega
  | ⟨1, _⟩ => show win0_14.index t (1 : Fin 2) * 64 + 1 * (y 1).val = (y 1).val; omega
theorem iblk_15 (c : Dev nD) (t : Fin cfg0.N) : (iblk m c 15 t : Vec F S64x64 .f32) = c2W m c := by
  obtain ⟨e0, e1⟩ := (by decide +kernel : ∀ t : Fin grid0.N, win0_15.index t (0 : Fin 2) = 0 ∧ win0_15.index t (1 : Fin 2) = 0) t
  funext y
  show V m c main_arg14 (((cfg0.win 15).blk t).view.emb y) = V m c main_arg14 y
  apply congrArg; funext a; apply Fin.ext
  match a with
  | ⟨0, _⟩ => show win0_15.index t (0 : Fin 2) * 64 + 1 * (y 0).val = (y 0).val; omega
  | ⟨1, _⟩ => show win0_15.index t (1 : Fin 2) * 64 + 1 * (y 1).val = (y 1).val; omega
theorem iblk_16 (c : Dev nD) (t : Fin cfg0.N) : (iblk m c 16 t : Vec F S1x64 .f32) = c2b m c := by
  obtain ⟨e0, e1⟩ := (by decide +kernel : ∀ t : Fin grid0.N, win0_16.index t (0 : Fin 2) = 0 ∧ win0_16.index t (1 : Fin 2) = 0) t
  funext y
  show V m c main_v8 (((cfg0.win 16).blk t).view.emb y) = V m c main_v8 y
  apply congrArg; funext a; apply Fin.ext
  match a with
  | ⟨0, _⟩ => show win0_16.index t (0 : Fin 2) * 1 + 1 * (y 0).val = (y 0).val; omega
  | ⟨1, _⟩ => show win0_16.index t (1 : Fin 2) * 64 + 1 * (y 1).val = (y 1).val; omega
theorem iblk_17 (c : Dev nD) (t : Fin cfg0.N) : (iblk m c 17 t : Vec F S64x2 .f32) = hdW m c := by
  obtain ⟨e0, e1⟩ := (by decide +kernel : ∀ t : Fin grid0.N, win0_17.index t (0 : Fin 2) = 0 ∧ win0_17.index t (1 : Fin 2) = 0) t
  funext y
  show V m c main_arg16 (((cfg0.win 17).blk t).view.emb y) = V m c main_arg16 y
  apply congrArg; funext a; apply Fin.ext
  match a with
  | ⟨0, _⟩ => show win0_17.index t (0 : Fin 2) * 64 + 1 * (y 0).val = (y 0).val; omega
  | ⟨1, _⟩ => show win0_17.index t (1 : Fin 2) * 2 + 1 * (y 1).val = (y 1).val; omega
theorem iblk_18 (c : Dev nD) (t : Fin cfg0.N) : (iblk m c 18 t : Vec F S1x2 .f32) = hdb m c := by
  obtain ⟨e0, e1⟩ := (by decide +kernel : ∀ t : Fin grid0.N, win0_18.index t (0 : Fin 2) = 0 ∧ win0_18.index t (1 : Fin 2) = 0) t
  funext y
  show V m c main_v9 (((cfg0.win 18).blk t).view.emb y) = V m c main_v9 y
  apply congrArg; funext a; apply Fin.ext
  match a with
  | ⟨0, _⟩ => show win0_18.index t (0 : Fin 2) * 1 + 1 * (y 0).val = (y 0).val; omega
  | ⟨1, _⟩ => show win0_18.index t (1 : Fin 2) * 2 + 1 * (y 1).val = (y 1).val; omega

/-- The invariant before the first point asks nothing of the scratch, and the one after the last gives that back. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 60 := N_0; omega), PhiA0_eq]
  iintro ⟨⟨⟨%hq, %hok, Hq⟩, Hde, Ha1, Ha2, ⟨%mn, %hmn, Hmn⟩⟩, Hg⟩
  isplitl [Hq Hde Ha1 Ha2 Hmn]
  · isplitl [Hq]
    · iexists _; iexact Hq
    isplitl [Hde]
    · iexists _; iexact Hde
    isplitl [Ha1]
    · iexists _; iexact Ha1
    isplitl [Ha2]
    · iexists _; iexact Ha2
    iexists _; iexact Hmn
  iexact Hg

end Cert.Kernel.Hand

end
-- ==== Proof.Word.Run.lean ====
import proofs.«134735_g40587440947829_cont_sun_m_1101_19_alg».proof.Proof.Word.Cases
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- A whole memref loaded through its whole shape reads the contents it is held at. -/
theorem readAt_whole {κ : Kind} {sp : Space} {S : Shape} {e : EltTy} {M : Memref sig κ sp S e} (h : M.IsWhole)
    {off : Fin S.rank → ℕ} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

/-- A store through the whole shape, made last, leaves its payload whatever was there before. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst hz; funext y
  have e := View.read_writes_cons_emb v f (Rect.whole S) w L y
  rw [Rect.emb_whole_apply] at e
  exact e

/-- 2000 rows of the kept copy loaded from row `off 0`, all columns, are that window of it. -/
theorem readAt_window {M : Memref sig .tc .vmem S10000x2048 .bf16} (hM : M.IsWhole)
    (s : Vec F S10000x2048 .bf16) (off : Fin 2 → ℕ) (h1 : off 1 = 0)
    (inb : ∀ a, off a + S2000x2048.size a ≤ S10000x2048.size a) (hb : off 0 + 2000 ≤ 10000) :
    M.view.readAt (Elt F) (Rect.unit (s := S10000x2048) off S2000x2048.size inb).toLoadRect (hM.unread s)
      = getTile (off 0) hb s := by
  rw [View.readAt_eq_ld, hM.read_unread]
  funext y
  unfold getTile
  show s _ = s _
  congr 1
  funext a
  apply Fin.ext
  fin_cases a
  · show off 0 + 1 * (y 0).val = off 0 + (y 0).val
    omega
  · show off 1 + 1 * (y 1).val = (y 1).val
    omega

/-- Storing a tile over rows [off 0, off 0 + 200), all columns, of the kept copy puts that tile in and moves nothing else. -/
theorem putTile_of_store {M : Memref sig .tc .vmem S10000x2048 .bf16} (h : M.IsWhole)
    (off : Fin 2 → ℕ) (inb : ∀ a, off a + S200x2048.size a ≤ S10000x2048.size a) (h1 : off 1 = 0)
    (tile : Vec F S200x2048 .bf16) (old : Vec F S10000x2048 .bf16) :
    PutTile (off 0) tile old
      (M.view.read (Elt F) (M.view.writes (Elt F) (h.unread old)
        [(⟨Rect.unit (s := S10000x2048) off S200x2048.size inb, tile⟩ : View.Piece (Elt F) S10000x2048 .bf16)])) := by
  constructor
  · intro r j hr
    have e : (ValueIdx.ix2 (⟨off 0 + r.val, hr⟩ : Fin 10000) j : S10000x2048.Idx)
        = (Rect.unit (s := S10000x2048) off S200x2048.size inb).emb (ValueIdx.ix2 r j) := by
      funext a
      fin_cases a
      · apply Fin.ext
        show off 0 + r.val = off 0 + 1 * r.val
        omega
      · apply Fin.ext
        show j.val = off 1 + 1 * j.val
        omega
    rw [e]
    exact View.read_writes_cons_emb _ _ _ _ _ _
  · intro i j hi
    rw [View.read_writes_apply_of_forall_not_mem]
    · exact congrFun (h.read_unread old) _
    · intro p hp
      rw [List.mem_singleton] at hp
      subst hp
      rw [Rect.mem_set_unit]
      intro hm
      have := hm 0
      have e0 : ((ValueIdx.ix2 i j : S10000x2048.Idx) 0 : ℕ) = i.val := rfl
      have e1 : S200x2048.size 0 = 200 := rfl
      rw [e0, e1] at this
      omega

/-- The kept copy after such a store is held at some contents with the tile put in. -/
theorem putTile_back (c : Dev nD) {M : Memref sig .tc .vmem S10000x2048 .bf16} (h : M.IsWhole)
    (off : Fin 2 → ℕ) (inb : ∀ a, off a + S200x2048.size a ≤ S10000x2048.size a) (h1 : off 1 = 0)
    (tile : Vec F S200x2048 .bf16) (old : Vec F S10000x2048 .bf16) :
    iprop(M.view.loc (c : Thread nD τ) ↦[M.view.set]{fullShare} M.view.writes (Elt F) (h.unread old)
        [(⟨Rect.unit (s := S10000x2048) off S200x2048.size inb, tile⟩ : View.Piece (Elt F) S10000x2048 .bf16)])
      ⊢ (iprop(∃ hq', ⌜PutTile (off 0) tile old hq'⌝ ∗ ∃ f, ⌜M.view.read (Elt F) f = hq'⌝ ∗ (M.view.loc (c : Thread nD τ) ↦[M.view.set]{fullShare} f)) : sProp 𝕄) := by
  iintro H
  iexists (M.view.read (Elt F) (M.view.writes (Elt F) (h.unread old)
        [(⟨Rect.unit (s := S10000x2048) off S200x2048.size inb, tile⟩ : View.Piece (Elt F) S10000x2048 .bf16)]))
  isplitr
  · ipureintro; exact putTile_of_store h off inb h1 tile old
  iexists _; isplitr; · ipureintro; rfl
  iexact H

variable (c : Dev nD) (i : grid0.Coords) (B : Bufs) (X : Ins F)

/-- The kernel body on these buffers. -/
def body := cc0__kernel (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26

/-- The body's buffers held in full: the inputs at the contents found, the two outputs and four of the scratch
    buffers at the contents given, and `Q` for what is held of the kept copy. -/
def held (y20 : Vec F S200x32 .f32) (y21 : Vec F S2000x2 .f32) (Q : sProp 𝕄) (s23 : Vec F S1x2048 .f32)
    (s24 s25 : Vec F S64x2048 .f32) (s26 : Vec F S2048x64 .bf16) : sProp 𝕄 :=
  iprop(owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a5 fullShare X.x5 ∗ owns (c : Thread nD τ) B.a6 fullShare X.x6 ∗ owns (c : Thread nD τ) B.a7 fullShare X.x7 ∗ owns (c : Thread nD τ) B.a8 fullShare X.x8 ∗ owns (c : Thread nD τ) B.a9 fullShare X.x9 ∗ owns (c : Thread nD τ) B.a10 fullShare X.x10 ∗ owns (c : Thread nD τ) B.a11 fullShare X.x11 ∗ owns (c : Thread nD τ) B.a12 fullShare X.x12 ∗ owns (c : Thread nD τ) B.a13 fullShare X.x13 ∗ owns (c : Thread nD τ) B.a14 fullShare X.x14 ∗ owns (c : Thread nD τ) B.a15 fullShare X.x15 ∗ owns (c : Thread nD τ) B.a16 fullShare X.x16 ∗ owns (c : Thread nD τ) B.a17 fullShare X.x17 ∗ owns (c : Thread nD τ) B.a18 fullShare X.x18 ∗ owns (c : Thread nD τ) B.a19 fullShare X.x19 ∗ owns (c : Thread nD τ) B.a20 fullShare y20 ∗ owns (c : Thread nD τ) B.a21 fullShare y21 ∗ Q ∗ owns (c : Thread nD τ) B.a23 fullShare s23 ∗ owns (c : Thread nD τ) B.a24 fullShare s24 ∗ owns (c : Thread nD τ) B.a25 fullShare s25 ∗ owns (c : Thread nD τ) B.a26 fullShare s26)

/-- The same with the inputs at their raw contents, and anything for the seven other buffers. -/
def raw (R20 R21 R22 R23 R24 R25 R26 : sProp 𝕄) : sProp 𝕄 :=
  iprop((B.a1.view.loc (c : Thread nD τ) ↦[B.a1.view.set]{fullShare} B.h1.unread X.x1) ∗ (B.a2.view.loc (c : Thread nD τ) ↦[B.a2.view.set]{fullShare} B.h2.unread X.x2) ∗ (B.a3.view.loc (c : Thread nD τ) ↦[B.a3.view.set]{fullShare} B.h3.unread X.x3) ∗ (B.a4.view.loc (c : Thread nD τ) ↦[B.a4.view.set]{fullShare} B.h4.unread X.x4) ∗ (B.a5.view.loc (c : Thread nD τ) ↦[B.a5.view.set]{fullShare} B.h5.unread X.x5) ∗ (B.a6.view.loc (c : Thread nD τ) ↦[B.a6.view.set]{fullShare} B.h6.unread X.x6) ∗ (B.a7.view.loc (c : Thread nD τ) ↦[B.a7.view.set]{fullShare} B.h7.unread X.x7) ∗ (B.a8.view.loc (c : Thread nD τ) ↦[B.a8.view.set]{fullShare} B.h8.unread X.x8) ∗ (B.a9.view.loc (c : Thread nD τ) ↦[B.a9.view.set]{fullShare} B.h9.unread X.x9) ∗ (B.a10.view.loc (c : Thread nD τ) ↦[B.a10.view.set]{fullShare} B.h10.unread X.x10) ∗ (B.a11.view.loc (c : Thread nD τ) ↦[B.a11.view.set]{fullShare} B.h11.unread X.x11) ∗ (B.a12.view.loc (c : Thread nD τ) ↦[B.a12.view.set]{fullShare} B.h12.unread X.x12) ∗ (B.a13.view.loc (c : Thread nD τ) ↦[B.a13.view.set]{fullShare} B.h13.unread X.x13) ∗ (B.a14.view.loc (c : Thread nD τ) ↦[B.a14.view.set]{fullShare} B.h14.unread X.x14) ∗ (B.a15.view.loc (c : Thread nD τ) ↦[B.a15.view.set]{fullShare} B.h15.unread X.x15) ∗ (B.a16.view.loc (c : Thread nD τ) ↦[B.a16.view.set]{fullShare} B.h16.unread X.x16) ∗ (B.a17.view.loc (c : Thread nD τ) ↦[B.a17.view.set]{fullShare} B.h17.unread X.x17) ∗ (B.a18.view.loc (c : Thread nD τ) ↦[B.a18.view.set]{fullShare} B.h18.unread X.x18) ∗ (B.a19.view.loc (c : Thread nD τ) ↦[B.a19.view.set]{fullShare} B.h19.unread X.x19) ∗ R20 ∗ R21 ∗ R22 ∗ R23 ∗ R24 ∗ R25 ∗ R26)

/-- A whole memref held at `x` has the raw contents that read `x`, and conversely. -/
theorem owns_raw {sp : Space} {S : Shape} {e : EltTy} {M : Memref sig .tc sp S e} (hM : M.IsWhole) (x : S.Idx → Elt F e) :
    owns (c : Thread nD τ) M fullShare x ⊢ (M.view.loc (c : Thread nD τ) ↦[M.view.set]{fullShare} hM.unread x : sProp 𝕄) := by
  unfold owns; iintro ⟨%f, %hf, H⟩; obtain rfl := hM.eq_unread hf; iexact H

theorem raw_owns {sp : Space} {S : Shape} {e : EltTy} {M : Memref sig .tc sp S e} (hM : M.IsWhole) (x : S.Idx → Elt F e) :
    (M.view.loc (c : Thread nD τ) ↦[M.view.set]{fullShare} hM.unread x : sProp 𝕄) ⊢ owns (c : Thread nD τ) M fullShare x := by
  unfold owns; iintro H; iexists _; isplitr; · ipureintro; exact hM.read_unread _
  iexact H

/-- To run from the buffers held and hand them back held, it is enough to run from the raw contents and hand the
    inputs back raw: the inputs are only read. -/
theorem of_raw {y20 : Vec F S200x32 .f32} {y21 : Vec F S2000x2 .f32} {s22 : Vec F S10000x2048 .bf16} {s23 : Vec F S1x2048 .f32} {s24 : Vec F S64x2048 .f32} {s25 : Vec F S64x2048 .f32} {s26 : Vec F S2048x64 .bf16} {y20' : Vec F S200x32 .f32} {y21' : Vec F S2000x2 .f32} {Q' : sProp 𝕄} {s23' : Vec F S1x2048 .f32} {s24' s25' : Vec F S64x2048 .f32} {s26' : Vec F S2048x64 .bf16} {K' W : sProp 𝕄}
    (h : iprop(raw c B X (B.a20.view.loc (c : Thread nD τ) ↦[B.a20.view.set]{fullShare} B.h20.unread y20) (B.a21.view.loc (c : Thread nD τ) ↦[B.a21.view.set]{fullShare} B.h21.unread y21) (B.a22.view.loc (c : Thread nD τ) ↦[B.a22.view.set]{fullShare} B.h22.unread s22) (B.a23.view.loc (c : Thread nD τ) ↦[B.a23.view.set]{fullShare} B.h23.unread s23) (B.a24.view.loc (c : Thread nD τ) ↦[B.a24.view.set]{fullShare} B.h24.unread s24) (B.a25.view.loc (c : Thread nD τ) ↦[B.a25.view.set]{fullShare} B.h25.unread s25) (B.a26.view.loc (c : Thread nD τ) ↦[B.a26.view.set]{fullShare} B.h26.unread s26)
        ∗ (raw c B X (owns (c : Thread nD τ) B.a20 fullShare y20') (owns (c : Thread nD τ) B.a21 fullShare y21') Q' (owns (c : Thread nD τ) B.a23 fullShare s23') (owns (c : Thread nD τ) B.a24 fullShare s24') (owns (c : Thread nD τ) B.a25 fullShare s25') (owns (c : Thread nD τ) B.a26 fullShare s26') -∗ K')) ⊢ W) :
    iprop(held c B X y20 y21 (owns (c : Thread nD τ) B.a22 fullShare s22) s23 s24 s25 s26
        ∗ (held c B X y20' y21' Q' s23' s24' s25' s26' -∗ K')) ⊢ W := by
  refine (BI.sep_mono ?_ (BI.wand_intro ((BI.sep_mono_r ?_).trans (BI.wand_elim (Entails.refl _))))).trans h
  · unfold held raw
    iterate 25 refine BI.sep_mono (owns_raw c _ _) ?_
    exact owns_raw c _ _
  · unfold held raw
    iterate 19 refine BI.sep_mono (raw_owns c _ _) ?_
    exact Entails.refl _

variable (y20 : Vec F S200x32 .f32) (y21 : Vec F S2000x2 .f32) (s22 : Vec F S10000x2048 .bf16) (s23 : Vec F S1x2048 .f32) (s24 : Vec F S64x2048 .f32) (s25 : Vec F S64x2048 .f32) (s26 : Vec F S2048x64 .bf16)

set_option maxHeartbeats 4000000 in
/-- Point 0: the three accumulators are zeroed, then the streaming step runs on them. -/
theorem runA (hInit : condInit i) (hS : condStream i) (hN1 : ¬condNorm1 i) (hP1 : ¬condScat1 i) (hN2 : ¬condNorm2 i) (hP2 : ¬condScat2 i) (E : Set ℕ) (K : PUnit → sProp 𝕄) :
    iprop(held c B X y20 y21 (owns (c : Thread nD τ) B.a22 fullShare s22) s23 s24 s25 s26
        ∗ (held c B X (k0_pay16 (k0_pay13 X.x2 X.x6 X.x7) (k0_pay14 X.x3 X.x8) X.x9 X.x10 X.x11 X.x12 X.x13) y21 iprop(∃ hq', ⌜PutTile ((k0_off1 i) 0) (k0_pay10 X.x1) s22 hq'⌝ ∗ owns (c : Thread nD τ) B.a22 fullShare hq') (k0_pay12 X.x1 (k0_pay1 (F := F))) (k0_pay4 (k0_pay2 (F := F)) (k0_pay17 (k0_pay9 X.x1) (k0_pay11 X.x1 X.x4) (k0_pay13 X.x2 X.x6 X.x7) (k0_pay14 X.x3 X.x8) X.x9 X.x10 X.x11 X.x12 X.x13 X.x14 X.x15)) (k0_pay3 (F := F)) s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_unfold_run_names
  simp only [View.readCov_cons_toLoadRect, readAt_whole (S := S200x2048) _ hz2, readAt_whole (S := S200x128) _ hz2, readAt_whole (S := S200x16) _ hz2, readAt_whole (S := S2048x1) _ hz2, readAt_whole (S := S1x2048) _ hz2, readAt_whole (S := S128x32) _ hz2, readAt_whole (S := S1x32) _ hz2, readAt_whole (S := S16x32) _ hz2, readAt_whole (S := S64x64) _ hz2, readAt_whole (S := S1x64) _ hz2, readAt_whole (S := S64x32) _ hz2, readAt_whole (S := S32x64) _ hz2, readAt_whole (S := S64x2) _ hz2, readAt_whole (S := S1x2) _ hz2, readAt_whole (S := S200x32) _ hz2, readAt_whole (S := S2000x2) _ hz2, readAt_whole (S := S64x2048) _ hz2, readAt_whole (S := S2048x64) _ hz2]
  sl_step
  iapply Hk
  iframe H1 H2 H3 H4 H5 H6 H7 H8 H9 H10 H11 H12 H13 H14 H15 H16 H17 H18 H19
  isplitl [H20]
  · iexists _; isplitr; rotate_left
    · iexact H20
    · ipureintro; exact read_store_whole _ _ hz2 _ _ _
  isplitl [H21]
  · iexists _; isplitr; · ipureintro; exact harg21.read_unread _
    iexact H21
  isplitl [H22]
  · iapply (putTile_back (F := F) c harg22 (k0_off1 i) (k0_off1_inb i hS) (by rw [k0_off1_eq]; rfl) (k0_pay10 x1) s22)
    iexact H22
  isplitl [H23]
  · iexists _; isplitr; rotate_left
    · iexact H23
    · ipureintro; exact read_store_whole _ _ hz2 _ _ _
  isplitl [H24]
  · iexists _; isplitr; rotate_left
    · iexact H24
    · ipureintro; exact read_store_whole _ _ hz2 _ _ _
  isplitl [H25]
  · iexists _; isplitr; rotate_left
    · iexact H25
    · ipureintro; exact read_store_whole _ _ hz2 _ _ _
  iexists _; isplitr; · ipureintro; exact harg26.read_unread _
  iexact H26

set_option maxHeartbeats 4000000 in
/-- Points 1–49: the streaming step on the accumulators as found. -/
theorem runB (hInit : ¬condInit i) (hS : condStream i) (hN1 : ¬condNorm1 i) (hP1 : ¬condScat1 i) (hN2 : ¬condNorm2 i) (hP2 : ¬condScat2 i) (E : Set ℕ) (K : PUnit → sProp 𝕄) :
    iprop(held c B X y20 y21 (owns (c : Thread nD τ) B.a22 fullShare s22) s23 s24 s25 s26
        ∗ (held c B X (k0_pay16 (k0_pay13 X.x2 X.x6 X.x7) (k0_pay14 X.x3 X.x8) X.x9 X.x10 X.x11 X.x12 X.x13) y21 iprop(∃ hq', ⌜PutTile ((k0_off1 i) 0) (k0_pay10 X.x1) s22 hq'⌝ ∗ owns (c : Thread nD τ) B.a22 fullShare hq') (k0_pay12 X.x1 s23) (k0_pay4 s24 (k0_pay17 (k0_pay9 X.x1) (k0_pay11 X.x1 X.x4) (k0_pay13 X.x2 X.x6 X.x7) (k0_pay14 X.x3 X.x8) X.x9 X.x10 X.x11 X.x12 X.x13 X.x14 X.x15)) s25 s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_unfold_run_names
  simp only [readAt_whole (S := S200x2048) _ hz2, readAt_whole (S := S200x128) _ hz2, readAt_whole (S := S200x16) _ hz2, readAt_whole (S := S2048x1) _ hz2, readAt_whole (S := S1x2048) _ hz2, readAt_whole (S := S128x32) _ hz2, readAt_whole (S := S1x32) _ hz2, readAt_whole (S := S16x32) _ hz2, readAt_whole (S := S64x64) _ hz2, readAt_whole (S := S1x64) _ hz2, readAt_whole (S := S64x32) _ hz2, readAt_whole (S := S32x64) _ hz2, readAt_whole (S := S64x2) _ hz2, readAt_whole (S := S1x2) _ hz2, readAt_whole (S := S200x32) _ hz2, readAt_whole (S := S2000x2) _ hz2, readAt_whole (S := S64x2048) _ hz2, readAt_whole (S := S2048x64) _ hz2]
  sl_step
  iapply Hk
  iframe H1 H2 H3 H4 H5 H6 H7 H8 H9 H10 H11 H12 H13 H14 H15 H16 H17 H18 H19
  isplitl [H20]
  · iexists _; isplitr; rotate_left
    · iexact H20
    · ipureintro; exact read_store_whole _ _ hz2 _ _ _
  isplitl [H21]
  · iexists _; isplitr; · ipureintro; exact harg21.read_unread _
    iexact H21
  isplitl [H22]
  · iexists (arg22.view.read (Elt F) (arg22.view.writes (Elt F) (harg22.unread s22)
        [(⟨Rect.unit (s := S10000x2048) (k0_off1 i) S200x2048.size (k0_off1_inb i hS), k0_pay10 x1⟩ : View.Piece (Elt F) S10000x2048 .bf16)]))
    isplitr
    · ipureintro
      exact putTile_of_store harg22 (k0_off1 i) _ (by rw [k0_off1_eq]; rfl) _ _
    iexists _; isplitr; rotate_left
    · iexact H22
    · ipureintro; rfl
  isplitl [H23]
  · iexists _; isplitr; rotate_left
    · iexact H23
    · ipureintro; exact read_store_whole _ _ hz2 _ _ _
  isplitl [H24]
  · iexists _; isplitr; rotate_left
    · iexact H24
    · ipureintro; exact read_store_whole _ _ hz2 _ _ _
  isplitl [H25]
  · iexists _; isplitr; · ipureintro; exact harg25.read_unread _
    iexact H25
  iexists _; isplitr; · ipureintro; exact harg26.read_unread _
  iexact H26

set_option maxHeartbeats 4000000 in
/-- Point 50: the first aggregation is normalised, then the first scatter step runs with it. -/
theorem runC (hInit : ¬condInit i) (hS : ¬condStream i) (hN1 : condNorm1 i) (hP1 : condScat1 i) (hN2 : ¬condNorm2 i) (hP2 : ¬condScat2 i) (hb : (k0_off2 i) 0 + 2000 ≤ 10000) (E : Set ℕ) (K : PUnit → sProp 𝕄) :
    iprop(held c B X y20 y21 (owns (c : Thread nD τ) B.a22 fullShare s22) s23 s24 s25 s26
        ∗ (held c B X y20 y21 (owns (c : Thread nD τ) B.a22 fullShare s22) s23 s24 (k0_pay6 (getTile ((k0_off2 i) 0) hb s22) X.x4 (k0_pay5 X.x5 s23 s24) X.x16 X.x17 s25) (k0_pay5 X.x5 s23 s24) -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr
    on_goal 2 => iexact H25
    ipureintro
    try sl_unfold_run_names
    simp only [read_store_whole arg25.view _ hz2, read_store_whole arg26.view _ hz2,
      readAt_window harg22 s22 (k0_off2 i) rfl _ hb, View.readCov_unit_zero arg26.view hz2,
      readAt_whole harg4 hz2, readAt_whole harg5 hz2, readAt_whole harg23 hz2,
      readAt_whole harg24 hz2, readAt_whole harg16 hz2, readAt_whole harg17 hz2,
      readAt_whole harg25 hz2, readAt_whole harg26 hz2]
  iexists _; isplitr
  on_goal 2 => iexact H26
  ipureintro
  try sl_unfold_run_names
  simp only [read_store_whole arg25.view _ hz2, read_store_whole arg26.view _ hz2,
    readAt_window harg22 s22 (k0_off2 i) rfl _ hb, View.readCov_unit_zero arg26.view hz2,
    readAt_whole harg4 hz2, readAt_whole harg5 hz2, readAt_whole harg23 hz2,
    readAt_whole harg24 hz2, readAt_whole harg16 hz2, readAt_whole harg17 hz2,
    readAt_whole harg25 hz2, readAt_whole harg26 hz2]

set_option maxHeartbeats 4000000 in
/-- Points 51–54: the first scatter step with the normalised aggregation as found. -/
theorem runD (hInit : ¬condInit i) (hS : ¬condStream i) (hN1 : ¬condNorm1 i) (hP1 : condScat1 i) (hN2 : ¬condNorm2 i) (hP2 : ¬condScat2 i) (hb : (k0_off2 i) 0 + 2000 ≤ 10000) (E : Set ℕ) (K : PUnit → sProp 𝕄) :
    iprop(held c B X y20 y21 (owns (c : Thread nD τ) B.a22 fullShare s22) s23 s24 s25 s26
        ∗ (held c B X y20 y21 (owns (c : Thread nD τ) B.a22 fullShare s22) s23 s24 (k0_pay6 (getTile ((k0_off2 i) 0) hb s22) X.x4 s26 X.x16 X.x17 s25) s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr
    on_goal 2 => iexact H25
    ipureintro
    rw [read_store_whole arg25.view _ hz2, readAt_window harg22 s22 (k0_off2 i) rfl _ hb,
      readAt_whole harg4 hz2, readAt_whole harg26 hz2, readAt_whole harg16 hz2,
      readAt_whole harg17 hz2, readAt_whole harg25 hz2]
  iexists _; isplitr; · ipureintro; exact harg26.read_unread _
  iexact H26

set_option maxHeartbeats 4000000 in
/-- Point 55: the second aggregation is normalised, then the second scatter step and the head run with it. -/
theorem runE (hInit : ¬condInit i) (hS : ¬condStream i) (hN1 : ¬condNorm1 i) (hP1 : ¬condScat1 i) (hN2 : condNorm2 i) (hP2 : condScat2 i) (hb : (k0_off3 i) 0 + 2000 ≤ 10000) (E : Set ℕ) (K : PUnit → sProp 𝕄) :
    iprop(held c B X y20 y21 (owns (c : Thread nD τ) B.a22 fullShare s22) s23 s24 s25 s26
        ∗ (held c B X y20 (k0_pay8 (getTile ((k0_off3 i) 0) hb s22) X.x4 (k0_pay7 X.x5 s23 s25) X.x18 X.x19) (owns (c : Thread nD τ) B.a22 fullShare s22) s23 s24 s25 (k0_pay7 X.x5 s23 s25) -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr
    rotate_left
    · iexact H21
    · ipureintro
      sl_unfold_run_names
      rw [read_store_whole (S := S2000x2) _ _ hz2, readAt_window harg22 s22 (k0_off3 i) rfl _ hb,
        readAt_whole harg4 hz2, View.readCov_unit_zero (S := S2048x64) arg26.view hz2, readAt_whole harg5 hz2,
        readAt_whole harg23 hz2, readAt_whole harg25 hz2, readAt_whole harg18 hz2, readAt_whole harg19 hz2]
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  iexists _; isplitr
  rotate_left
  · iexact H26
  · ipureintro
    sl_unfold_run_names
    rw [read_store_whole (S := S2048x64) _ _ hz2, readAt_whole harg5 hz2, readAt_whole harg23 hz2,
      readAt_whole harg25 hz2]

set_option maxHeartbeats 4000000 in
/-- Points 56–59: the second scatter step and the head with the normalised aggregation as found. -/
theorem runF (hInit : ¬condInit i) (hS : ¬condStream i) (hN1 : ¬condNorm1 i) (hP1 : ¬condScat1 i) (hN2 : ¬condNorm2 i) (hP2 : condScat2 i) (hb : (k0_off3 i) 0 + 2000 ≤ 10000) (E : Set ℕ) (K : PUnit → sProp 𝕄) :
    iprop(held c B X y20 y21 (owns (c : Thread nD τ) B.a22 fullShare s22) s23 s24 s25 s26
        ∗ (held c B X y20 (k0_pay8 (getTile ((k0_off3 i) 0) hb s22) X.x4 s26 X.x18 X.x19) (owns (c : Thread nD τ) B.a22 fullShare s22) s23 s24 s25 s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr
    rotate_left
    · iexact H21
    · ipureintro
      rw [read_store_whole (S := S2000x2) _ _ hz2, readAt_window harg22 s22 (k0_off3 i) rfl _ hb,
        readAt_whole harg4 hz2, readAt_whole harg26 hz2, readAt_whole harg18 hz2, readAt_whole harg19 hz2]
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  iexists _; isplitr; · ipureintro; exact harg26.read_unread _
  iexact H26

end Cert.Kernel.Hand

end
-- ==== Proof.Word.CaseA.lean ====
import proofs.«134735_g40587440947829_cont_sun_m_1101_19_alg».proof.Proof.Word.Dats
import proofs.«134735_g40587440947829_cont_sun_m_1101_19_alg».proof.Proof.Word.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

private theorem caseA_hq (c : Dev nD) (t : Fin cfg0.N) (h0 : t.val = 0) (old new : Vec F S10000x2048 .bf16)
    (hput : PutTile ((k0_off1 (grid0.coords t)) 0) (k0_pay10 (iblk m c 0 t)) old new) : HqOk m c (t.val + 1) new := by
  have ht : t.val < 50 := by omega
  rw [off_stream t ht, iblk_0_stream m c t ht] at hput
  refine HqOk_put m c t.val ht old new (by intro b hb; exact absurd hb (by omega)) ?_
  exact hput

private theorem caseA_de (c : Dev nD) (t : Fin cfg0.N) (h0 : t.val = 0) :
    k0_pay12 (iblk m c 0 t) (k0_pay1 (F := F)) = deBefore m c (t.val + 1) := by
  have ht : t.val < 50 := by omega
  rw [iblk_0_stream m c t ht]
  unfold deBefore
  have key : ∀ (n : ℕ) (hn : n < 50) (b : Fin 50), n = 0 → b.val = 0 →
      k0_pay12 (Htile m c b) (k0_pay1 (F := F)) = deAt m c n hn := by
    intro n hn b e1 e2
    subst e1
    obtain ⟨b, hb⟩ := b
    dsimp only at e2
    subst e2
    rfl
  exact key _ _ _ (by omega) h0

private theorem caseA_g (c : Dev nD) (t : Fin cfg0.N) (ht : t.val < 50) :
    k0_pay16 (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t)
      = gTile m c ⟨t.val, ht⟩ := by
  rw [iblk_1_stream m c t ht, iblk_2_stream m c t ht, iblk_5 m c t, iblk_6 m c t, iblk_7 m c t, iblk_8 m c t, iblk_9 m c t, iblk_10 m c t, iblk_11 m c t, iblk_12 m c t]
  rfl

private theorem caseA_agg1 (c : Dev nD) (t : Fin cfg0.N) (h0 : t.val = 0) :
    k0_pay4 (k0_pay2 (F := F)) (k0_pay17 (k0_pay9 (iblk m c 0 t)) (k0_pay11 (iblk m c 0 t) (iblk m c 3 t)) (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t) (iblk m c 13 t) (iblk m c 14 t))
      = agg1Before m c (t.val + 1) := by
  have ht : t.val < 50 := by omega
  rw [iblk_0_stream m c t ht, iblk_1_stream m c t ht, iblk_2_stream m c t ht, iblk_3 m c t, iblk_5 m c t, iblk_6 m c t, iblk_7 m c t, iblk_8 m c t, iblk_9 m c t, iblk_10 m c t, iblk_11 m c t, iblk_12 m c t, iblk_13 m c t, iblk_14 m c t]
  unfold agg1Before
  have key : ∀ (n : ℕ) (hn : n < 50) (b : Fin 50), n = 0 → b.val = 0 →
      k0_pay4 (k0_pay2 (F := F)) (agg1Tile m c b) = agg1At m c n hn := by
    intro n hn b e1 e2
    subst e1
    obtain ⟨b, hb⟩ := b
    dsimp only at e2
    subst e2
    rfl
  exact key _ _ ⟨t.val, ht⟩ (by omega) h0

private theorem caseA_agg2 (c : Dev nD) (t : Fin cfg0.N) (h0 : t.val = 0) :
    k0_pay3 (F := F) = agg2Before m c (t.val + 1) := by
  unfold agg2Before
  rw [if_pos (by omega)]

private theorem caseA_mn (c : Dev nD) (t : Fin cfg0.N) (h0 : t.val = 0) (mn : Vec F S2048x64 .bf16) : MnOk m c (t.val + 1) mn :=
  ⟨fun h _ => absurd h (by omega), fun h => absurd h (by omega)⟩

set_option maxHeartbeats 4800000 in
/-- The body's triple at point 0. -/
theorem caseA (c : Dev nD) (t : Fin cfg0.N) (h0 : t.val = 0) :
    bodyPre m c t ⊢ wp frame (wpE (defs₀ (F := F)) Variants.none c none) Set.univ (bodyAt0 t) (fun _ => bodyPost m c t) := by
  have ht : t.val < 50 := by omega
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_stream m c t ht, before_20 m c]
  rw [show (dats m 0 c).owesAt () t.succ = (dats m 0 c).owesAt () t.castSucc from rfl]
  rw [Phi_succ, PhiS_pos m c (t.val + 1) t.isLt (Nat.succ_ne_zero _)]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t, leaves_19_stream m c t ht]
  rw [Phi_castSucc, PhiS_zero m c _ _ h0, PhiA0_eq]
  rw [← caseA_de m c t h0, ← caseA_agg1 m c t h0, ← caseA_agg2 m c t h0, ← caseA_g m c t ht]
  iintro ⟨⟨⟨⟨%dq, Hq⟩, ⟨%dd, Hd⟩, ⟨%d1, H1⟩, ⟨%d2, H2⟩, ⟨%dm, Hm⟩⟩, Hg⟩, Ho, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩, ⟨%e12, W12⟩, ⟨%e13, W13⟩, ⟨%e14, W14⟩, ⟨%e15, W15⟩, ⟨%e16, W16⟩, ⟨%e17, W17⟩, ⟨%e18, W18⟩, ⟨%e19, W19⟩, ⟨%e20, W20⟩⟩
  iapply (runA (F := F) c (grid0.coords t) (bufs t) (ins m c t) e19 e20 dq dd d1 d2 dm
    ((hcondInit t).mpr h0) ((hcondStream t).mpr ht) (fun h => absurd ((hcondNorm1 t).mp h) (by omega)) (fun h => absurd ((hcondScat1 t).mp h) (by omega)) (fun h => absurd ((hcondNorm2 t).mp h) (by omega)) (fun h => absurd ((hcondScat2 t).mp h) (by omega)) Set.univ _)
  unfold held bufs ins; dsimp only
  iframe W0 W1 W2 W3 W4 W5 W6 W7 W8 W9 W10 W11 W12 W13 W14 W15 W16 W17 W18 W19 W20 Hq Hd H1 H2 Hm
  iintro ⟨W0, W1, W2, W3, W4, W5, W6, W7, W8, W9, W10, W11, W12, W13, W14, W15, W16, W17, W18, W19, W20, ⟨%hq', %hput, Hq⟩, Hd, H1, H2, Hm⟩
  isplitl [Hq Hd H1 H2 Hm Hg]
  · isplitl [Hq Hd H1 H2 Hm]
    · isplitl [Hq]
      · iexists hq'
        isplitr
        swap; · iexact Hq
        ipureintro; exact caseA_hq m c t h0 dq hq' hput
      iframe Hd H1 H2
      iexists dm
      isplitr
      swap; · iexact Hm
      ipureintro; exact caseA_mn m c t h0 dm
    iexact Hg
  iframe Ho W0 W1 W2 W3 W4 W5 W6 W7 W8 W9 W10 W11 W12 W13 W14 W15 W16 W17 W18 W19
  iapply (leaves_20_early m c t (by omega) e20)
  iexact W20

end Cert.Kernel.Hand

end
-- ==== Proof.Word.CaseB.lean ====
import proofs.«134735_g40587440947829_cont_sun_m_1101_19_alg».proof.Proof.Word.Dats
import proofs.«134735_g40587440947829_cont_sun_m_1101_19_alg».proof.Proof.Word.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem cB_deAt_congr (c : Dev nD) (a b : ℕ) (ha : a < 50) (hb : b < 50) (h : a = b) : deAt m c a ha = deAt m c b hb := by
  subst h; rfl
theorem cB_agg1At_congr (c : Dev nD) (a b : ℕ) (ha : a < 50) (hb : b < 50) (h : a = b) : agg1At m c a ha = agg1At m c b hb := by
  subst h; rfl

theorem cB_de_step_nat (c : Dev nD) (k : ℕ) (hk : k < 50) (h0 : k ≠ 0) :
    k0_pay12 (Htile m c ⟨k, hk⟩) (deBefore m c k) = deBefore m c (k + 1) := by
  obtain ⟨n, rfl⟩ : ∃ n, k = n + 1 := ⟨k - 1, by omega⟩
  unfold deBefore
  rw [cB_deAt_congr m c (min (n + 1 + 1 - 1) 49) (n + 1) (by omega) hk (by omega),
    cB_deAt_congr m c (min (n + 1 - 1) 49) n (by omega) (by omega) (by omega)]
  rfl

theorem cB_agg1_step_nat (c : Dev nD) (k : ℕ) (hk : k < 50) (h0 : k ≠ 0) :
    k0_pay4 (agg1Before m c k) (agg1Tile m c ⟨k, hk⟩) = agg1Before m c (k + 1) := by
  obtain ⟨n, rfl⟩ : ∃ n, k = n + 1 := ⟨k - 1, by omega⟩
  unfold agg1Before
  rw [cB_agg1At_congr m c (min (n + 1 + 1 - 1) 49) (n + 1) (by omega) hk (by omega),
    cB_agg1At_congr m c (min (n + 1 - 1) 49) n (by omega) (by omega) (by omega)]
  rfl

theorem cB_agg2_stream (c : Dev nD) (k : ℕ) (hk : k < 50) : agg2Before m c (k + 1) = agg2Before m c k := by
  unfold agg2Before
  rw [if_pos (by omega), if_pos (by omega)]

theorem cB_MnOk_early (c : Dev nD) (n : ℕ) (hn : n ≤ 50) (mn : Vec F S2048x64 .bf16) : MnOk m c n mn :=
  ⟨fun h => absurd h (by omega), fun h => absurd h (by omega)⟩

theorem cB_gate_at (c : Dev nD) (t : Fin cfg0.N) (h50 : t.val < 50) :
    k0_pay16 (k0_pay13 (iblk m c 1 t : Vec F S200x128 .f32) (iblk m c 5 t : Vec F S128x32 .f32) (iblk m c 6 t : Vec F S1x32 .f32))
        (k0_pay14 (iblk m c 2 t : Vec F S200x16 .f32) (iblk m c 7 t : Vec F S16x32 .f32)) (iblk m c 8 t : Vec F S1x32 .f32)
        (iblk m c 9 t : Vec F S64x64 .f32) (iblk m c 10 t : Vec F S1x64 .f32) (iblk m c 11 t : Vec F S64x32 .f32) (iblk m c 12 t : Vec F S1x32 .f32)
      = gTile m c ⟨t.val, h50⟩ := by
  rw [iblk_1_stream m c t h50, iblk_2_stream m c t h50, iblk_5, iblk_6, iblk_7, iblk_8, iblk_9, iblk_10, iblk_11, iblk_12]
  rfl

theorem cB_de_at (c : Dev nD) (t : Fin cfg0.N) (h0 : t.val ≠ 0) (h50 : t.val < 50) :
    k0_pay12 (iblk m c 0 t : Vec F S200x2048 .f32) (deBefore m c t.val) = deBefore m c (t.val + 1) := by
  rw [iblk_0_stream m c t h50]
  exact cB_de_step_nat m c t.val h50 h0

theorem cB_agg1_at (c : Dev nD) (t : Fin cfg0.N) (h0 : t.val ≠ 0) (h50 : t.val < 50) :
    k0_pay4 (agg1Before m c t.val)
        (k0_pay17 (k0_pay9 (iblk m c 0 t : Vec F S200x2048 .f32)) (k0_pay11 (iblk m c 0 t : Vec F S200x2048 .f32) (iblk m c 3 t : Vec F S2048x1 .bf16))
          (k0_pay13 (iblk m c 1 t : Vec F S200x128 .f32) (iblk m c 5 t : Vec F S128x32 .f32) (iblk m c 6 t : Vec F S1x32 .f32))
          (k0_pay14 (iblk m c 2 t : Vec F S200x16 .f32) (iblk m c 7 t : Vec F S16x32 .f32)) (iblk m c 8 t : Vec F S1x32 .f32)
          (iblk m c 9 t : Vec F S64x64 .f32) (iblk m c 10 t : Vec F S1x64 .f32) (iblk m c 11 t : Vec F S64x32 .f32) (iblk m c 12 t : Vec F S1x32 .f32)
          (iblk m c 13 t : Vec F S32x64 .f32) (iblk m c 14 t : Vec F S1x64 .f32))
      = agg1Before m c (t.val + 1) := by
  rw [iblk_0_stream m c t h50, iblk_1_stream m c t h50, iblk_2_stream m c t h50, iblk_3, iblk_5, iblk_6, iblk_7, iblk_8, iblk_9, iblk_10, iblk_11, iblk_12, iblk_13, iblk_14]
  exact cB_agg1_step_nat m c t.val h50 h0

theorem cB_hq_at (c : Dev nD) (t : Fin cfg0.N) (h50 : t.val < 50) (old new : Vec F S10000x2048 .bf16)
    (hold : HqOk m c t.val old)
    (hput : PutTile ((k0_off1 (grid0.coords t)) 0) (k0_pay10 (iblk m c 0 t : Vec F S200x2048 .f32)) old new) :
    HqOk m c (t.val + 1) new := by
  rw [off_stream t h50, iblk_0_stream m c t h50] at hput
  exact HqOk_put m c t.val h50 old new hold hput

set_option maxHeartbeats 4800000 in
/-- The body's triple at points 1–49. -/
theorem caseB (c : Dev nD) (t : Fin cfg0.N) (h0 : t.val ≠ 0) (h50 : t.val < 50) :
    bodyPre m c t ⊢ wp frame (wpE (defs₀ (F := F)) Variants.none c none) Set.univ (bodyAt0 t) (fun _ => bodyPost m c t) := by
  have hN : cfg0.N = 60 := N_0
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_stream m c t h50, before_20 m c t]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t, leaves_19_stream m c t h50]
  rw [show (dats m 0 c).owesAt () t.succ = (dats m 0 c).owesAt () t.castSucc from rfl]
  rw [Phi_castSucc, PhiS_pos m c _ _ h0, Phi_succ, PhiS_pos m c _ _ (Nat.succ_ne_zero _)]
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runB (F := F) c (grid0.coords t) (bufs t) (ins m c t) d19 d20 hq (deBefore m c t.val) (agg1Before m c t.val) (agg2Before m c t.val) mn
    (fun h => absurd ((hcondInit t).mp h) h0) ((hcondStream t).mpr h50) (fun h => absurd ((hcondNorm1 t).mp h) (by omega)) (fun h => absurd ((hcondScat1 t).mp h) (by omega)) (fun h => absurd ((hcondNorm2 t).mp h) (by omega)) (fun h => absurd ((hcondScat2 t).mp h) (by omega)) Set.univ _)
  unfold held bufs ins; dsimp only
  iframe H0 H1 H2 H3 H4 H5 H6 H7 H8 H9 H10 H11 H12 H13 H14 H15 H16 H17 H18 H19 H20 Hq Hde Ha1 Ha2 Hmn
  iintro ⟨H0, H1, H2, H3, H4, H5, H6, H7, H8, H9, H10, H11, H12, H13, H14, H15, H16, H17, H18, H19, H20, ⟨%hq', %hput, Hq⟩, Hde, Ha1, Ha2, Hmn⟩
  rw [cB_gate_at m c t h50, cB_de_at m c t h0 h50, cB_agg1_at m c t h0 h50]
  isplitl [Hq Hde Ha1 Ha2 Hmn Hg]
  · isplitl [Hq Hde Ha1 Ha2 Hmn]
    · isplitl [Hq]
      · iexists hq'
        isplitr
        · ipureintro; exact cB_hq_at m c t h50 hq hq' hok hput
        · iexact Hq
      isplitl [Hde]; · iexact Hde
      isplitl [Ha1]; · iexact Ha1
      isplitl [Ha2]; · rw [cB_agg2_stream m c t.val h50]; iexact Ha2
      iexists mn
      isplitr
      · ipureintro; exact cB_MnOk_early m c (t.val + 1) (by omega) mn
      · iexact Hmn
    iexact Hg
  iframe Ho H0 H1 H2 H3 H4 H5 H6 H7 H8 H9 H10 H11 H12 H13 H14 H15 H16 H17 H18 H19
  iapply (leaves_20_early m c t (by omega) d20)
  iexact H20

end Cert.Kernel.Hand

end
-- ==== Proof.Word.CaseC.lean ====
import proofs.«134735_g40587440947829_cont_sun_m_1101_19_alg».proof.Proof.Word.Dats
import proofs.«134735_g40587440947829_cont_sun_m_1101_19_alg».proof.Proof.Word.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem cC_deAt_congr (c : Dev nD) (k k' : ℕ) (hk : k < 50) (hk' : k' < 50) (e : k = k') :
    deAt m c k hk = deAt m c k' hk' := by subst e; rfl
theorem cC_agg1At_congr (c : Dev nD) (k k' : ℕ) (hk : k < 50) (hk' : k' < 50) (e : k = k') :
    agg1At m c k hk = agg1At m c k' hk' := by subst e; rfl

theorem cC_deBefore_late (c : Dev nD) (n : ℕ) (h : 50 ≤ n) : deBefore m c n = deEnd m c :=
  cC_deAt_congr m c _ _ _ _ (by omega)
theorem cC_agg1Before_late (c : Dev nD) (n : ℕ) (h : 50 ≤ n) : agg1Before m c n = agg1End m c :=
  cC_agg1At_congr m c _ _ _ _ (by omega)

theorem cC_agg2Before_early (c : Dev nD) (n : ℕ) (h : n ≤ 50) : agg2Before m c n = k0_pay3 (F := F) := if_pos h
theorem cC_agg2Before_51 (c : Dev nD) (n : ℕ) (h : n = 50) :
    agg2Before m c (n + 1) = k0_pay6 (hqTile m c ⟨0, by decide⟩) (wcol m c) (mn1 m c) (c2W m c) (c2b m c) (k0_pay3 (F := F)) := by
  subst h; unfold agg2Before; rw [if_neg (by decide)]; rfl

theorem cC_HqOk_of_full (c : Dev nD) (n n' : ℕ) (hq : Vec F S10000x2048 .bf16) (h : 50 ≤ n) (hok : HqOk m c n hq) :
    HqOk m c n' hq := fun b _ => hok b (by have := b.isLt; omega)

theorem cC_getTile_congr (off off' : ℕ) (e : off = off') (h : off + 2000 ≤ 10000) (h' : off' + 2000 ≤ 10000)
    (hq : Vec F S10000x2048 .bf16) : getTile off h hq = getTile off' h' hq := by subst e; rfl

theorem cC_getTile_C (c : Dev nD) (t : Fin cfg0.N) (h50 : t.val = 50) (hb : (k0_off2 (grid0.coords t)) 0 + 2000 ≤ 10000)
    (hq : Vec F S10000x2048 .bf16) (hok : HqOk m c t.val hq) :
    getTile ((k0_off2 (grid0.coords t)) 0) hb hq = hqTile m c ⟨0, by decide⟩ := by
  have e : (k0_off2 (grid0.coords t)) 0 = 2000 * (0 : Fin 5).val := by
    rw [off_scat1 t (by omega) (by omega)]; show 2000 * (t.val - 50) = 2000 * 0; omega
  rw [cC_getTile_congr _ _ e hb (by decide) hq]
  exact getTile_of_HqOk m c hq (cC_HqOk_of_full m c t.val 50 hq (by omega) hok) 0 _

theorem cC_scMn_C (c : Dev nD) (t : Fin cfg0.N) (h50 : t.val = 50) :
    k0_pay5 (iblk m c 4 t) (deBefore m c t.val) (agg1Before m c t.val) = mn1 m c := by
  rw [iblk_4, cC_deBefore_late m c _ (by omega), cC_agg1Before_late m c _ (by omega)]; rfl

theorem cC_scA2_C (c : Dev nD) (t : Fin cfg0.N) (h50 : t.val = 50) (hb : (k0_off2 (grid0.coords t)) 0 + 2000 ≤ 10000)
    (hq : Vec F S10000x2048 .bf16) (hok : HqOk m c t.val hq) :
    k0_pay6 (getTile ((k0_off2 (grid0.coords t)) 0) hb hq) (iblk m c 3 t)
        (k0_pay5 (iblk m c 4 t) (deBefore m c t.val) (agg1Before m c t.val)) (iblk m c 15 t) (iblk m c 16 t) (agg2Before m c t.val)
      = agg2Before m c (t.val + 1) := by
  rw [cC_scMn_C m c t h50, cC_getTile_C m c t h50 hb hq hok, iblk_3, iblk_15, iblk_16, cC_agg2Before_early m c _ (by omega),
    cC_agg2Before_51 m c _ h50]

theorem cC_MnOk_51 (c : Dev nD) (n : ℕ) (h : n = 50) : MnOk m c (n + 1) (mn1 m c) :=
  ⟨fun _ _ => rfl, fun h' => by omega⟩

set_option maxHeartbeats 6400000 in
/-- The body's triple at point 50. -/
theorem caseC (c : Dev nD) (t : Fin cfg0.N) (h50 : t.val = 50) :
    bodyPre m c t ⊢ wp frame (wpE (defs₀ (F := F)) Variants.none c none) Set.univ (bodyAt0 t) (fun _ => bodyPost m c t) := by
  have hN : cfg0.N = 60 := N_0
  have ht50 : 50 ≤ t.val := by omega
  have ht55 : t.val < 55 := by omega
  have hb : (k0_off2 (grid0.coords t)) 0 + 2000 ≤ 10000 := by
    rw [off_scat1 t ht50 ht55]; show 2000 * (t.val - 50) + 2000 ≤ 10000; omega
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t ht50, before_20 m c]
  rw [show (dats m 0 c).owesAt () t.succ = (dats m 0 c).owesAt () t.castSucc from rfl]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t]
  rw [Phi_castSucc m c t, PhiS_pos m c _ _ (by omega), Phi_succ m c t, PhiS_pos m c (t.val + 1) _ (Nat.succ_ne_zero _)]
  rw [show deBefore m c (t.val + 1) = deBefore m c t.val from (cC_deBefore_late m c _ (by omega)).trans (cC_deBefore_late m c _ ht50).symm,
    show agg1Before m c (t.val + 1) = agg1Before m c t.val from (cC_agg1Before_late m c _ (by omega)).trans (cC_agg1Before_late m c _ ht50).symm]
  iintro ⟨⟨⟨⟨%hq, %hok, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runC (F := F) c (grid0.coords t) (bufs t) (ins m c t) (gTile m c ⟨49, by decide⟩) d20 hq (deBefore m c t.val) (agg1Before m c t.val) (agg2Before m c t.val) mn
    (fun h => absurd ((hcondInit t).mp h) (by omega)) (fun h => absurd ((hcondStream t).mp h) (by omega)) ((hcondNorm1 t).mpr h50) ((hcondScat1 t).mpr ⟨ht50, ht55⟩) (fun h => absurd ((hcondNorm2 t).mp h) (by omega)) (fun h => absurd ((hcondScat2 t).mp h) (by omega)) hb Set.univ _)
  unfold held bufs ins; dsimp only
  iframe H0 H1 H2 H3 H4 H5 H6 H7 H8 H9 H10 H11 H12 H13 H14 H15 H16 H17 H18 H19 H20 HS0 HS1 HS2 HS3 HS4
  iintro ⟨H0, H1, H2, H3, H4, H5, H6, H7, H8, H9, H10, H11, H12, H13, H14, H15, H16, H17, H18, H19, H20, HS0, HS1, HS2, HS3, HS4⟩
  rw [cC_scA2_C m c t h50 hb hq hok, cC_scMn_C m c t h50]
  isplitl [HS0 HS1 HS2 HS3 HS4 Hg]
  · isplitl [HS0 HS1 HS2 HS3 HS4]
    · isplitl [HS0]
      · iexists hq; isplitr
        · ipureintro; exact cC_HqOk_of_full m c t.val (t.val + 1) hq ht50 hok
        iexact HS0
      iframe HS1 HS2 HS3
      iexists (mn1 m c); isplitr
      · ipureintro; exact cC_MnOk_51 m c t.val h50
      iexact HS4
    iexact Hg
  iframe Ho H0 H1 H2 H3 H4 H5 H6 H7 H8 H9 H10 H11 H12 H13 H14 H15 H16 H17 H18
  isplitl [H19]; · iapply (leaves_19_late m c t ht50); iexact H19
  iapply (leaves_20_early m c t ht55 d20); iexact H20

end Cert.Kernel.Hand

end
-- ==== Proof.Word.CaseD.lean ====
import proofs.«134735_g40587440947829_cont_sun_m_1101_19_alg».proof.Proof.Word.Dats
import proofs.«134735_g40587440947829_cont_sun_m_1101_19_alg».proof.Proof.Word.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem cD_off2_zero (t : Fin cfg0.N) (h50 : 50 ≤ t.val) (h55 : t.val < 55) :
    (k0_off2 (grid0.coords t)) 0 = 2000 * (t.val - 50) := by
  rw [off_scat1 t h50 h55]; rfl

theorem cD_hb_scat1 (t : Fin cfg0.N) (h50 : 50 ≤ t.val) (h55 : t.val < 55) :
    (k0_off2 (grid0.coords t)) 0 + 2000 ≤ 10000 := by
  rw [cD_off2_zero t h50 h55]; omega

theorem cD_getTile_off (off off' : ℕ) (e : off = off') (h : off + 2000 ≤ 10000) (h' : off' + 2000 ≤ 10000)
    (hq : Vec F S10000x2048 .bf16) : getTile off h hq = getTile off' h' hq := by
  subst e; rfl

theorem cD_getTile_scat1 (c : Dev nD) (t : Fin cfg0.N) (h50 : 50 ≤ t.val) (h55 : t.val < 55)
    (hb : (k0_off2 (grid0.coords t)) 0 + 2000 ≤ 10000) (hq : Vec F S10000x2048 .bf16) (hok : HqOk m c t.val hq) :
    getTile ((k0_off2 (grid0.coords t)) 0) hb hq = hqTile m c ⟨t.val - 50, by omega⟩ := by
  rw [cD_getTile_off _ (2000 * (t.val - 50)) (cD_off2_zero t h50 h55) hb (by omega) hq]
  exact getTile_of_HqOk m c hq (fun b _ => hok b (by have := b.isLt; omega)) ⟨t.val - 50, by omega⟩ _

theorem cD_agg2_succ (c : Dev nD) (k : ℕ) (a b d : ℕ) (ha : a = k + 1) (hb : b = k) (hd : d = k + 1)
    (ha' : a < 5) (hb' : b < 5) (hd' : d < 5) :
    k0_pay6 (hqTile m c ⟨a, ha'⟩) (wcol m c) (mn1 m c) (c2W m c) (c2b m c) (agg2At m c b hb') = agg2At m c d hd' := by
  subst ha hb hd; rfl

theorem cD_agg2_step (c : Dev nD) (n : ℕ) (h51 : 51 ≤ n) (h54 : n ≤ 54) :
    k0_pay6 (hqTile m c ⟨n - 50, by omega⟩) (wcol m c) (mn1 m c) (c2W m c) (c2b m c) (agg2Before m c n)
      = agg2Before m c (n + 1) := by
  have h1 : ¬ n ≤ 50 := by omega
  have h2 : ¬ n + 1 ≤ 50 := by omega
  unfold agg2Before
  rw [if_neg h1, if_neg h2]
  exact cD_agg2_succ m c (n - 51) _ _ _ (by omega) (by omega) (by omega) _ _ _

theorem cD_deAt_idx (c : Dev nD) (a b : ℕ) (e : a = b) (ha : a < 50) (hb : b < 50) : deAt m c a ha = deAt m c b hb := by
  subst e; rfl
theorem cD_agg1At_idx (c : Dev nD) (a b : ℕ) (e : a = b) (ha : a < 50) (hb : b < 50) : agg1At m c a ha = agg1At m c b hb := by
  subst e; rfl

theorem cD_deBefore_late (c : Dev nD) (n : ℕ) (h : 50 ≤ n) : deBefore m c (n + 1) = deBefore m c n := by
  unfold deBefore; exact cD_deAt_idx m c _ _ (by omega) _ _
theorem cD_agg1Before_late (c : Dev nD) (n : ℕ) (h : 50 ≤ n) : agg1Before m c (n + 1) = agg1Before m c n := by
  unfold agg1Before; exact cD_agg1At_idx m c _ _ (by omega) _ _

theorem cD_HqOk_late (c : Dev nD) (n : ℕ) (h : 50 ≤ n) (hq : Vec F S10000x2048 .bf16) (hok : HqOk m c n hq) :
    HqOk m c (n + 1) hq := fun b _ => hok b (by have := b.isLt; omega)

theorem cD_MnOk_mn1 (c : Dev nD) (n : ℕ) (h51 : 51 ≤ n) (h55 : n ≤ 55) : MnOk m c n (mn1 m c) :=
  ⟨fun _ _ => rfl, fun h => absurd h (by omega)⟩

set_option maxHeartbeats 4800000 in
/-- The body's triple at points 51–54. -/
theorem caseD (c : Dev nD) (t : Fin cfg0.N) (h50 : 50 < t.val) (h55 : t.val < 55) :
    bodyPre m c t ⊢ wp frame (wpE (defs₀ (F := F)) Variants.none c none) Set.univ (bodyAt0 t) (fun _ => bodyPost m c t) := by
  have hN : cfg0.N = 60 := N_0
  have h50' : 50 ≤ t.val := by omega
  have hz : t.val ≠ 0 := by omega
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t h50', before_20 m c]
  rw [show (dats m 0 c).owesAt () t.succ = (dats m 0 c).owesAt () t.castSucc from rfl]
  rw [Phi_succ, Phi_castSucc, PhiS_pos m c t.val _ hz, PhiS_pos m c (t.val + 1) _ (Nat.succ_ne_zero _)]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t]
  rw [cD_deBefore_late m c t.val h50', cD_agg1Before_late m c t.val h50']
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hmn1 : mn = mn1 m c := hmn.1 (by omega) (by omega)
  subst hmn1
  have hA2 : k0_pay6 (getTile ((k0_off2 (grid0.coords t)) 0) (cD_hb_scat1 t h50' h55) hq) (iblk m c 3 t) (mn1 m c) (iblk m c 15 t) (iblk m c 16 t) (agg2Before m c t.val)
      = agg2Before m c (t.val + 1) := by
    rw [cD_getTile_scat1 m c t h50' h55 _ hq hok, iblk_3, iblk_15, iblk_16]
    exact cD_agg2_step m c t.val (by omega) (by omega)
  rw [← hA2]
  iapply (runD (F := F) c (grid0.coords t) (bufs t) (ins m c t) (gTile m c ⟨49, by decide⟩) d20 hq (deBefore m c t.val) (agg1Before m c t.val) (agg2Before m c t.val) (mn1 m c)
    (fun h => absurd ((hcondInit t).mp h) (by omega)) (fun h => absurd ((hcondStream t).mp h) (by omega)) (fun h => absurd ((hcondNorm1 t).mp h) (by omega)) ((hcondScat1 t).mpr ⟨h50', h55⟩) (fun h => absurd ((hcondNorm2 t).mp h) (by omega)) (fun h => absurd ((hcondScat2 t).mp h) (by omega)) (cD_hb_scat1 t h50' h55) Set.univ _)
  unfold held bufs ins; dsimp only
  iframe H0 H1 H2 H3 H4 H5 H6 H7 H8 H9 H10 H11 H12 H13 H14 H15 H16 H17 H18 H19 H20 Hq Hde Ha1 Ha2 Hmn
  iintro ⟨H0, H1, H2, H3, H4, H5, H6, H7, H8, H9, H10, H11, H12, H13, H14, H15, H16, H17, H18, H19, H20, Hq, Hde, Ha1, Ha2, Hmn⟩
  isplitl [Hq Hde Ha1 Ha2 Hmn Hg]
  · isplitr [Hg]
    swap; · iexact Hg
    isplitl [Hq]
    · iexists hq; isplitr
      · ipureintro; exact cD_HqOk_late m c t.val h50' hq hok
      · iexact Hq
    iframe Hde Ha1 Ha2
    iexists (mn1 m c); isplitr
    · ipureintro; exact cD_MnOk_mn1 m c (t.val + 1) (by omega) (by omega)
    · iexact Hmn
  iframe Ho H0 H1 H2 H3 H4 H5 H6 H7 H8 H9 H10 H11 H12 H13 H14 H15 H16 H17 H18
  isplitl [H19]
  · iapply (leaves_19_late m c t h50'); iexact H19
  iapply (leaves_20_early m c t h55 d20); iexact H20

end Cert.Kernel.Hand

end
-- ==== Proof.Word.CaseE.lean ====
import proofs.«134735_g40587440947829_cont_sun_m_1101_19_alg».proof.Proof.Word.Dats
import proofs.«134735_g40587440947829_cont_sun_m_1101_19_alg».proof.Proof.Word.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

private theorem deBefore_E (c : Dev nD) (n : ℕ) (h : n = 55) : deBefore m c n = deEnd m c := by
  subst h; rfl

private theorem agg2Before_E (c : Dev nD) (n : ℕ) (h : n = 55) : agg2Before m c n = agg2End m c := by
  subst h; rfl

private theorem deBefore_succ_E (c : Dev nD) (n : ℕ) (h : n = 55) : deBefore m c (n + 1) = deBefore m c n := by
  subst h; rfl
private theorem agg1Before_succ_E (c : Dev nD) (n : ℕ) (h : n = 55) : agg1Before m c (n + 1) = agg1Before m c n := by
  subst h; rfl
private theorem agg2Before_succ_E (c : Dev nD) (n : ℕ) (h : n = 55) : agg2Before m c (n + 1) = agg2Before m c n := by
  subst h; rfl

private theorem HqOk_succ_E (c : Dev nD) (n : ℕ) (h : n = 55) (hq : Vec F S10000x2048 .bf16) (hok : HqOk m c n hq) :
    HqOk m c (n + 1) hq := fun b _ r j => hok b (by have := b.isLt; omega) r j
private theorem HqOk_50_E (c : Dev nD) (n : ℕ) (h : n = 55) (hq : Vec F S10000x2048 .bf16) (hok : HqOk m c n hq) :
    HqOk m c 50 hq := fun b _ r j => hok b (by have := b.isLt; omega) r j

private theorem MnOk_succ_E (c : Dev nD) (n : ℕ) (h : n = 55) : MnOk m c (n + 1) (mn2 m c) :=
  ⟨fun _ h' => absurd h' (by omega), fun _ => rfl⟩

private theorem getTile_E (c : Dev nD) (t : Fin cfg0.N) (ht : 55 ≤ t.val)
    (hb : (k0_off3 (grid0.coords t)) 0 + 2000 ≤ 10000) (hq : Vec F S10000x2048 .bf16) (hok : HqOk m c 50 hq) :
    getTile ((k0_off3 (grid0.coords t)) 0) hb hq
      = hqTile m c ⟨t.val - 55, by have := t.isLt; have : cfg0.N = 60 := N_0; omega⟩ := by
  have e : (k0_off3 (grid0.coords t)) 0 = 2000 * (t.val - 55) := by rw [off_scat2 t ht]; rfl
  revert hb
  rw [e]
  intro hb
  exact getTile_of_HqOk m c hq hok ⟨t.val - 55, by have := t.isLt; have : cfg0.N = 60 := N_0; omega⟩ hb

private theorem mn_E (c : Dev nD) (t : Fin cfg0.N) (h55 : t.val = 55) :
    k0_pay7 (iblk m c 4 t : Vec F S1x2048 .f32) (deBefore m c t.val) (agg2Before m c t.val) = mn2 m c := by
  rw [iblk_4, deBefore_E m c _ h55, agg2Before_E m c _ h55]
  rfl

private theorem lo_E (c : Dev nD) (t : Fin cfg0.N) (h55 : t.val = 55)
    (hb : (k0_off3 (grid0.coords t)) 0 + 2000 ≤ 10000) (hq : Vec F S10000x2048 .bf16) (hok : HqOk m c t.val hq) :
    k0_pay8 (getTile ((k0_off3 (grid0.coords t)) 0) hb hq) (iblk m c 3 t : Vec F S2048x1 .bf16)
        (k0_pay7 (iblk m c 4 t : Vec F S1x2048 .f32) (deBefore m c t.val) (agg2Before m c t.val))
        (iblk m c 17 t : Vec F S64x2 .f32) (iblk m c 18 t : Vec F S1x2 .f32)
      = loTile m c ⟨t.val - 55, by have := t.isLt; have : cfg0.N = 60 := N_0; omega⟩ := by
  rw [mn_E m c t h55, getTile_E m c t (by omega) hb hq (HqOk_50_E m c _ h55 hq hok), iblk_3, iblk_17, iblk_18]
  rfl

set_option maxHeartbeats 4800000 in
/-- The body's triple at point 55. -/
theorem caseE (c : Dev nD) (t : Fin cfg0.N) (h55 : t.val = 55) :
    bodyPre m c t ⊢ wp frame (wpE (defs₀ (F := F)) Variants.none c none) Set.univ (bodyAt0 t) (fun _ => bodyPost m c t) := by
  have hN : cfg0.N = 60 := N_0
  have hInit : ¬condInit (grid0.coords t) := fun h => absurd ((hcondInit t).mp h) (by omega)
  have hS : ¬condStream (grid0.coords t) := fun h => absurd ((hcondStream t).mp h) (by omega)
  have hN1 : ¬condNorm1 (grid0.coords t) := fun h => absurd ((hcondNorm1 t).mp h) (by omega)
  have hP1 : ¬condScat1 (grid0.coords t) := fun h => absurd ((hcondScat1 t).mp h) (by omega)
  have hN2 : condNorm2 (grid0.coords t) := (hcondNorm2 t).mpr h55
  have hP2 : condScat2 (grid0.coords t) := (hcondScat2 t).mpr (by omega)
  have hb : (k0_off3 (grid0.coords t)) 0 + 2000 ≤ 10000 := by
    rw [off_scat2 t (by omega)]; show 2000 * (t.val - 55) + 2000 ≤ 10000; omega
  unfold bodyPre bodyPost
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t (by omega), before_20 m c]
  rw [show (dats m 0 c).owesAt () t.succ = (dats m 0 c).owesAt () t.castSucc from rfl]
  rw [Phi_succ, PhiS_pos m c (t.val + 1) _ (Nat.succ_ne_zero _), Phi_castSucc, PhiS_pos m c t.val _ (by omega)]
  rw [leaves_0, leaves_1, leaves_2, leaves_3, leaves_4, leaves_5, leaves_6, leaves_7, leaves_8, leaves_9, leaves_10, leaves_11, leaves_12, leaves_13, leaves_14, leaves_15, leaves_16, leaves_17, leaves_18, leaves_20_late m c t (by omega)]
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have eMn := mn_E m c t h55
  have eLo := lo_E m c t h55 hb hq hok
  iapply (runE (F := F) c (grid0.coords t) (bufs t) (ins m c t) (gTile m c ⟨49, by decide⟩) d20 hq (deBefore m c t.val) (agg1Before m c t.val) (agg2Before m c t.val) mn
    hInit hS hN1 hP1 hN2 hP2 hb Set.univ _)
  unfold held bufs ins; dsimp only
  iframe H0 H1 H2 H3 H4 H5 H6 H7 H8 H9 H10 H11 H12 H13 H14 H15 H16 H17 H18 H19 H20 Hq Hde Ha1 Ha2 Hmn
  rw [eLo, eMn]
  iintro ⟨H0, H1, H2, H3, H4, H5, H6, H7, H8, H9, H10, H11, H12, H13, H14, H15, H16, H17, H18, H19, H20, Hq, Hde, Ha1, Ha2, Hmn⟩
  isplitl [Hq Hde Ha1 Ha2 Hmn Hg]
  · isplitl [Hq Hde Ha1 Ha2 Hmn]
    · isplitl [Hq]
      · iexists hq
        isplitr
        · ipureintro; exact HqOk_succ_E m c _ h55 hq hok
        · iexact Hq
      isplitl [Hde]
      · rw [deBefore_succ_E m c _ h55]; iexact Hde
      isplitl [Ha1]
      · rw [agg1Before_succ_E m c _ h55]; iexact Ha1
      isplitl [Ha2]
      · rw [agg2Before_succ_E m c _ h55]; iexact Ha2
      iexists (mn2 m c)
      isplitr
      · ipureintro; exact MnOk_succ_E m c _ h55
      · iexact Hmn
    iexact Hg
  iframe Ho H0 H1 H2 H3 H4 H5 H6 H7 H8 H9 H10 H11 H12 H13 H14 H15 H16 H17 H18
  isplitl [H19]
  · iapply (leaves_19_late m c t (by omega)); iexact H19
  iexact H20

end Cert.Kernel.Hand

end
-- ==== Proof.Word.CaseF.lean ====
import proofs.«134735_g40587440947829_cont_sun_m_1101_19_alg».proof.Proof.Word.Dats
import proofs.«134735_g40587440947829_cont_sun_m_1101_19_alg».proof.Proof.Word.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem cF_deAt_congr (c : Dev nD) (a b : ℕ) (ha : a < 50) (hb : b < 50) (h : a = b) : deAt m c a ha = deAt m c b hb := by
  subst h; rfl
theorem cF_agg1At_congr (c : Dev nD) (a b : ℕ) (ha : a < 50) (hb : b < 50) (h : a = b) : agg1At m c a ha = agg1At m c b hb := by
  subst h; rfl
theorem cF_agg2At_congr (c : Dev nD) (a b : ℕ) (ha : a < 5) (hb : b < 5) (h : a = b) : agg2At m c a ha = agg2At m c b hb := by
  subst h; rfl

theorem cF_deBefore_succ_late (c : Dev nD) (n : ℕ) (h : 50 ≤ n) : deBefore m c (n + 1) = deBefore m c n := by
  unfold deBefore
  exact cF_deAt_congr m c _ _ _ _ (by omega)
theorem cF_agg1Before_succ_late (c : Dev nD) (n : ℕ) (h : 50 ≤ n) : agg1Before m c (n + 1) = agg1Before m c n := by
  unfold agg1Before
  exact cF_agg1At_congr m c _ _ _ _ (by omega)

theorem cF_agg2Before_succ_late (c : Dev nD) (n : ℕ) (h : 55 ≤ n) : agg2Before m c (n + 1) = agg2Before m c n := by
  unfold agg2Before
  rw [if_neg (by omega), if_neg (by omega)]
  exact cF_agg2At_congr m c _ _ _ _ (by omega)

theorem cF_HqOk_succ_late (c : Dev nD) (n : ℕ) (h : 50 ≤ n) (hq : Vec F S10000x2048 .bf16) (hok : HqOk m c n hq) : HqOk m c (n + 1) hq :=
  fun b hb => hok b (by have := b.isLt; omega)

theorem cF_MnOk_succ_late (c : Dev nD) (n : ℕ) (h : 56 ≤ n) (mn : Vec F S2048x64 .bf16) (hmn : MnOk m c n mn) : MnOk m c (n + 1) mn :=
  ⟨fun _ h2 => absurd h2 (by omega), fun _ => hmn.2 h⟩

theorem cF_hb_scat2 (t : Fin cfg0.N) (h : 55 ≤ t.val) : (k0_off3 (grid0.coords t)) 0 + 2000 ≤ 10000 := by
  have hN : cfg0.N = 60 := N_0
  have := t.isLt
  rw [off_scat2 t h]
  show 2000 * (t.val - 55) + 2000 ≤ 10000
  omega

theorem cF_getTile_scat2 (c : Dev nD) (t : Fin cfg0.N) (h : 55 ≤ t.val) (hb : (k0_off3 (grid0.coords t)) 0 + 2000 ≤ 10000)
    (hq : Vec F S10000x2048 .bf16) (hok : HqOk m c t.val hq) :
    getTile ((k0_off3 (grid0.coords t)) 0) hb hq = hqTile m c ⟨t.val - 55, by have := t.isLt; have : cfg0.N = 60 := N_0; omega⟩ := by
  have hoff : (k0_off3 (grid0.coords t)) 0 = 2000 * (t.val - 55) := by rw [off_scat2 t h]; rfl
  revert hb
  rw [hoff]
  intro hb
  exact getTile_of_HqOk m c hq (fun b hb' => hok b (by have := b.isLt; omega)) ⟨t.val - 55, by have := t.isLt; have : cfg0.N = 60 := N_0; omega⟩ hb

theorem cF_pay8_scat2 (c : Dev nD) (t : Fin cfg0.N) (h : 56 ≤ t.val) (hb : (k0_off3 (grid0.coords t)) 0 + 2000 ≤ 10000)
    (hq : Vec F S10000x2048 .bf16) (hok : HqOk m c t.val hq) (mn : Vec F S2048x64 .bf16) (hmn : MnOk m c t.val mn) :
    k0_pay8 (getTile ((k0_off3 (grid0.coords t)) 0) hb hq) (iblk m c 3 t) mn (iblk m c 17 t) (iblk m c 18 t)
      = loTile m c ⟨t.val - 55, by have := t.isLt; have : cfg0.N = 60 := N_0; omega⟩ := by
  rw [cF_getTile_scat2 m c t (by omega) hb hq hok, hmn.2 h, iblk_3, iblk_17, iblk_18]
  rfl

set_option maxHeartbeats 4800000 in
/-- The body's triple at points 56–59. -/
theorem caseF (c : Dev nD) (t : Fin cfg0.N) (h55 : 55 < t.val) :
    bodyPre m c t ⊢ wp frame (wpE (defs₀ (F := F)) Variants.none c none) Set.univ (bodyAt0 t) (fun _ => bodyPost m c t) := by
  have hN : cfg0.N = 60 := N_0
  have htN : t.val < 60 := lt_of_lt_of_eq t.isLt hN
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t (by omega), before_20 m c]
  rw [show (dats m 0 c).owesAt () t.succ = (dats m 0 c).owesAt () t.castSucc from rfl]
  rw [leaves_0, leaves_1, leaves_2, leaves_3, leaves_4, leaves_5, leaves_6, leaves_7, leaves_8, leaves_9, leaves_10, leaves_11, leaves_12, leaves_13, leaves_14, leaves_15, leaves_16, leaves_17, leaves_18, leaves_20_late m c t (by omega)]
  rw [Phi_castSucc, PhiS_pos m c _ _ (by omega), Phi_succ, PhiS_pos m c (t.val + 1) _ (by omega)]
  rw [cF_deBefore_succ_late m c t.val (by omega), cF_agg1Before_succ_late m c t.val (by omega), cF_agg2Before_succ_late m c t.val (by omega)]
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runF (F := F) c (grid0.coords t) (bufs t) (ins m c t) (gTile m c ⟨49, by decide⟩) d20 hq (deBefore m c t.val) (agg1Before m c t.val) (agg2Before m c t.val) mn
    (fun h => absurd ((hcondInit t).mp h) (by omega)) (fun h => absurd ((hcondStream t).mp h) (by omega)) (fun h => absurd ((hcondNorm1 t).mp h) (by omega)) (fun h => absurd ((hcondScat1 t).mp h) (by omega)) (fun h => absurd ((hcondNorm2 t).mp h) (by omega)) ((hcondScat2 t).mpr (by omega)) (cF_hb_scat2 t (by omega)) Set.univ _)
  unfold held bufs ins; dsimp only
  iframe H0 H1 H2 H3 H4 H5 H6 H7 H8 H9 H10 H11 H12 H13 H14 H15 H16 H17 H18 H19 H20 Hq Hde Ha1 Ha2 Hmn
  iintro ⟨H0, H1, H2, H3, H4, H5, H6, H7, H8, H9, H10, H11, H12, H13, H14, H15, H16, H17, H18, H19, H20, Hq, Hde, Ha1, Ha2, Hmn⟩
  isplitl [Hq Hde Ha1 Ha2 Hmn Hg]
  · isplitl [Hq Hde Ha1 Ha2 Hmn]
    · isplitl [Hq]
      · iexists hq
        isplitr
        · ipureintro; exact cF_HqOk_succ_late m c t.val (by omega) hq hok
        iexact Hq
      iframe Hde Ha1 Ha2
      iexists mn
      isplitr
      · ipureintro; exact cF_MnOk_succ_late m c t.val (by omega) mn hmn
      iexact Hmn
    iexact Hg
  iframe Ho H0 H1 H2 H3 H4 H5 H6 H7 H8 H9 H10 H11 H12 H13 H14 H15 H16 H17 H18
  isplitl [H19]
  · iapply (leaves_19_late m c t (by omega)); iexact H19
  rw [cF_pay8_scat2 m c t (by omega) _ hq hok mn hmn]
  iexact H20

end Cert.Kernel.Hand

end
-- ==== Proof.Word.Body.lean ====
import proofs.«134735_g40587440947829_cont_sun_m_1101_19_alg».proof.Proof.Word.CaseA
import proofs.«134735_g40587440947829_cont_sun_m_1101_19_alg».proof.Proof.Word.CaseB
import proofs.«134735_g40587440947829_cont_sun_m_1101_19_alg».proof.Proof.Word.CaseC
import proofs.«134735_g40587440947829_cont_sun_m_1101_19_alg».proof.Proof.Word.CaseD
import proofs.«134735_g40587440947829_cont_sun_m_1101_19_alg».proof.Proof.Word.CaseE
import proofs.«134735_g40587440947829_cont_sun_m_1101_19_alg».proof.Proof.Word.CaseF
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple at every grid point: the six kinds of point cover the grid. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact caseA m c t h0
  by_cases h50 : t.val < 50
  · exact caseB m c t h0 h50
  by_cases h50' : t.val = 50
  · exact caseC m c t h50'
  by_cases h55 : t.val < 55
  · exact caseD m c t (by omega) h55
  by_cases h55' : t.val = 55
  · exact caseE m c t h55'
  · exact caseF m c t (by omega)

theorem body_obligation (c : Dev nD) : BodyObligation (dats (F := F) m 0 c) (defs₀ (F := F)) Variants.none () Set.univ :=
  body_obligation_of m c (sound_body m c)

set_option backward.isDefEq.respectTransparency.types false in
/-- The region's run: each output array ends at the blocks the points left, every other array as found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Hand

end
-- ==== Proof.Step.lean ====
import proofs.«134735_g40587440947829_cont_sun_m_1101_19_alg».proof.Proof.Gen.KernelIdeal.Frame
import proofs.«134735_g40587440947829_cont_sun_m_1101_19_alg».proof.Proof.Gen.KernelIdeal.Skeleton
import Idealize.ShloMosaic.Lib.ValueIdx

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

abbrev HA (c : Dev nD) : Vec F S10000x2048 .f32 := V m c main_arg2
abbrev xA (c : Dev nD) : Vec F S10000x128 .f32 := V m c main_arg0
abbrev zA (c : Dev nD) : Vec F S10000x16 .f32 := V m c main_arg1

abbrev wcol (c : Dev nD) : Vec F S2048x1 .bf16 := V m c main_v1
abbrev wrow (c : Dev nD) : Vec F S1x2048 .f32 := V m c main_v2

abbrev psiW (c : Dev nD) : Vec F S128x32 .f32 := V m c main_arg4
abbrev psib (c : Dev nD) : Vec F S1x32 .f32 := V m c main_v3
abbrev phiW (c : Dev nD) : Vec F S16x32 .f32 := V m c main_arg6
abbrev phib (c : Dev nD) : Vec F S1x32 .f32 := V m c main_v4
abbrev g1W (c : Dev nD) : Vec F S64x64 .f32 := V m c main_arg8
abbrev g1b (c : Dev nD) : Vec F S1x64 .f32 := V m c main_v5
abbrev g2W (c : Dev nD) : Vec F S64x32 .f32 := V m c main_arg10
abbrev g2b (c : Dev nD) : Vec F S1x32 .f32 := V m c main_v6
abbrev c1W (c : Dev nD) : Vec F S32x64 .f32 := V m c main_arg12
abbrev c1b (c : Dev nD) : Vec F S1x64 .f32 := V m c main_v7
abbrev c2W (c : Dev nD) : Vec F S64x64 .f32 := V m c main_arg14
abbrev c2b (c : Dev nD) : Vec F S1x64 .f32 := V m c main_v8
abbrev hdW (c : Dev nD) : Vec F S64x2 .f32 := V m c main_arg16
abbrev hdb (c : Dev nD) : Vec F S1x2 .f32 := V m c main_v9

/-- Rows [200·b, 200·b + 200) of the incidence matrix; likewise of the two feature matrices below. -/
def Htile (c : Dev nD) (b : Fin 50) : Vec F S200x2048 .f32 := fun y =>
  HA m c (ValueIdx.ix2 (⟨200 * b.val + (y 0).val, by have := b.isLt; have : (y 0).val < 200 := (y 0).isLt; omega⟩ : Fin 10000) (⟨(y 1).val, (y 1).isLt⟩ : Fin 2048))
def xtile (c : Dev nD) (b : Fin 50) : Vec F S200x128 .f32 := fun y =>
  xA m c (ValueIdx.ix2 (⟨200 * b.val + (y 0).val, by have := b.isLt; have : (y 0).val < 200 := (y 0).isLt; omega⟩ : Fin 10000) (⟨(y 1).val, (y 1).isLt⟩ : Fin 128))
def ztile (c : Dev nD) (b : Fin 50) : Vec F S200x16 .f32 := fun y =>
  zA m c (ValueIdx.ix2 (⟨200 * b.val + (y 0).val, by have := b.isLt; have : (y 0).val < 200 := (y 0).isLt; omega⟩ : Fin 10000) (⟨(y 1).val, (y 1).isLt⟩ : Fin 16))

theorem N_eq : cfg0.N = 60 := N_0

/-- Tile `b`'s projected node features, and its projected auxiliary features before the bias. -/
def x1Tile (c : Dev nD) (b : Fin 50) : Vec F S200x32 .f32 := k0_pay13 (xtile m c b) (psiW m c) (psib m c)
def z0Tile (c : Dev nD) (b : Fin 50) : Vec F S200x32 .f32 := k0_pay14 (ztile m c b) (phiW m c)

/-- Tile `b`'s rows of the gate. -/
def gTile (c : Dev nD) (b : Fin 50) : Vec F S200x32 .f32 :=
  k0_pay16 (x1Tile m c b) (z0Tile m c b) (phib m c) (g1W m c) (g1b m c) (g2W m c) (g2b m c)

/-- Tile `b`'s share of the first node-to-hyperedge aggregation, transposed. -/
def agg1Tile (c : Dev nD) (b : Fin 50) : Vec F S64x2048 .f32 :=
  k0_pay17 (k0_pay9 (Htile m c b)) (k0_pay11 (Htile m c b) (wcol m c)) (x1Tile m c b) (z0Tile m c b) (phib m c)
    (g1W m c) (g1b m c) (g2W m c) (g2b m c) (c1W m c) (c1b m c)

/-- The hyperedge degrees summed over tiles 0..n. -/
def deAt (c : Dev nD) : (n : ℕ) → n < 50 → Vec F S1x2048 .f32
  | 0, hn => k0_pay12 (Htile m c ⟨0, hn⟩) (k0_pay1 (F := F))
  | n + 1, hn => k0_pay12 (Htile m c ⟨n + 1, hn⟩) (deAt c n (Nat.lt_of_succ_lt hn))

/-- The first aggregation summed over tiles 0..n. -/
def agg1At (c : Dev nD) : (n : ℕ) → n < 50 → Vec F S64x2048 .f32
  | 0, hn => k0_pay4 (k0_pay2 (F := F)) (agg1Tile m c ⟨0, hn⟩)
  | n + 1, hn => k0_pay4 (agg1At c n (Nat.lt_of_succ_lt hn)) (agg1Tile m c ⟨n + 1, hn⟩)

/-- The 16-bit copy of tile `b`. -/
def hqRow (c : Dev nD) (b : Fin 50) : Vec F S200x2048 .bf16 := k0_pay10 (Htile m c b)

/-- The kept copy holds the first `n` tiles. -/
def HqOk (c : Dev nD) (n : ℕ) (hq : Vec F S10000x2048 .bf16) : Prop :=
  ∀ (b : Fin 50), b.val < n → ∀ (r : Fin 200) (j : Fin 2048),
    hq (ValueIdx.ix2 (⟨200 * b.val + r.val, by have := b.isLt; have := r.isLt; omega⟩ : Fin 10000) j)
      = hqRow m c b (ValueIdx.ix2 r j)

/-- Rows [2000·k, 2000·k + 2000) of the kept copy. -/
def hqTile (c : Dev nD) (k : Fin 5) : Vec F S2000x2048 .bf16 := fun y =>
  hqRow m c ⟨10 * k.val + (y 0).val / 200, by have := k.isLt; have : (y 0).val < 2000 := (y 0).isLt; omega⟩
    (ValueIdx.ix2 (⟨(y 0).val % 200, Nat.mod_lt _ (by decide)⟩ : Fin 200) (⟨(y 1).val, (y 1).isLt⟩ : Fin 2048))

def deEnd (c : Dev nD) : Vec F S1x2048 .f32 := deAt m c 49 (by decide)
def agg1End (c : Dev nD) : Vec F S64x2048 .f32 := agg1At m c 49 (by decide)

/-- The first aggregation scaled per hyperedge by weight over degree, transposed. -/
def mn1 (c : Dev nD) : Vec F S2048x64 .bf16 := k0_pay5 (wrow m c) (deEnd m c) (agg1End m c)

/-- The second aggregation summed over scatter tiles 0..k. -/
def agg2At (c : Dev nD) : (k : ℕ) → k < 5 → Vec F S64x2048 .f32
  | 0, hk => k0_pay6 (hqTile m c ⟨0, hk⟩) (wcol m c) (mn1 m c) (c2W m c) (c2b m c) (k0_pay3 (F := F))
  | k + 1, hk => k0_pay6 (hqTile m c ⟨k + 1, hk⟩) (wcol m c) (mn1 m c) (c2W m c) (c2b m c) (agg2At c k (Nat.lt_of_succ_lt hk))

def agg2End (c : Dev nD) : Vec F S64x2048 .f32 := agg2At m c 4 (by decide)

/-- The second aggregation scaled per hyperedge and transposed. -/
def mn2 (c : Dev nD) : Vec F S2048x64 .bf16 := k0_pay7 (wrow m c) (deEnd m c) (agg2End m c)

/-- Rows [2000·k, 2000·k + 2000) of the logits. -/
def loTile (c : Dev nD) (k : Fin 5) : Vec F S2000x2 .f32 :=
  k0_pay8 (hqTile m c k) (wcol m c) (mn2 m c) (hdW m c) (hdb m c)

end Cert.KernelIdeal.Hand

end
-- ==== Proof.Cases.lean ====
import proofs.«134735_g40587440947829_cont_sun_m_1101_19_alg».proof.Proof.Step

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The six conditions the body branches on; below, the grid points at which each holds. -/
abbrev condInit (i : grid0.Coords) : Prop :=
  (Scalar.cmpi .ne (Scalar.extui (Scalar.cmpi .eq (BitVec.ofNat 32 (i 0).val) 0#32)) 0#32) = 1#1

abbrev condStream (i : grid0.Coords) : Prop := k0_cond2 i = 1#1

abbrev condNorm1 (i : grid0.Coords) : Prop :=
  (Scalar.cmpi .ne (Scalar.extui (Scalar.cmpi .eq (BitVec.ofNat 32 (i 0).val) 50#32)) 0#32) = 1#1

abbrev condScat1 (i : grid0.Coords) : Prop := k0_cond4 i = 1#1

abbrev condNorm2 (i : grid0.Coords) : Prop :=
  (Scalar.cmpi .ne (Scalar.extui (Scalar.cmpi .eq (BitVec.ofNat 32 (i 0).val) 55#32)) 0#32) = 1#1

abbrev condScat2 (i : grid0.Coords) : Prop := k0_cond6 i = 1#1

theorem hcondInit : ∀ t : Fin cfg0.N, condInit (grid0.coords t) ↔ t.val = 0 :=
  (by decide +kernel : ∀ t : Fin grid0.N, condInit (grid0.coords t) ↔ t.val = 0)
theorem hcondStream : ∀ t : Fin cfg0.N, condStream (grid0.coords t) ↔ t.val < 50 :=
  (by decide +kernel : ∀ t : Fin grid0.N, condStream (grid0.coords t) ↔ t.val < 50)
theorem hcondNorm1 : ∀ t : Fin cfg0.N, condNorm1 (grid0.coords t) ↔ t.val = 50 :=
  (by decide +kernel : ∀ t : Fin grid0.N, condNorm1 (grid0.coords t) ↔ t.val = 50)
theorem hcondScat1 : ∀ t : Fin cfg0.N, condScat1 (grid0.coords t) ↔ (50 ≤ t.val ∧ t.val < 55) :=
  (by decide +kernel : ∀ t : Fin grid0.N, condScat1 (grid0.coords t) ↔ (50 ≤ t.val ∧ t.val < 55))
theorem hcondNorm2 : ∀ t : Fin cfg0.N, condNorm2 (grid0.coords t) ↔ t.val = 55 :=
  (by decide +kernel : ∀ t : Fin grid0.N, condNorm2 (grid0.coords t) ↔ t.val = 55)
theorem hcondScat2 : ∀ t : Fin cfg0.N, condScat2 (grid0.coords t) ↔ 55 ≤ t.val :=
  (by decide +kernel : ∀ t : Fin grid0.N, condScat2 (grid0.coords t) ↔ 55 ≤ t.val)

/-- The row offsets the body computes from the grid point. -/
theorem off_stream : ∀ t : Fin cfg0.N, t.val < 50 → k0_off1 (grid0.coords t) = ![200 * t.val, 0] :=
  (by decide +kernel : ∀ t : Fin grid0.N, t.val < 50 → k0_off1 (grid0.coords t) = ![200 * t.val, 0])
theorem off_scat1 : ∀ t : Fin cfg0.N, 50 ≤ t.val → t.val < 55 → k0_off2 (grid0.coords t) = ![2000 * (t.val - 50), 0] :=
  (by decide +kernel : ∀ t : Fin grid0.N, 50 ≤ t.val → t.val < 55 → k0_off2 (grid0.coords t) = ![2000 * (t.val - 50), 0])
theorem off_scat2 : ∀ t : Fin cfg0.N, 55 ≤ t.val → k0_off3 (grid0.coords t) = ![2000 * (t.val - 55), 0] :=
  (by decide +kernel : ∀ t : Fin grid0.N, 55 ≤ t.val → k0_off3 (grid0.coords t) = ![2000 * (t.val - 55), 0])

/-- `new` is `old` with rows [off, off + 200) replaced by `tile`. -/
def PutTile (off : ℕ) (tile : Vec F S200x2048 .bf16) (old new : Vec F S10000x2048 .bf16) : Prop :=
  (∀ (r : Fin 200) (j : Fin 2048) (h : off + r.val < 10000), new (ValueIdx.ix2 (⟨off + r.val, h⟩ : Fin 10000) j) = tile (ValueIdx.ix2 r j)) ∧
  (∀ (i : Fin 10000) (j : Fin 2048), (i.val < off ∨ off + 200 ≤ i.val) → new (ValueIdx.ix2 i j) = old (ValueIdx.ix2 i j))

/-- Rows [off, off + 2000) of the kept copy. -/
def getTile (off : ℕ) (h : off + 2000 ≤ 10000) (hq : Vec F S10000x2048 .bf16) : Vec F S2000x2048 .bf16 := fun y =>
  hq (ValueIdx.ix2 (⟨off + (y 0).val, by have : (y 0).val < 2000 := (y 0).isLt; omega⟩ : Fin 10000) (⟨(y 1).val, (y 1).isLt⟩ : Fin 2048))

/-- Putting tile `n` into a copy that holds the tiles before it gives one that holds tiles 0..n. -/
theorem HqOk_put (c : Dev nD) (n : ℕ) (hn : n < 50) (old new : Vec F S10000x2048 .bf16)
    (hold : HqOk m c n old) (hput : PutTile (200 * n) (hqRow m c ⟨n, hn⟩) old new) : HqOk m c (n + 1) new := by
  intro b hb r j
  by_cases hbn : b.val = n
  · obtain ⟨b, hb'⟩ := b
    subst hbn
    exact hput.1 r j _
  · have hlt : b.val < n := by omega
    rw [hput.2 _ j (Or.inl (by have := r.isLt; dsimp only; omega))]
    exact hold b hlt r j

/-- Once all fifty tiles are in, a window of 2000 rows is the ten tiles it spans. -/
theorem getTile_of_HqOk (c : Dev nD) (hq : Vec F S10000x2048 .bf16) (hok : HqOk m c 50 hq) (k : Fin 5)
    (h : 2000 * k.val + 2000 ≤ 10000) : getTile (2000 * k.val) h hq = hqTile m c k := by
  funext y
  unfold getTile hqTile
  have hy : (y 0).val < 2000 := (y 0).isLt
  have := hok ⟨10 * k.val + (y 0).val / 200, by have := k.isLt; omega⟩ (by have := k.isLt; dsimp only; omega)
    ⟨(y 0).val % 200, Nat.mod_lt _ (by decide)⟩ ⟨(y 1).val, (y 1).isLt⟩
  dsimp only at this
  rw [← this]
  congr 1
  apply congrArg (fun a => ValueIdx.ix2 a _)
  apply Fin.ext
  dsimp only
  omega

abbrev scHq : Memref sig .tc .vmem S10000x2048 .bf16 := Memref.whole cc0_scratch0
abbrev scDe : Memref sig .tc .vmem S1x2048 .f32 := Memref.whole cc0_scratch1
abbrev scA1 : Memref sig .tc .vmem S64x2048 .f32 := Memref.whole cc0_scratch2
abbrev scA2 : Memref sig .tc .vmem S64x2048 .f32 := Memref.whole cc0_scratch3
abbrev scMn : Memref sig .tc .vmem S2048x64 .bf16 := Memref.whole cc0_scratch4

/-- The body's 26 buffers, each a whole memref of its literal shape. -/
structure Bufs where
  a1 : Memref sig .tc .vmem S200x2048 .f32
  h1 : a1.IsWhole
  a2 : Memref sig .tc .vmem S200x128 .f32
  h2 : a2.IsWhole
  a3 : Memref sig .tc .vmem S200x16 .f32
  h3 : a3.IsWhole
  a4 : Memref sig .tc .vmem S2048x1 .bf16
  h4 : a4.IsWhole
  a5 : Memref sig .tc .vmem S1x2048 .f32
  h5 : a5.IsWhole
  a6 : Memref sig .tc .vmem S128x32 .f32
  h6 : a6.IsWhole
  a7 : Memref sig .tc .vmem S1x32 .f32
  h7 : a7.IsWhole
  a8 : Memref sig .tc .vmem S16x32 .f32
  h8 : a8.IsWhole
  a9 : Memref sig .tc .vmem S1x32 .f32
  h9 : a9.IsWhole
  a10 : Memref sig .tc .vmem S64x64 .f32
  h10 : a10.IsWhole
  a11 : Memref sig .tc .vmem S1x64 .f32
  h11 : a11.IsWhole
  a12 : Memref sig .tc .vmem S64x32 .f32
  h12 : a12.IsWhole
  a13 : Memref sig .tc .vmem S1x32 .f32
  h13 : a13.IsWhole
  a14 : Memref sig .tc .vmem S32x64 .f32
  h14 : a14.IsWhole
  a15 : Memref sig .tc .vmem S1x64 .f32
  h15 : a15.IsWhole
  a16 : Memref sig .tc .vmem S64x64 .f32
  h16 : a16.IsWhole
  a17 : Memref sig .tc .vmem S1x64 .f32
  h17 : a17.IsWhole
  a18 : Memref sig .tc .vmem S64x2 .f32
  h18 : a18.IsWhole
  a19 : Memref sig .tc .vmem S1x2 .f32
  h19 : a19.IsWhole
  a20 : Memref sig .tc .vmem S200x32 .f32
  h20 : a20.IsWhole
  a21 : Memref sig .tc .vmem S2000x2 .f32
  h21 : a21.IsWhole
  a22 : Memref sig .tc .vmem S10000x2048 .bf16
  h22 : a22.IsWhole
  a23 : Memref sig .tc .vmem S1x2048 .f32
  h23 : a23.IsWhole
  a24 : Memref sig .tc .vmem S64x2048 .f32
  h24 : a24.IsWhole
  a25 : Memref sig .tc .vmem S64x2048 .f32
  h25 : a25.IsWhole
  a26 : Memref sig .tc .vmem S2048x64 .bf16
  h26 : a26.IsWhole

/-- What the body finds in its nineteen input buffers. -/
structure Ins (F : FTy → Type) where
  x1 : Vec F S200x2048 .f32
  x2 : Vec F S200x128 .f32
  x3 : Vec F S200x16 .f32
  x4 : Vec F S2048x1 .bf16
  x5 : Vec F S1x2048 .f32
  x6 : Vec F S128x32 .f32
  x7 : Vec F S1x32 .f32
  x8 : Vec F S16x32 .f32
  x9 : Vec F S1x32 .f32
  x10 : Vec F S64x64 .f32
  x11 : Vec F S1x64 .f32
  x12 : Vec F S64x32 .f32
  x13 : Vec F S1x32 .f32
  x14 : Vec F S32x64 .f32
  x15 : Vec F S1x64 .f32
  x16 : Vec F S64x64 .f32
  x17 : Vec F S1x64 .f32
  x18 : Vec F S64x2 .f32
  x19 : Vec F S1x2 .f32

end Cert.KernelIdeal.Hand

end
-- ==== Proof.Dats.lean ====
import proofs.«134735_g40587440947829_cont_sun_m_1101_19_alg».proof.Proof.Cases
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S200x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x2 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x2 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S200x32 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S2000x2 .f32 := win0_20.stage (cfg0.slots t 20)
abbrev hs20 (t : Fin cfg0.N) : (ms20 t).IsWhole := hstage0_20 ((cfg0.slots t 20).cast nbuf0_20)

/-- The body's buffers at point `t`. -/
def bufs (t : Fin cfg0.N) : Bufs :=
  ⟨ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t, ms12 t, hs12 t, ms13 t, hs13 t, ms14 t, hs14 t, ms15 t, hs15 t, ms16 t, hs16 t, ms17 t, hs17 t, ms18 t, hs18 t, ms19 t, hs19 t, ms20 t, hs20 t, scHq, Memref.isWhole_whole _, scDe, Memref.isWhole_whole _, scA1, Memref.isWhole_whole _, scA2, Memref.isWhole_whole _, scMn, Memref.isWhole_whole _⟩

/-- The input windows' blocks at point `t`. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- Before the first point and after the last, each of the five scratch buffers is held at some contents. -/
theorem PhiA0_eq (c : Dev nD) :
    (Pipeline.ΦA spec0 c : sProp 𝕄)
      = iprop(iprop((∃ d, owns (c : Thread nD τ) scHq fullShare d) ∗ (∃ d, owns (c : Thread nD τ) scDe fullShare d) ∗ (∃ d, owns (c : Thread nD τ) scA1 fullShare d) ∗ (∃ d, owns (c : Thread nD τ) scA2 fullShare d) ∗ (∃ d, owns (c : Thread nD τ) scMn fullShare d)) ∗ (∃ r, prngReg c r)) := by
  unfold Pipeline.ΦA; rw [scopedRest0_eq]; simp only [scHq, scDe, scA1, scA2, scMn, owns_whole]; try rfl

/-- The accumulators before point `n`: sums over the tiles already run. -/
def deBefore (c : Dev nD) (n : ℕ) : Vec F S1x2048 .f32 := deAt m c (min (n - 1) 49) (by omega)
def agg1Before (c : Dev nD) (n : ℕ) : Vec F S64x2048 .f32 := agg1At m c (min (n - 1) 49) (by omega)
def agg2Before (c : Dev nD) (n : ℕ) : Vec F S64x2048 .f32 :=
  if n ≤ 50 then k0_pay3 (F := F) else agg2At m c (min (n - 51) 4) (by omega)

/-- The normalised aggregation before point `n`: the first from point 51 to 55, the second from 56 on. -/
def MnOk (c : Dev nD) (n : ℕ) (mn : Vec F S2048x64 .bf16) : Prop :=
  (51 ≤ n → n ≤ 55 → mn = mn1 m c) ∧ (56 ≤ n → mn = mn2 m c)

/-- The invariant before point `n`: the kept copy holds the tiles streamed so far, the accumulators their sums so far. -/
def PhiS (c : Dev nD) : (n : ℕ) → n ≤ cfg0.N → sProp 𝕄
  | 0, _ => Pipeline.ΦA spec0 c
  | n + 1, _ => iprop(iprop((∃ hq, ⌜HqOk m c (n + 1) hq⌝ ∗ owns (c : Thread nD τ) scHq fullShare hq)
      ∗ owns (c : Thread nD τ) scDe fullShare (deBefore m c (n + 1))
      ∗ owns (c : Thread nD τ) scA1 fullShare (agg1Before m c (n + 1))
      ∗ owns (c : Thread nD τ) scA2 fullShare (agg2Before m c (n + 1))
      ∗ (∃ mn, ⌜MnOk m c (n + 1) mn⌝ ∗ owns (c : Thread nD τ) scMn fullShare mn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ hq, ⌜HqOk m c n hq⌝ ∗ owns (c : Thread nD τ) scHq fullShare hq)
      ∗ owns (c : Thread nD τ) scDe fullShare (deBefore m c n)
      ∗ owns (c : Thread nD τ) scA1 fullShare (agg1Before m c n)
      ∗ owns (c : Thread nD τ) scA2 fullShare (agg2Before m c n)
      ∗ (∃ mn, ⌜MnOk m c n mn⌝ ∗ owns (c : Thread nD τ) scMn fullShare mn)) ∗ (∃ r, prngReg c r)) := by
  cases n with
  | zero => exact absurd rfl hz
  | succ n => rfl

/-- What the gate's and the logits' buffers hold after point `t`. -/
def gAfter (c : Dev nD) (t : Fin cfg0.N) : Vec F S200x32 .f32 := gTile m c ⟨min t.val 49, by omega⟩

def loAfter (c : Dev nD) (t : Fin cfg0.N) : Vec F S2000x2 .f32 := loTile m c ⟨min (t.val - 55) 4, by omega⟩

/-- What each buffer holds after point `t`: an input its block, the two outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => gAfter m c t
    | ⟨20, _⟩ => loAfter m c t
    | ⟨_ + 21, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = gAfter m c t := by dsimp only [dats]
theorem after_20 (c : Dev nD) (t : Fin cfg0.N) : (dats m 0 c).after 20 t = loAfter m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

theorem flush_19 : ∀ t : Fin cfg0.N, (cfg0.win 19).flush t = true ↔ (t.val < 49 ∨ t.val = 59) :=
  (by decide +kernel : ∀ t : Fin grid0.N, win0_19.flush t = true ↔ (t.val < 49 ∨ t.val = 59))
theorem flush_20 : ∀ t : Fin cfg0.N, (cfg0.win 20).flush t = true ↔ 55 ≤ t.val :=
  (by decide +kernel : ∀ t : Fin grid0.N, win0_20.flush t = true ↔ 55 ≤ t.val)
theorem idle_19 : ∀ t : Fin cfg0.N, cfg0.idle 19 (grid0.coords t) = true ↔ 50 ≤ t.val :=
  (by decide +kernel : ∀ t : Fin grid0.N, idle0 19 (grid0.coords t) = true ↔ 50 ≤ t.val)
theorem idle_20 : ∀ t : Fin cfg0.N, cfg0.idle 20 (grid0.coords t) = true ↔ t.val < 55 :=
  (by decide +kernel : ∀ t : Fin grid0.N, idle0 20 (grid0.coords t) = true ↔ t.val < 55)

/-- What the body finds in the two output buffers, by induction over the points. -/
theorem before_19_stream (c : Dev nD) (t : Fin cfg0.N) (ht : t.val < 50) (d) : (dats m 0 c).before 19 t d = d := by
  apply Dat.before_out_reset (dats m 0 c) 19 rfl t
  by_cases h0 : t.val = 0
  · exact Or.inl h0
  · exact Or.inr ⟨h0, (flush_19 _).mpr (Or.inl (by show t.val - 1 < 49; omega))⟩

theorem kept_19 (c : Dev nD) (t : Fin cfg0.N) (d) : (dats m 0 c).kept 19 t d = gAfter m c t := by
  unfold Dat.kept
  rw [Pipeline.fill_of_clip_none (cfg := cfg0) 19 _ (fun _ => rfl) d ((dats m 0 c).after 19 t), Window.fill_cut, after_19]

theorem before_19_late_aux (c : Dev nD) (d) : ∀ (n : ℕ) (hn : n < cfg0.N), 50 ≤ n →
    (dats m 0 c).before 19 ⟨n, hn⟩ d = gTile m c ⟨49, by decide⟩
  | 0, _, h => absurd h (by decide)
  | n + 1, hn, h => by
    have hN : cfg0.N = 60 := N_0
    rw [Dat.before_of_pos (dats m 0 c) 19 ⟨n + 1, hn⟩ (Nat.succ_ne_zero n) ((cfg0.win 19).fetch_out rfl _)]
    show (if (cfg0.win 19).flush ⟨n, Nat.lt_of_succ_lt hn⟩ then d else (dats m 0 c).left 19 ⟨n, Nat.lt_of_succ_lt hn⟩ d) = _
    have hfl : (cfg0.win 19).flush ⟨n, Nat.lt_of_succ_lt hn⟩ = false := by
      cases hh : (cfg0.win 19).flush ⟨n, Nat.lt_of_succ_lt hn⟩ with
      | false => rfl
      | true => exact absurd ((flush_19 _).mp hh) (by show ¬(n < 49 ∨ n = 59); omega)
    rw [hfl, if_neg Bool.false_ne_true]
    unfold Dat.left
    by_cases h50 : 50 ≤ n
    · rw [(idle_19 ⟨n, Nat.lt_of_succ_lt hn⟩).mpr h50]
      exact before_19_late_aux c d n _ h50
    · have hi : cfg0.idle 19 (grid0.coords ⟨n, Nat.lt_of_succ_lt hn⟩) = false := by
        cases hh : cfg0.idle 19 (grid0.coords ⟨n, Nat.lt_of_succ_lt hn⟩) with
        | false => rfl
        | true => exact absurd ((idle_19 _).mp hh) h50
      rw [hi]
      show (dats m 0 c).kept 19 ⟨n, Nat.lt_of_succ_lt hn⟩ d = _
      rw [kept_19]
      unfold gAfter
      exact congrArg (gTile m c) (Fin.ext (by show min n 49 = 49; omega))

theorem before_19_late (c : Dev nD) (t : Fin cfg0.N) (ht : 50 ≤ t.val) (d) :
    (dats m 0 c).before 19 t d = gTile m c ⟨49, by decide⟩ :=
  before_19_late_aux m c d t.val t.isLt ht

theorem before_20_aux (c : Dev nD) (d) : ∀ (n : ℕ) (hn : n < cfg0.N), (dats m 0 c).before 20 ⟨n, hn⟩ d = d
  | 0, hn => Dat.before_out_reset (dats m 0 c) 20 rfl ⟨0, hn⟩ (Or.inl rfl) d
  | n + 1, hn => by
    have hN : cfg0.N = 60 := N_0
    by_cases h55 : 55 ≤ n
    · exact Dat.before_out_reset (dats m 0 c) 20 rfl ⟨n + 1, hn⟩ (Or.inr ⟨Nat.succ_ne_zero n, (flush_20 _).mpr h55⟩) d
    · rw [Dat.before_of_pos (dats m 0 c) 20 ⟨n + 1, hn⟩ (Nat.succ_ne_zero n) ((cfg0.win 20).fetch_out rfl _)]
      show (if (cfg0.win 20).flush ⟨n, Nat.lt_of_succ_lt hn⟩ then d else (dats m 0 c).left 20 ⟨n, Nat.lt_of_succ_lt hn⟩ d) = _
      have hfl : (cfg0.win 20).flush ⟨n, Nat.lt_of_succ_lt hn⟩ = false := by
        cases hh : (cfg0.win 20).flush ⟨n, Nat.lt_of_succ_lt hn⟩ with
        | false => rfl
        | true => exact absurd ((flush_20 _).mp hh) h55
      rw [hfl, if_neg Bool.false_ne_true]
      unfold Dat.left
      rw [(idle_20 ⟨n, Nat.lt_of_succ_lt hn⟩).mpr (by show n < 55; omega)]
      exact before_20_aux c d n _
theorem before_20 (c : Dev nD) (t : Fin cfg0.N) (d) : (dats m 0 c).before 20 t d = d :=
  before_20_aux m c d t.val t.isLt

theorem live_in : ∀ w : Fin cfg0.W, w.val < 19 → ∀ t : Fin cfg0.N, cfg0.idle w (grid0.coords t) = false :=
  (by decide +kernel : ∀ w : Fin 21, w.val < 19 → ∀ t : Fin grid0.N, idle0 w (grid0.coords t) = false)

theorem leaves_0 (c : Dev nD) (t : Fin cfg0.N) :
    (dats m 0 c).leavesExact 0 t = owns (c : Thread nD τ) (ms0 t) fullShare (iblk m c 0 t) := by
  unfold Dat.leavesExact; rw [live_in 0 (by decide) t, after_0]
theorem leaves_1 (c : Dev nD) (t : Fin cfg0.N) :
    (dats m 0 c).leavesExact 1 t = owns (c : Thread nD τ) (ms1 t) fullShare (iblk m c 1 t) := by
  unfold Dat.leavesExact; rw [live_in 1 (by decide) t, after_1]
theorem leaves_2 (c : Dev nD) (t : Fin cfg0.N) :
    (dats m 0 c).leavesExact 2 t = owns (c : Thread nD τ) (ms2 t) fullShare (iblk m c 2 t) := by
  unfold Dat.leavesExact; rw [live_in 2 (by decide) t, after_2]
theorem leaves_3 (c : Dev nD) (t : Fin cfg0.N) :
    (dats m 0 c).leavesExact 3 t = owns (c : Thread nD τ) (ms3 t) fullShare (iblk m c 3 t) := by
  unfold Dat.leavesExact; rw [live_in 3 (by decide) t, after_3]
theorem leaves_4 (c : Dev nD) (t : Fin cfg0.N) :
    (dats m 0 c).leavesExact 4 t = owns (c : Thread nD τ) (ms4 t) fullShare (iblk m c 4 t) := by
  unfold Dat.leavesExact; rw [live_in 4 (by decide) t, after_4]
theorem leaves_5 (c : Dev nD) (t : Fin cfg0.N) :
    (dats m 0 c).leavesExact 5 t = owns (c : Thread nD τ) (ms5 t) fullShare (iblk m c 5 t) := by
  unfold Dat.leavesExact; rw [live_in 5 (by decide) t, after_5]
theorem leaves_6 (c : Dev nD) (t : Fin cfg0.N) :
    (dats m 0 c).leavesExact 6 t = owns (c : Thread nD τ) (ms6 t) fullShare (iblk m c 6 t) := by
  unfold Dat.leavesExact; rw [live_in 6 (by decide) t, after_6]
theorem leaves_7 (c : Dev nD) (t : Fin cfg0.N) :
    (dats m 0 c).leavesExact 7 t = owns (c : Thread nD τ) (ms7 t) fullShare (iblk m c 7 t) := by
  unfold Dat.leavesExact; rw [live_in 7 (by decide) t, after_7]
theorem leaves_8 (c : Dev nD) (t : Fin cfg0.N) :
    (dats m 0 c).leavesExact 8 t = owns (c : Thread nD τ) (ms8 t) fullShare (iblk m c 8 t) := by
  unfold Dat.leavesExact; rw [live_in 8 (by decide) t, after_8]
theorem leaves_9 (c : Dev nD) (t : Fin cfg0.N) :
    (dats m 0 c).leavesExact 9 t = owns (c : Thread nD τ) (ms9 t) fullShare (iblk m c 9 t) := by
  unfold Dat.leavesExact; rw [live_in 9 (by decide) t, after_9]
theorem leaves_10 (c : Dev nD) (t : Fin cfg0.N) :
    (dats m 0 c).leavesExact 10 t = owns (c : Thread nD τ) (ms10 t) fullShare (iblk m c 10 t) := by
  unfold Dat.leavesExact; rw [live_in 10 (by decide) t, after_10]
theorem leaves_11 (c : Dev nD) (t : Fin cfg0.N) :
    (dats m 0 c).leavesExact 11 t = owns (c : Thread nD τ) (ms11 t) fullShare (iblk m c 11 t) := by
  unfold Dat.leavesExact; rw [live_in 11 (by decide) t, after_11]
theorem leaves_12 (c : Dev nD) (t : Fin cfg0.N) :
    (dats m 0 c).leavesExact 12 t = owns (c : Thread nD τ) (ms12 t) fullShare (iblk m c 12 t) := by
  unfold Dat.leavesExact; rw [live_in 12 (by decide) t, after_12]
theorem leaves_13 (c : Dev nD) (t : Fin cfg0.N) :
    (dats m 0 c).leavesExact 13 t = owns (c : Thread nD τ) (ms13 t) fullShare (iblk m c 13 t) := by
  unfold Dat.leavesExact; rw [live_in 13 (by decide) t, after_13]
theorem leaves_14 (c : Dev nD) (t : Fin cfg0.N) :
    (dats m 0 c).leavesExact 14 t = owns (c : Thread nD τ) (ms14 t) fullShare (iblk m c 14 t) := by
  unfold Dat.leavesExact; rw [live_in 14 (by decide) t, after_14]
theorem leaves_15 (c : Dev nD) (t : Fin cfg0.N) :
    (dats m 0 c).leavesExact 15 t = owns (c : Thread nD τ) (ms15 t) fullShare (iblk m c 15 t) := by
  unfold Dat.leavesExact; rw [live_in 15 (by decide) t, after_15]
theorem leaves_16 (c : Dev nD) (t : Fin cfg0.N) :
    (dats m 0 c).leavesExact 16 t = owns (c : Thread nD τ) (ms16 t) fullShare (iblk m c 16 t) := by
  unfold Dat.leavesExact; rw [live_in 16 (by decide) t, after_16]
theorem leaves_17 (c : Dev nD) (t : Fin cfg0.N) :
    (dats m 0 c).leavesExact 17 t = owns (c : Thread nD τ) (ms17 t) fullShare (iblk m c 17 t) := by
  unfold Dat.leavesExact; rw [live_in 17 (by decide) t, after_17]
theorem leaves_18 (c : Dev nD) (t : Fin cfg0.N) :
    (dats m 0 c).leavesExact 18 t = owns (c : Thread nD τ) (ms18 t) fullShare (iblk m c 18 t) := by
  unfold Dat.leavesExact; rw [live_in 18 (by decide) t, after_18]
theorem leaves_19_stream (c : Dev nD) (t : Fin cfg0.N) (ht : t.val < 50) :
    (dats m 0 c).leavesExact 19 t = owns (c : Thread nD τ) (ms19 t) fullShare (gTile m c ⟨t.val, ht⟩) := by
  have hi : cfg0.idle 19 (grid0.coords t) = false := by
    cases hh : cfg0.idle 19 (grid0.coords t) with
    | false => rfl
    | true => exact absurd ((idle_19 t).mp hh) (by omega)
  unfold Dat.leavesExact; rw [hi, after_19]
  unfold gAfter
  rw [show (⟨min t.val 49, by omega⟩ : Fin 50) = ⟨t.val, ht⟩ from Fin.ext (by show min t.val 49 = t.val; omega)]
theorem leaves_19_late (c : Dev nD) (t : Fin cfg0.N) (ht : 50 ≤ t.val) :
    owns (c : Thread nD τ) (ms19 t) fullShare (gTile m c ⟨49, by decide⟩) ⊢ (dats m 0 c).leavesExact 19 t := by
  have hN : cfg0.N = 60 := N_0
  have hi : cfg0.idle 19 (grid0.coords t) = true := (idle_19 t).mpr ht
  by_cases h59 : t.val = 59
  · have hf : (cfg0.win 19).flush t = true := (flush_19 t).mpr (Or.inr h59)
    unfold Dat.leavesExact; rw [hi, hf, after_19]
    unfold gAfter
    rw [show (⟨min t.val 49, by omega⟩ : Fin 50) = ⟨49, by decide⟩ from Fin.ext (by show min t.val 49 = 49; omega)]
  · have hf : (cfg0.win 19).flush t = false := by
      cases hh : (cfg0.win 19).flush t with
      | false => rfl
      | true => exact absurd ((flush_19 t).mp hh) (by omega)
    rw [Dat.leavesExact_idle (dats m 0 c) 19 t hi hf]
    iintro H
    iexists (gTile m c ⟨49, by decide⟩)
    rw [before_19_late m c t ht]
    iexact H
theorem leaves_20_early (c : Dev nD) (t : Fin cfg0.N) (ht : t.val < 55) (d : Vec F S2000x2 .f32) :
    owns (c : Thread nD τ) (ms20 t) fullShare d ⊢ (dats m 0 c).leavesExact 20 t := by
  have hi : cfg0.idle 20 (grid0.coords t) = true := (idle_20 t).mpr ht
  have hf : (cfg0.win 20).flush t = false := by
    cases hh : (cfg0.win 20).flush t with
    | false => rfl
    | true => exact absurd ((flush_20 t).mp hh) (by omega)
  rw [Dat.leavesExact_idle (dats m 0 c) 20 t hi hf]
  iintro H
  iexists d
  rw [before_20 m c t]
  iexact H
theorem leaves_20_late (c : Dev nD) (t : Fin cfg0.N) (ht : 55 ≤ t.val) :
    (dats m 0 c).leavesExact 20 t = owns (c : Thread nD τ) (ms20 t) fullShare (loTile m c ⟨t.val - 55, by have := t.isLt; have : cfg0.N = 60 := N_0; omega⟩) := by
  have hN : cfg0.N = 60 := N_0
  have hi : cfg0.idle 20 (grid0.coords t) = false := by
    cases hh : cfg0.idle 20 (grid0.coords t) with
    | false => rfl
    | true => exact absurd ((idle_20 t).mp hh) (by omega)
  unfold Dat.leavesExact; rw [hi, after_20]
  unfold loAfter
  rw [show (⟨min (t.val - 55) 4, by omega⟩ : Fin 5) = ⟨t.val - 55, by have := t.isLt; omega⟩ from Fin.ext (by show min (t.val - 55) 4 = t.val - 55; have := t.isLt; omega)]

/-- The body's precondition and postcondition at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

theorem body_obligation_of (c : Dev nD)
    (h : ∀ t : Fin cfg0.N, bodyPre m c t ⊢ wp frame (wpE (defs₀ (F := F)) Variants.none c none) Set.univ (bodyAt0 t) (fun _ => bodyPost m c t)) :
    BodyObligation (dats (F := F) m 0 c) (defs₀ (F := F)) Variants.none () Set.univ := fun t => by
  rw [bigSep_W0, bigSep_W0]
  exact h t

/-- A streamed window's block at streaming point `t` is tile `t` of its array. -/
theorem iblk_0_stream (c : Dev nD) (t : Fin cfg0.N) (ht : t.val < 50) : (iblk m c 0 t : Vec F S200x2048 .f32) = Htile m c ⟨t.val, ht⟩ := by
  obtain ⟨e0, e1⟩ := (by decide +kernel : ∀ t : Fin grid0.N, t.val < 50 → win0_0.index t (0 : Fin 2) = t.val ∧ win0_0.index t (1 : Fin 2) = 0) t ht
  funext y
  unfold Htile
  show V m c main_arg2 (((cfg0.win 0).blk t).view.emb y) = V m c main_arg2 _
  apply congrArg; funext a; apply Fin.ext
  match a with
  | ⟨0, _⟩ => show win0_0.index t (0 : Fin 2) * 200 + 1 * (y 0).val = 200 * t.val + (y 0).val; omega
  | ⟨1, _⟩ => show win0_0.index t (1 : Fin 2) * 2048 + 1 * (y 1).val = (y 1).val; omega
theorem iblk_1_stream (c : Dev nD) (t : Fin cfg0.N) (ht : t.val < 50) : (iblk m c 1 t : Vec F S200x128 .f32) = xtile m c ⟨t.val, ht⟩ := by
  obtain ⟨e0, e1⟩ := (by decide +kernel : ∀ t : Fin grid0.N, t.val < 50 → win0_1.index t (0 : Fin 2) = t.val ∧ win0_1.index t (1 : Fin 2) = 0) t ht
  funext y
  unfold xtile
  show V m c main_arg0 (((cfg0.win 1).blk t).view.emb y) = V m c main_arg0 _
  apply congrArg; funext a; apply Fin.ext
  match a with
  | ⟨0, _⟩ => show win0_1.index t (0 : Fin 2) * 200 + 1 * (y 0).val = 200 * t.val + (y 0).val; omega
  | ⟨1, _⟩ => show win0_1.index t (1 : Fin 2) * 128 + 1 * (y 1).val = (y 1).val; omega
theorem iblk_2_stream (c : Dev nD) (t : Fin cfg0.N) (ht : t.val < 50) : (iblk m c 2 t : Vec F S200x16 .f32) = ztile m c ⟨t.val, ht⟩ := by
  obtain ⟨e0, e1⟩ := (by decide +kernel : ∀ t : Fin grid0.N, t.val < 50 → win0_2.index t (0 : Fin 2) = t.val ∧ win0_2.index t (1 : Fin 2) = 0) t ht
  funext y
  unfold ztile
  show V m c main_arg1 (((cfg0.win 2).blk t).view.emb y) = V m c main_arg1 _
  apply congrArg; funext a; apply Fin.ext
  match a with
  | ⟨0, _⟩ => show win0_2.index t (0 : Fin 2) * 200 + 1 * (y 0).val = 200 * t.val + (y 0).val; omega
  | ⟨1, _⟩ => show win0_2.index t (1 : Fin 2) * 16 + 1 * (y 1).val = (y 1).val; omega

/-- A window over a whole array has that array as its block at every point. -/
theorem iblk_3 (c : Dev nD) (t : Fin cfg0.N) : (iblk m c 3 t : Vec F S2048x1 .bf16) = wcol m c := by
  obtain ⟨e0, e1⟩ := (by decide +kernel : ∀ t : Fin grid0.N, win0_3.index t (0 : Fin 2) = 0 ∧ win0_3.index t (1 : Fin 2) = 0) t
  funext y
  show V m c main_v1 (((cfg0.win 3).blk t).view.emb y) = V m c main_v1 y
  apply congrArg; funext a; apply Fin.ext
  match a with
  | ⟨0, _⟩ => show win0_3.index t (0 : Fin 2) * 2048 + 1 * (y 0).val = (y 0).val; omega
  | ⟨1, _⟩ => show win0_3.index t (1 : Fin 2) * 1 + 1 * (y 1).val = (y 1).val; omega
theorem iblk_4 (c : Dev nD) (t : Fin cfg0.N) : (iblk m c 4 t : Vec F S1x2048 .f32) = wrow m c := by
  obtain ⟨e0, e1⟩ := (by decide +kernel : ∀ t : Fin grid0.N, win0_4.index t (0 : Fin 2) = 0 ∧ win0_4.index t (1 : Fin 2) = 0) t
  funext y
  show V m c main_v2 (((cfg0.win 4).blk t).view.emb y) = V m c main_v2 y
  apply congrArg; funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega
theorem iblk_5 (c : Dev nD) (t : Fin cfg0.N) : (iblk m c 5 t : Vec F S128x32 .f32) = psiW m c := by
  obtain ⟨e0, e1⟩ := (by decide +kernel : ∀ t : Fin grid0.N, win0_5.index t (0 : Fin 2) = 0 ∧ win0_5.index t (1 : Fin 2) = 0) t
  funext y
  show V m c main_arg4 (((cfg0.win 5).blk t).view.emb y) = V m c main_arg4 y
  apply congrArg; funext a; apply Fin.ext
  match a with
  | ⟨0, _⟩ => show win0_5.index t (0 : Fin 2) * 128 + 1 * (y 0).val = (y 0).val; omega
  | ⟨1, _⟩ => show win0_5.index t (1 : Fin 2) * 32 + 1 * (y 1).val = (y 1).val; omega
theorem iblk_6 (c : Dev nD) (t : Fin cfg0.N) : (iblk m c 6 t : Vec F S1x32 .f32) = psib m c := by
  obtain ⟨e0, e1⟩ := (by decide +kernel : ∀ t : Fin grid0.N, win0_6.index t (0 : Fin 2) = 0 ∧ win0_6.index t (1 : Fin 2) = 0) t
  funext y
  show V m c main_v3 (((cfg0.win 6).blk t).view.emb y) = V m c main_v3 y
  apply congrArg; funext a; apply Fin.ext
  match a with
  | ⟨0, _⟩ => show win0_6.index t (0 : Fin 2) * 1 + 1 * (y 0).val = (y 0).val; omega
  | ⟨1, _⟩ => show win0_6.index t (1 : Fin 2) * 32 + 1 * (y 1).val = (y 1).val; omega
theorem iblk_7 (c : Dev nD) (t : Fin cfg0.N) : (iblk m c 7 t : Vec F S16x32 .f32) = phiW m c := by
  obtain ⟨e0, e1⟩ := (by decide +kernel : ∀ t : Fin grid0.N, win0_7.index t (0 : Fin 2) = 0 ∧ win0_7.index t (1 : Fin 2) = 0) t
  funext y
  show V m c main_arg6 (((cfg0.win 7).blk t).view.emb y) = V m c main_arg6 y
  apply congrArg; funext a; apply Fin.ext
  match a with
  | ⟨0, _⟩ => show win0_7.index t (0 : Fin 2) * 16 + 1 * (y 0).val = (y 0).val; omega
  | ⟨1, _⟩ => show win0_7.index t (1 : Fin 2) * 32 + 1 * (y 1).val = (y 1).val; omega
theorem iblk_8 (c : Dev nD) (t : Fin cfg0.N) : (iblk m c 8 t : Vec F S1x32 .f32) = phib m c := by
  obtain ⟨e0, e1⟩ := (by decide +kernel : ∀ t : Fin grid0.N, win0_8.index t (0 : Fin 2) = 0 ∧ win0_8.index t (1 : Fin 2) = 0) t
  funext y
  show V m c main_v4 (((cfg0.win 8).blk t).view.emb y) = V m c main_v4 y
  apply congrArg; funext a; apply Fin.ext
  match a with
  | ⟨0, _⟩ => show win0_8.index t (0 : Fin 2) * 1 + 1 * (y 0).val = (y 0).val; omega
  | ⟨1, _⟩ => show win0_8.index t (1 : Fin 2) * 32 + 1 * (y 1).val = (y 1).val; omega
theorem iblk_9 (c : Dev nD) (t : Fin cfg0.N) : (iblk m c 9 t : Vec F S64x64 .f32) = g1W m c := by
  obtain ⟨e0, e1⟩ := (by decide +kernel : ∀ t : Fin grid0.N, win0_9.index t (0 : Fin 2) = 0 ∧ win0_9.index t (1 : Fin 2) = 0) t
  funext y
  show V m c main_arg8 (((cfg0.win 9).blk t).view.emb y) = V m c main_arg8 y
  apply congrArg; funext a; apply Fin.ext
  match a with
  | ⟨0, _⟩ => show win0_9.index t (0 : Fin 2) * 64 + 1 * (y 0).val = (y 0).val; omega
  | ⟨1, _⟩ => show win0_9.index t (1 : Fin 2) * 64 + 1 * (y 1).val = (y 1).val; omega
theorem iblk_10 (c : Dev nD) (t : Fin cfg0.N) : (iblk m c 10 t : Vec F S1x64 .f32) = g1b m c := by
  obtain ⟨e0, e1⟩ := (by decide +kernel : ∀ t : Fin grid0.N, win0_10.index t (0 : Fin 2) = 0 ∧ win0_10.index t (1 : Fin 2) = 0) t
  funext y
  show V m c main_v5 (((cfg0.win 10).blk t).view.emb y) = V m c main_v5 y
  apply congrArg; funext a; apply Fin.ext
  match a with
  | ⟨0, _⟩ => show win0_10.index t (0 : Fin 2) * 1 + 1 * (y 0).val = (y 0).val; omega
  | ⟨1, _⟩ => show win0_10.index t (1 : Fin 2) * 64 + 1 * (y 1).val = (y 1).val; omega
theorem iblk_11 (c : Dev nD) (t : Fin cfg0.N) : (iblk m c 11 t : Vec F S64x32 .f32) = g2W m c := by
  obtain ⟨e0, e1⟩ := (by decide +kernel : ∀ t : Fin grid0.N, win0_11.index t (0 : Fin 2) = 0 ∧ win0_11.index t (1 : Fin 2) = 0) t
  funext y
  show V m c main_arg10 (((cfg0.win 11).blk t).view.emb y) = V m c main_arg10 y
  apply congrArg; funext a; apply Fin.ext
  match a with
  | ⟨0, _⟩ => show win0_11.index t (0 : Fin 2) * 64 + 1 * (y 0).val = (y 0).val; omega
  | ⟨1, _⟩ => show win0_11.index t (1 : Fin 2) * 32 + 1 * (y 1).val = (y 1).val; omega
theorem iblk_12 (c : Dev nD) (t : Fin cfg0.N) : (iblk m c 12 t : Vec F S1x32 .f32) = g2b m c := by
  obtain ⟨e0, e1⟩ := (by decide +kernel : ∀ t : Fin grid0.N, win0_12.index t (0 : Fin 2) = 0 ∧ win0_12.index t (1 : Fin 2) = 0) t
  funext y
  show V m c main_v6 (((cfg0.win 12).blk t).view.emb y) = V m c main_v6 y
  apply congrArg; funext a; apply Fin.ext
  match a with
  | ⟨0, _⟩ => show win0_12.index t (0 : Fin 2) * 1 + 1 * (y 0).val = (y 0).val; omega
  | ⟨1, _⟩ => show win0_12.index t (1 : Fin 2) * 32 + 1 * (y 1).val = (y 1).val; omega
theorem iblk_13 (c : Dev nD) (t : Fin cfg0.N) : (iblk m c 13 t : Vec F S32x64 .f32) = c1W m c := by
  obtain ⟨e0, e1⟩ := (by decide +kernel : ∀ t : Fin grid0.N, win0_13.index t (0 : Fin 2) = 0 ∧ win0_13.index t (1 : Fin 2) = 0) t
  funext y
  show V m c main_arg12 (((cfg0.win 13).blk t).view.emb y) = V m c main_arg12 y
  apply congrArg; funext a; apply Fin.ext
  match a with
  | ⟨0, _⟩ => show win0_13.index t (0 : Fin 2) * 32 + 1 * (y 0).val = (y 0).val; omega
  | ⟨1, _⟩ => show win0_13.index t (1 : Fin 2) * 64 + 1 * (y 1).val = (y 1).val; omega
theorem iblk_14 (c : Dev nD) (t : Fin cfg0.N) : (iblk m c 14 t : Vec F S1x64 .f32) = c1b m c := by
  obtain ⟨e0, e1⟩ := (by decide +kernel : ∀ t : Fin grid0.N, win0_14.index t (0 : Fin 2) = 0 ∧ win0_14.index t (1 : Fin 2) = 0) t
  funext y
  show V m c main_v7 (((cfg0.win 14).blk t).view.emb y) = V m c main_v7 y
  apply congrArg; funext a; apply Fin.ext
  match a with
  | ⟨0, _⟩ => show win0_14.index t (0 : Fin 2) * 1 + 1 * (y 0).val = (y 0).val; omega
  | ⟨1, _⟩ => show win0_14.index t (1 : Fin 2) * 64 + 1 * (y 1).val = (y 1).val; omega
theorem iblk_15 (c : Dev nD) (t : Fin cfg0.N) : (iblk m c 15 t : Vec F S64x64 .f32) = c2W m c := by
  obtain ⟨e0, e1⟩ := (by decide +kernel : ∀ t : Fin grid0.N, win0_15.index t (0 : Fin 2) = 0 ∧ win0_15.index t (1 : Fin 2) = 0) t
  funext y
  show V m c main_arg14 (((cfg0.win 15).blk t).view.emb y) = V m c main_arg14 y
  apply congrArg; funext a; apply Fin.ext
  match a with
  | ⟨0, _⟩ => show win0_15.index t (0 : Fin 2) * 64 + 1 * (y 0).val = (y 0).val; omega
  | ⟨1, _⟩ => show win0_15.index t (1 : Fin 2) * 64 + 1 * (y 1).val = (y 1).val; omega
theorem iblk_16 (c : Dev nD) (t : Fin cfg0.N) : (iblk m c 16 t : Vec F S1x64 .f32) = c2b m c := by
  obtain ⟨e0, e1⟩ := (by decide +kernel : ∀ t : Fin grid0.N, win0_16.index t (0 : Fin 2) = 0 ∧ win0_16.index t (1 : Fin 2) = 0) t
  funext y
  show V m c main_v8 (((cfg0.win 16).blk t).view.emb y) = V m c main_v8 y
  apply congrArg; funext a; apply Fin.ext
  match a with
  | ⟨0, _⟩ => show win0_16.index t (0 : Fin 2) * 1 + 1 * (y 0).val = (y 0).val; omega
  | ⟨1, _⟩ => show win0_16.index t (1 : Fin 2) * 64 + 1 * (y 1).val = (y 1).val; omega
theorem iblk_17 (c : Dev nD) (t : Fin cfg0.N) : (iblk m c 17 t : Vec F S64x2 .f32) = hdW m c := by
  obtain ⟨e0, e1⟩ := (by decide +kernel : ∀ t : Fin grid0.N, win0_17.index t (0 : Fin 2) = 0 ∧ win0_17.index t (1 : Fin 2) = 0) t
  funext y
  show V m c main_arg16 (((cfg0.win 17).blk t).view.emb y) = V m c main_arg16 y
  apply congrArg; funext a; apply Fin.ext
  match a with
  | ⟨0, _⟩ => show win0_17.index t (0 : Fin 2) * 64 + 1 * (y 0).val = (y 0).val; omega
  | ⟨1, _⟩ => show win0_17.index t (1 : Fin 2) * 2 + 1 * (y 1).val = (y 1).val; omega
theorem iblk_18 (c : Dev nD) (t : Fin cfg0.N) : (iblk m c 18 t : Vec F S1x2 .f32) = hdb m c := by
  obtain ⟨e0, e1⟩ := (by decide +kernel : ∀ t : Fin grid0.N, win0_18.index t (0 : Fin 2) = 0 ∧ win0_18.index t (1 : Fin 2) = 0) t
  funext y
  show V m c main_v9 (((cfg0.win 18).blk t).view.emb y) = V m c main_v9 y
  apply congrArg; funext a; apply Fin.ext
  match a with
  | ⟨0, _⟩ => show win0_18.index t (0 : Fin 2) * 1 + 1 * (y 0).val = (y 0).val; omega
  | ⟨1, _⟩ => show win0_18.index t (1 : Fin 2) * 2 + 1 * (y 1).val = (y 1).val; omega

/-- The invariant before the first point asks nothing of the scratch, and the one after the last gives that back. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 60 := N_0; omega), PhiA0_eq]
  iintro ⟨⟨⟨%hq, %hok, Hq⟩, Hde, Ha1, Ha2, ⟨%mn, %hmn, Hmn⟩⟩, Hg⟩
  isplitl [Hq Hde Ha1 Ha2 Hmn]
  · isplitl [Hq]
    · iexists _; iexact Hq
    isplitl [Hde]
    · iexists _; iexact Hde
    isplitl [Ha1]
    · iexists _; iexact Ha1
    isplitl [Ha2]
    · iexists _; iexact Ha2
    iexists _; iexact Hmn
  iexact Hg

end Cert.KernelIdeal.Hand

end
-- ==== Proof.Run.lean ====
import proofs.«134735_g40587440947829_cont_sun_m_1101_19_alg».proof.Proof.Cases
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- A whole memref loaded through its whole shape reads the contents it is held at. -/
theorem readAt_whole {κ : Kind} {sp : Space} {S : Shape} {e : EltTy} {M : Memref sig κ sp S e} (h : M.IsWhole)
    {off : Fin S.rank → ℕ} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

/-- A store through the whole shape, made last, leaves its payload whatever was there before. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst hz; funext y
  have e := View.read_writes_cons_emb v f (Rect.whole S) w L y
  rw [Rect.emb_whole_apply] at e
  exact e

/-- 2000 rows of the kept copy loaded from row `off 0`, all columns, are that window of it. -/
theorem readAt_window {M : Memref sig .tc .vmem S10000x2048 .bf16} (hM : M.IsWhole)
    (s : Vec F S10000x2048 .bf16) (off : Fin 2 → ℕ) (h1 : off 1 = 0)
    (inb : ∀ a, off a + S2000x2048.size a ≤ S10000x2048.size a) (hb : off 0 + 2000 ≤ 10000) :
    M.view.readAt (Elt F) (Rect.unit (s := S10000x2048) off S2000x2048.size inb).toLoadRect (hM.unread s)
      = getTile (off 0) hb s := by
  rw [View.readAt_eq_ld, hM.read_unread]
  funext y
  unfold getTile
  show s _ = s _
  congr 1
  funext a
  apply Fin.ext
  fin_cases a
  · show off 0 + 1 * (y 0).val = off 0 + (y 0).val
    omega
  · show off 1 + 1 * (y 1).val = (y 1).val
    omega

/-- Storing a tile over rows [off 0, off 0 + 200), all columns, of the kept copy puts that tile in and moves nothing else. -/
theorem putTile_of_store {M : Memref sig .tc .vmem S10000x2048 .bf16} (h : M.IsWhole)
    (off : Fin 2 → ℕ) (inb : ∀ a, off a + S200x2048.size a ≤ S10000x2048.size a) (h1 : off 1 = 0)
    (tile : Vec F S200x2048 .bf16) (old : Vec F S10000x2048 .bf16) :
    PutTile (off 0) tile old
      (M.view.read (Elt F) (M.view.writes (Elt F) (h.unread old)
        [(⟨Rect.unit (s := S10000x2048) off S200x2048.size inb, tile⟩ : View.Piece (Elt F) S10000x2048 .bf16)])) := by
  constructor
  · intro r j hr
    have e : (ValueIdx.ix2 (⟨off 0 + r.val, hr⟩ : Fin 10000) j : S10000x2048.Idx)
        = (Rect.unit (s := S10000x2048) off S200x2048.size inb).emb (ValueIdx.ix2 r j) := by
      funext a
      fin_cases a
      · apply Fin.ext
        show off 0 + r.val = off 0 + 1 * r.val
        omega
      · apply Fin.ext
        show j.val = off 1 + 1 * j.val
        omega
    rw [e]
    exact View.read_writes_cons_emb _ _ _ _ _ _
  · intro i j hi
    rw [View.read_writes_apply_of_forall_not_mem]
    · exact congrFun (h.read_unread old) _
    · intro p hp
      rw [List.mem_singleton] at hp
      subst hp
      rw [Rect.mem_set_unit]
      intro hm
      have := hm 0
      have e0 : ((ValueIdx.ix2 i j : S10000x2048.Idx) 0 : ℕ) = i.val := rfl
      have e1 : S200x2048.size 0 = 200 := rfl
      rw [e0, e1] at this
      omega

/-- The kept copy after such a store is held at some contents with the tile put in. -/
theorem putTile_back (c : Dev nD) {M : Memref sig .tc .vmem S10000x2048 .bf16} (h : M.IsWhole)
    (off : Fin 2 → ℕ) (inb : ∀ a, off a + S200x2048.size a ≤ S10000x2048.size a) (h1 : off 1 = 0)
    (tile : Vec F S200x2048 .bf16) (old : Vec F S10000x2048 .bf16) :
    iprop(M.view.loc (c : Thread nD τ) ↦[M.view.set]{fullShare} M.view.writes (Elt F) (h.unread old)
        [(⟨Rect.unit (s := S10000x2048) off S200x2048.size inb, tile⟩ : View.Piece (Elt F) S10000x2048 .bf16)])
      ⊢ (iprop(∃ hq', ⌜PutTile (off 0) tile old hq'⌝ ∗ ∃ f, ⌜M.view.read (Elt F) f = hq'⌝ ∗ (M.view.loc (c : Thread nD τ) ↦[M.view.set]{fullShare} f)) : sProp 𝕄) := by
  iintro H
  iexists (M.view.read (Elt F) (M.view.writes (Elt F) (h.unread old)
        [(⟨Rect.unit (s := S10000x2048) off S200x2048.size inb, tile⟩ : View.Piece (Elt F) S10000x2048 .bf16)]))
  isplitr
  · ipureintro; exact putTile_of_store h off inb h1 tile old
  iexists _; isplitr; · ipureintro; rfl
  iexact H

variable (c : Dev nD) (i : grid0.Coords) (B : Bufs) (X : Ins F)

/-- The kernel body on these buffers. -/
def body := cc0__kernel (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26

/-- The body's buffers held in full: the inputs at the contents found, the two outputs and four of the scratch
    buffers at the contents given, and `Q` for what is held of the kept copy. -/
def held (y20 : Vec F S200x32 .f32) (y21 : Vec F S2000x2 .f32) (Q : sProp 𝕄) (s23 : Vec F S1x2048 .f32)
    (s24 s25 : Vec F S64x2048 .f32) (s26 : Vec F S2048x64 .bf16) : sProp 𝕄 :=
  iprop(owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a5 fullShare X.x5 ∗ owns (c : Thread nD τ) B.a6 fullShare X.x6 ∗ owns (c : Thread nD τ) B.a7 fullShare X.x7 ∗ owns (c : Thread nD τ) B.a8 fullShare X.x8 ∗ owns (c : Thread nD τ) B.a9 fullShare X.x9 ∗ owns (c : Thread nD τ) B.a10 fullShare X.x10 ∗ owns (c : Thread nD τ) B.a11 fullShare X.x11 ∗ owns (c : Thread nD τ) B.a12 fullShare X.x12 ∗ owns (c : Thread nD τ) B.a13 fullShare X.x13 ∗ owns (c : Thread nD τ) B.a14 fullShare X.x14 ∗ owns (c : Thread nD τ) B.a15 fullShare X.x15 ∗ owns (c : Thread nD τ) B.a16 fullShare X.x16 ∗ owns (c : Thread nD τ) B.a17 fullShare X.x17 ∗ owns (c : Thread nD τ) B.a18 fullShare X.x18 ∗ owns (c : Thread nD τ) B.a19 fullShare X.x19 ∗ owns (c : Thread nD τ) B.a20 fullShare y20 ∗ owns (c : Thread nD τ) B.a21 fullShare y21 ∗ Q ∗ owns (c : Thread nD τ) B.a23 fullShare s23 ∗ owns (c : Thread nD τ) B.a24 fullShare s24 ∗ owns (c : Thread nD τ) B.a25 fullShare s25 ∗ owns (c : Thread nD τ) B.a26 fullShare s26)

/-- The same with the inputs at their raw contents, and anything for the seven other buffers. -/
def raw (R20 R21 R22 R23 R24 R25 R26 : sProp 𝕄) : sProp 𝕄 :=
  iprop((B.a1.view.loc (c : Thread nD τ) ↦[B.a1.view.set]{fullShare} B.h1.unread X.x1) ∗ (B.a2.view.loc (c : Thread nD τ) ↦[B.a2.view.set]{fullShare} B.h2.unread X.x2) ∗ (B.a3.view.loc (c : Thread nD τ) ↦[B.a3.view.set]{fullShare} B.h3.unread X.x3) ∗ (B.a4.view.loc (c : Thread nD τ) ↦[B.a4.view.set]{fullShare} B.h4.unread X.x4) ∗ (B.a5.view.loc (c : Thread nD τ) ↦[B.a5.view.set]{fullShare} B.h5.unread X.x5) ∗ (B.a6.view.loc (c : Thread nD τ) ↦[B.a6.view.set]{fullShare} B.h6.unread X.x6) ∗ (B.a7.view.loc (c : Thread nD τ) ↦[B.a7.view.set]{fullShare} B.h7.unread X.x7) ∗ (B.a8.view.loc (c : Thread nD τ) ↦[B.a8.view.set]{fullShare} B.h8.unread X.x8) ∗ (B.a9.view.loc (c : Thread nD τ) ↦[B.a9.view.set]{fullShare} B.h9.unread X.x9) ∗ (B.a10.view.loc (c : Thread nD τ) ↦[B.a10.view.set]{fullShare} B.h10.unread X.x10) ∗ (B.a11.view.loc (c : Thread nD τ) ↦[B.a11.view.set]{fullShare} B.h11.unread X.x11) ∗ (B.a12.view.loc (c : Thread nD τ) ↦[B.a12.view.set]{fullShare} B.h12.unread X.x12) ∗ (B.a13.view.loc (c : Thread nD τ) ↦[B.a13.view.set]{fullShare} B.h13.unread X.x13) ∗ (B.a14.view.loc (c : Thread nD τ) ↦[B.a14.view.set]{fullShare} B.h14.unread X.x14) ∗ (B.a15.view.loc (c : Thread nD τ) ↦[B.a15.view.set]{fullShare} B.h15.unread X.x15) ∗ (B.a16.view.loc (c : Thread nD τ) ↦[B.a16.view.set]{fullShare} B.h16.unread X.x16) ∗ (B.a17.view.loc (c : Thread nD τ) ↦[B.a17.view.set]{fullShare} B.h17.unread X.x17) ∗ (B.a18.view.loc (c : Thread nD τ) ↦[B.a18.view.set]{fullShare} B.h18.unread X.x18) ∗ (B.a19.view.loc (c : Thread nD τ) ↦[B.a19.view.set]{fullShare} B.h19.unread X.x19) ∗ R20 ∗ R21 ∗ R22 ∗ R23 ∗ R24 ∗ R25 ∗ R26)

/-- A whole memref held at `x` has the raw contents that read `x`, and conversely. -/
theorem owns_raw {sp : Space} {S : Shape} {e : EltTy} {M : Memref sig .tc sp S e} (hM : M.IsWhole) (x : S.Idx → Elt F e) :
    owns (c : Thread nD τ) M fullShare x ⊢ (M.view.loc (c : Thread nD τ) ↦[M.view.set]{fullShare} hM.unread x : sProp 𝕄) := by
  unfold owns; iintro ⟨%f, %hf, H⟩; obtain rfl := hM.eq_unread hf; iexact H

theorem raw_owns {sp : Space} {S : Shape} {e : EltTy} {M : Memref sig .tc sp S e} (hM : M.IsWhole) (x : S.Idx → Elt F e) :
    (M.view.loc (c : Thread nD τ) ↦[M.view.set]{fullShare} hM.unread x : sProp 𝕄) ⊢ owns (c : Thread nD τ) M fullShare x := by
  unfold owns; iintro H; iexists _; isplitr; · ipureintro; exact hM.read_unread _
  iexact H

/-- To run from the buffers held and hand them back held, it is enough to run from the raw contents and hand the
    inputs back raw: the inputs are only read. -/
theorem of_raw {y20 : Vec F S200x32 .f32} {y21 : Vec F S2000x2 .f32} {s22 : Vec F S10000x2048 .bf16} {s23 : Vec F S1x2048 .f32} {s24 : Vec F S64x2048 .f32} {s25 : Vec F S64x2048 .f32} {s26 : Vec F S2048x64 .bf16} {y20' : Vec F S200x32 .f32} {y21' : Vec F S2000x2 .f32} {Q' : sProp 𝕄} {s23' : Vec F S1x2048 .f32} {s24' s25' : Vec F S64x2048 .f32} {s26' : Vec F S2048x64 .bf16} {K' W : sProp 𝕄}
    (h : iprop(raw c B X (B.a20.view.loc (c : Thread nD τ) ↦[B.a20.view.set]{fullShare} B.h20.unread y20) (B.a21.view.loc (c : Thread nD τ) ↦[B.a21.view.set]{fullShare} B.h21.unread y21) (B.a22.view.loc (c : Thread nD τ) ↦[B.a22.view.set]{fullShare} B.h22.unread s22) (B.a23.view.loc (c : Thread nD τ) ↦[B.a23.view.set]{fullShare} B.h23.unread s23) (B.a24.view.loc (c : Thread nD τ) ↦[B.a24.view.set]{fullShare} B.h24.unread s24) (B.a25.view.loc (c : Thread nD τ) ↦[B.a25.view.set]{fullShare} B.h25.unread s25) (B.a26.view.loc (c : Thread nD τ) ↦[B.a26.view.set]{fullShare} B.h26.unread s26)
        ∗ (raw c B X (owns (c : Thread nD τ) B.a20 fullShare y20') (owns (c : Thread nD τ) B.a21 fullShare y21') Q' (owns (c : Thread nD τ) B.a23 fullShare s23') (owns (c : Thread nD τ) B.a24 fullShare s24') (owns (c : Thread nD τ) B.a25 fullShare s25') (owns (c : Thread nD τ) B.a26 fullShare s26') -∗ K')) ⊢ W) :
    iprop(held c B X y20 y21 (owns (c : Thread nD τ) B.a22 fullShare s22) s23 s24 s25 s26
        ∗ (held c B X y20' y21' Q' s23' s24' s25' s26' -∗ K')) ⊢ W := by
  refine (BI.sep_mono ?_ (BI.wand_intro ((BI.sep_mono_r ?_).trans (BI.wand_elim (Entails.refl _))))).trans h
  · unfold held raw
    iterate 25 refine BI.sep_mono (owns_raw c _ _) ?_
    exact owns_raw c _ _
  · unfold held raw
    iterate 19 refine BI.sep_mono (raw_owns c _ _) ?_
    exact Entails.refl _

variable (y20 : Vec F S200x32 .f32) (y21 : Vec F S2000x2 .f32) (s22 : Vec F S10000x2048 .bf16) (s23 : Vec F S1x2048 .f32) (s24 : Vec F S64x2048 .f32) (s25 : Vec F S64x2048 .f32) (s26 : Vec F S2048x64 .bf16)

set_option maxHeartbeats 4000000 in
/-- Point 0: the three accumulators are zeroed, then the streaming step runs on them. -/
theorem runA (hInit : condInit i) (hS : condStream i) (hN1 : ¬condNorm1 i) (hP1 : ¬condScat1 i) (hN2 : ¬condNorm2 i) (hP2 : ¬condScat2 i) (E : Set ℕ) (K : PUnit → sProp 𝕄) :
    iprop(held c B X y20 y21 (owns (c : Thread nD τ) B.a22 fullShare s22) s23 s24 s25 s26
        ∗ (held c B X (k0_pay16 (k0_pay13 X.x2 X.x6 X.x7) (k0_pay14 X.x3 X.x8) X.x9 X.x10 X.x11 X.x12 X.x13) y21 iprop(∃ hq', ⌜PutTile ((k0_off1 i) 0) (k0_pay10 X.x1) s22 hq'⌝ ∗ owns (c : Thread nD τ) B.a22 fullShare hq') (k0_pay12 X.x1 (k0_pay1 (F := F))) (k0_pay4 (k0_pay2 (F := F)) (k0_pay17 (k0_pay9 X.x1) (k0_pay11 X.x1 X.x4) (k0_pay13 X.x2 X.x6 X.x7) (k0_pay14 X.x3 X.x8) X.x9 X.x10 X.x11 X.x12 X.x13 X.x14 X.x15)) (k0_pay3 (F := F)) s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_unfold_run_names
  simp only [View.readCov_cons_toLoadRect, readAt_whole (S := S200x2048) _ hz2, readAt_whole (S := S200x128) _ hz2, readAt_whole (S := S200x16) _ hz2, readAt_whole (S := S2048x1) _ hz2, readAt_whole (S := S1x2048) _ hz2, readAt_whole (S := S128x32) _ hz2, readAt_whole (S := S1x32) _ hz2, readAt_whole (S := S16x32) _ hz2, readAt_whole (S := S64x64) _ hz2, readAt_whole (S := S1x64) _ hz2, readAt_whole (S := S64x32) _ hz2, readAt_whole (S := S32x64) _ hz2, readAt_whole (S := S64x2) _ hz2, readAt_whole (S := S1x2) _ hz2, readAt_whole (S := S200x32) _ hz2, readAt_whole (S := S2000x2) _ hz2, readAt_whole (S := S64x2048) _ hz2, readAt_whole (S := S2048x64) _ hz2]
  sl_step
  iapply Hk
  iframe H1 H2 H3 H4 H5 H6 H7 H8 H9 H10 H11 H12 H13 H14 H15 H16 H17 H18 H19
  isplitl [H20]
  · iexists _; isplitr; rotate_left
    · iexact H20
    · ipureintro; exact read_store_whole _ _ hz2 _ _ _
  isplitl [H21]
  · iexists _; isplitr; · ipureintro; exact harg21.read_unread _
    iexact H21
  isplitl [H22]
  · iapply (putTile_back (F := F) c harg22 (k0_off1 i) (k0_off1_inb i hS) (by rw [k0_off1_eq]; rfl) (k0_pay10 x1) s22)
    iexact H22
  isplitl [H23]
  · iexists _; isplitr; rotate_left
    · iexact H23
    · ipureintro; exact read_store_whole _ _ hz2 _ _ _
  isplitl [H24]
  · iexists _; isplitr; rotate_left
    · iexact H24
    · ipureintro; exact read_store_whole _ _ hz2 _ _ _
  isplitl [H25]
  · iexists _; isplitr; rotate_left
    · iexact H25
    · ipureintro; exact read_store_whole _ _ hz2 _ _ _
  iexists _; isplitr; · ipureintro; exact harg26.read_unread _
  iexact H26

set_option maxHeartbeats 4000000 in
/-- Points 1–49: the streaming step on the accumulators as found. -/
theorem runB (hInit : ¬condInit i) (hS : condStream i) (hN1 : ¬condNorm1 i) (hP1 : ¬condScat1 i) (hN2 : ¬condNorm2 i) (hP2 : ¬condScat2 i) (E : Set ℕ) (K : PUnit → sProp 𝕄) :
    iprop(held c B X y20 y21 (owns (c : Thread nD τ) B.a22 fullShare s22) s23 s24 s25 s26
        ∗ (held c B X (k0_pay16 (k0_pay13 X.x2 X.x6 X.x7) (k0_pay14 X.x3 X.x8) X.x9 X.x10 X.x11 X.x12 X.x13) y21 iprop(∃ hq', ⌜PutTile ((k0_off1 i) 0) (k0_pay10 X.x1) s22 hq'⌝ ∗ owns (c : Thread nD τ) B.a22 fullShare hq') (k0_pay12 X.x1 s23) (k0_pay4 s24 (k0_pay17 (k0_pay9 X.x1) (k0_pay11 X.x1 X.x4) (k0_pay13 X.x2 X.x6 X.x7) (k0_pay14 X.x3 X.x8) X.x9 X.x10 X.x11 X.x12 X.x13 X.x14 X.x15)) s25 s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_unfold_run_names
  simp only [readAt_whole (S := S200x2048) _ hz2, readAt_whole (S := S200x128) _ hz2, readAt_whole (S := S200x16) _ hz2, readAt_whole (S := S2048x1) _ hz2, readAt_whole (S := S1x2048) _ hz2, readAt_whole (S := S128x32) _ hz2, readAt_whole (S := S1x32) _ hz2, readAt_whole (S := S16x32) _ hz2, readAt_whole (S := S64x64) _ hz2, readAt_whole (S := S1x64) _ hz2, readAt_whole (S := S64x32) _ hz2, readAt_whole (S := S32x64) _ hz2, readAt_whole (S := S64x2) _ hz2, readAt_whole (S := S1x2) _ hz2, readAt_whole (S := S200x32) _ hz2, readAt_whole (S := S2000x2) _ hz2, readAt_whole (S := S64x2048) _ hz2, readAt_whole (S := S2048x64) _ hz2]
  sl_step
  iapply Hk
  iframe H1 H2 H3 H4 H5 H6 H7 H8 H9 H10 H11 H12 H13 H14 H15 H16 H17 H18 H19
  isplitl [H20]
  · iexists _; isplitr; rotate_left
    · iexact H20
    · ipureintro; exact read_store_whole _ _ hz2 _ _ _
  isplitl [H21]
  · iexists _; isplitr; · ipureintro; exact harg21.read_unread _
    iexact H21
  isplitl [H22]
  · iexists (arg22.view.read (Elt F) (arg22.view.writes (Elt F) (harg22.unread s22)
        [(⟨Rect.unit (s := S10000x2048) (k0_off1 i) S200x2048.size (k0_off1_inb i hS), k0_pay10 x1⟩ : View.Piece (Elt F) S10000x2048 .bf16)]))
    isplitr
    · ipureintro
      exact putTile_of_store harg22 (k0_off1 i) _ (by rw [k0_off1_eq]; rfl) _ _
    iexists _; isplitr; rotate_left
    · iexact H22
    · ipureintro; rfl
  isplitl [H23]
  · iexists _; isplitr; rotate_left
    · iexact H23
    · ipureintro; exact read_store_whole _ _ hz2 _ _ _
  isplitl [H24]
  · iexists _; isplitr; rotate_left
    · iexact H24
    · ipureintro; exact read_store_whole _ _ hz2 _ _ _
  isplitl [H25]
  · iexists _; isplitr; · ipureintro; exact harg25.read_unread _
    iexact H25
  iexists _; isplitr; · ipureintro; exact harg26.read_unread _
  iexact H26

set_option maxHeartbeats 4000000 in
/-- Point 50: the first aggregation is normalised, then the first scatter step runs with it. -/
theorem runC (hInit : ¬condInit i) (hS : ¬condStream i) (hN1 : condNorm1 i) (hP1 : condScat1 i) (hN2 : ¬condNorm2 i) (hP2 : ¬condScat2 i) (hb : (k0_off2 i) 0 + 2000 ≤ 10000) (E : Set ℕ) (K : PUnit → sProp 𝕄) :
    iprop(held c B X y20 y21 (owns (c : Thread nD τ) B.a22 fullShare s22) s23 s24 s25 s26
        ∗ (held c B X y20 y21 (owns (c : Thread nD τ) B.a22 fullShare s22) s23 s24 (k0_pay6 (getTile ((k0_off2 i) 0) hb s22) X.x4 (k0_pay5 X.x5 s23 s24) X.x16 X.x17 s25) (k0_pay5 X.x5 s23 s24) -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr
    on_goal 2 => iexact H25
    ipureintro
    try sl_unfold_run_names
    simp only [read_store_whole arg25.view _ hz2, read_store_whole arg26.view _ hz2,
      readAt_window harg22 s22 (k0_off2 i) rfl _ hb, View.readCov_unit_zero arg26.view hz2,
      readAt_whole harg4 hz2, readAt_whole harg5 hz2, readAt_whole harg23 hz2,
      readAt_whole harg24 hz2, readAt_whole harg16 hz2, readAt_whole harg17 hz2,
      readAt_whole harg25 hz2, readAt_whole harg26 hz2]
  iexists _; isplitr
  on_goal 2 => iexact H26
  ipureintro
  try sl_unfold_run_names
  simp only [read_store_whole arg25.view _ hz2, read_store_whole arg26.view _ hz2,
    readAt_window harg22 s22 (k0_off2 i) rfl _ hb, View.readCov_unit_zero arg26.view hz2,
    readAt_whole harg4 hz2, readAt_whole harg5 hz2, readAt_whole harg23 hz2,
    readAt_whole harg24 hz2, readAt_whole harg16 hz2, readAt_whole harg17 hz2,
    readAt_whole harg25 hz2, readAt_whole harg26 hz2]

set_option maxHeartbeats 4000000 in
/-- Points 51–54: the first scatter step with the normalised aggregation as found. -/
theorem runD (hInit : ¬condInit i) (hS : ¬condStream i) (hN1 : ¬condNorm1 i) (hP1 : condScat1 i) (hN2 : ¬condNorm2 i) (hP2 : ¬condScat2 i) (hb : (k0_off2 i) 0 + 2000 ≤ 10000) (E : Set ℕ) (K : PUnit → sProp 𝕄) :
    iprop(held c B X y20 y21 (owns (c : Thread nD τ) B.a22 fullShare s22) s23 s24 s25 s26
        ∗ (held c B X y20 y21 (owns (c : Thread nD τ) B.a22 fullShare s22) s23 s24 (k0_pay6 (getTile ((k0_off2 i) 0) hb s22) X.x4 s26 X.x16 X.x17 s25) s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr
    on_goal 2 => iexact H25
    ipureintro
    rw [read_store_whole arg25.view _ hz2, readAt_window harg22 s22 (k0_off2 i) rfl _ hb,
      readAt_whole harg4 hz2, readAt_whole harg26 hz2, readAt_whole harg16 hz2,
      readAt_whole harg17 hz2, readAt_whole harg25 hz2]
  iexists _; isplitr; · ipureintro; exact harg26.read_unread _
  iexact H26

set_option maxHeartbeats 4000000 in
/-- Point 55: the second aggregation is normalised, then the second scatter step and the head run with it. -/
theorem runE (hInit : ¬condInit i) (hS : ¬condStream i) (hN1 : ¬condNorm1 i) (hP1 : ¬condScat1 i) (hN2 : condNorm2 i) (hP2 : condScat2 i) (hb : (k0_off3 i) 0 + 2000 ≤ 10000) (E : Set ℕ) (K : PUnit → sProp 𝕄) :
    iprop(held c B X y20 y21 (owns (c : Thread nD τ) B.a22 fullShare s22) s23 s24 s25 s26
        ∗ (held c B X y20 (k0_pay8 (getTile ((k0_off3 i) 0) hb s22) X.x4 (k0_pay7 X.x5 s23 s25) X.x18 X.x19) (owns (c : Thread nD τ) B.a22 fullShare s22) s23 s24 s25 (k0_pay7 X.x5 s23 s25) -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr
    rotate_left
    · iexact H21
    · ipureintro
      sl_unfold_run_names
      rw [read_store_whole (S := S2000x2) _ _ hz2, readAt_window harg22 s22 (k0_off3 i) rfl _ hb,
        readAt_whole harg4 hz2, View.readCov_unit_zero (S := S2048x64) arg26.view hz2, readAt_whole harg5 hz2,
        readAt_whole harg23 hz2, readAt_whole harg25 hz2, readAt_whole harg18 hz2, readAt_whole harg19 hz2]
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  iexists _; isplitr
  rotate_left
  · iexact H26
  · ipureintro
    sl_unfold_run_names
    rw [read_store_whole (S := S2048x64) _ _ hz2, readAt_whole harg5 hz2, readAt_whole harg23 hz2,
      readAt_whole harg25 hz2]

set_option maxHeartbeats 4000000 in
/-- Points 56–59: the second scatter step and the head with the normalised aggregation as found. -/
theorem runF (hInit : ¬condInit i) (hS : ¬condStream i) (hN1 : ¬condNorm1 i) (hP1 : ¬condScat1 i) (hN2 : ¬condNorm2 i) (hP2 : condScat2 i) (hb : (k0_off3 i) 0 + 2000 ≤ 10000) (E : Set ℕ) (K : PUnit → sProp 𝕄) :
    iprop(held c B X y20 y21 (owns (c : Thread nD τ) B.a22 fullShare s22) s23 s24 s25 s26
        ∗ (held c B X y20 (k0_pay8 (getTile ((k0_off3 i) 0) hb s22) X.x4 s26 X.x18 X.x19) (owns (c : Thread nD τ) B.a22 fullShare s22) s23 s24 s25 s26 -∗ K ⟨⟩))
      ⊢ wp frame (wpE (defs₀ (F := F)) Variants.none c none) E (body (F := F) i B) K := by
  refine of_raw c B X ?_
  obtain ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26⟩ := B
  obtain ⟨x1, x2, x3, x4, x5, x6, x7, x8, x9, x10, x11, x12, x13, x14, x15, x16, x17, x18, x19⟩ := X
  unfold raw body; dsimp only
  simp only [cc0__kernel_eq_skeleton]; unfold cc0__kernel_skel
  unfold owns
  iintro ⟨⟨H1, H2, H3, H4, H5, H6, H7, H8, H9, H10, H11, H12, H13, H14, H15, H16, H17, H18, H19, H20, H21, H22, H23, H24, H25, H26⟩, Hk⟩
  sl_exec (disch := first | exact hInit | exact hS | exact hN1 | exact hP1 | exact hN2 | exact hP2)
  sl_step
  iapply Hk
  iframe H1 H2 H3 H4 H5 H6 H7 H8 H9 H10 H11 H12 H13 H14 H15 H16 H17 H18 H19
  isplitl [H20]
  · iexists _; isplitr; · ipureintro; exact harg20.read_unread _
    iexact H20
  isplitl [H21]
  · iexists _; isplitr
    rotate_left
    · iexact H21
    · ipureintro
      rw [read_store_whole (S := S2000x2) _ _ hz2, readAt_window harg22 s22 (k0_off3 i) rfl _ hb,
        readAt_whole harg4 hz2, readAt_whole harg26 hz2, readAt_whole harg18 hz2, readAt_whole harg19 hz2]
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  iexists _; isplitr; · ipureintro; exact harg26.read_unread _
  iexact H26

end Cert.KernelIdeal.Hand

end
-- ==== Proof.CaseA.lean ====
import proofs.«134735_g40587440947829_cont_sun_m_1101_19_alg».proof.Proof.Dats
import proofs.«134735_g40587440947829_cont_sun_m_1101_19_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

private theorem caseA_hq (c : Dev nD) (t : Fin cfg0.N) (h0 : t.val = 0) (old new : Vec F S10000x2048 .bf16)
    (hput : PutTile ((k0_off1 (grid0.coords t)) 0) (k0_pay10 (iblk m c 0 t)) old new) : HqOk m c (t.val + 1) new := by
  have ht : t.val < 50 := by omega
  rw [off_stream t ht, iblk_0_stream m c t ht] at hput
  refine HqOk_put m c t.val ht old new (by intro b hb; exact absurd hb (by omega)) ?_
  exact hput

private theorem caseA_de (c : Dev nD) (t : Fin cfg0.N) (h0 : t.val = 0) :
    k0_pay12 (iblk m c 0 t) (k0_pay1 (F := F)) = deBefore m c (t.val + 1) := by
  have ht : t.val < 50 := by omega
  rw [iblk_0_stream m c t ht]
  unfold deBefore
  have key : ∀ (n : ℕ) (hn : n < 50) (b : Fin 50), n = 0 → b.val = 0 →
      k0_pay12 (Htile m c b) (k0_pay1 (F := F)) = deAt m c n hn := by
    intro n hn b e1 e2
    subst e1
    obtain ⟨b, hb⟩ := b
    dsimp only at e2
    subst e2
    rfl
  exact key _ _ _ (by omega) h0

private theorem caseA_g (c : Dev nD) (t : Fin cfg0.N) (ht : t.val < 50) :
    k0_pay16 (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t)
      = gTile m c ⟨t.val, ht⟩ := by
  rw [iblk_1_stream m c t ht, iblk_2_stream m c t ht, iblk_5 m c t, iblk_6 m c t, iblk_7 m c t, iblk_8 m c t, iblk_9 m c t, iblk_10 m c t, iblk_11 m c t, iblk_12 m c t]
  rfl

private theorem caseA_agg1 (c : Dev nD) (t : Fin cfg0.N) (h0 : t.val = 0) :
    k0_pay4 (k0_pay2 (F := F)) (k0_pay17 (k0_pay9 (iblk m c 0 t)) (k0_pay11 (iblk m c 0 t) (iblk m c 3 t)) (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t) (iblk m c 13 t) (iblk m c 14 t))
      = agg1Before m c (t.val + 1) := by
  have ht : t.val < 50 := by omega
  rw [iblk_0_stream m c t ht, iblk_1_stream m c t ht, iblk_2_stream m c t ht, iblk_3 m c t, iblk_5 m c t, iblk_6 m c t, iblk_7 m c t, iblk_8 m c t, iblk_9 m c t, iblk_10 m c t, iblk_11 m c t, iblk_12 m c t, iblk_13 m c t, iblk_14 m c t]
  unfold agg1Before
  have key : ∀ (n : ℕ) (hn : n < 50) (b : Fin 50), n = 0 → b.val = 0 →
      k0_pay4 (k0_pay2 (F := F)) (agg1Tile m c b) = agg1At m c n hn := by
    intro n hn b e1 e2
    subst e1
    obtain ⟨b, hb⟩ := b
    dsimp only at e2
    subst e2
    rfl
  exact key _ _ ⟨t.val, ht⟩ (by omega) h0

private theorem caseA_agg2 (c : Dev nD) (t : Fin cfg0.N) (h0 : t.val = 0) :
    k0_pay3 (F := F) = agg2Before m c (t.val + 1) := by
  unfold agg2Before
  rw [if_pos (by omega)]

private theorem caseA_mn (c : Dev nD) (t : Fin cfg0.N) (h0 : t.val = 0) (mn : Vec F S2048x64 .bf16) : MnOk m c (t.val + 1) mn :=
  ⟨fun h _ => absurd h (by omega), fun h => absurd h (by omega)⟩

set_option maxHeartbeats 4800000 in
/-- The body's triple at point 0. -/
theorem caseA (c : Dev nD) (t : Fin cfg0.N) (h0 : t.val = 0) :
    bodyPre m c t ⊢ wp frame (wpE (defs₀ (F := F)) Variants.none c none) Set.univ (bodyAt0 t) (fun _ => bodyPost m c t) := by
  have ht : t.val < 50 := by omega
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_stream m c t ht, before_20 m c]
  rw [show (dats m 0 c).owesAt () t.succ = (dats m 0 c).owesAt () t.castSucc from rfl]
  rw [Phi_succ, PhiS_pos m c (t.val + 1) t.isLt (Nat.succ_ne_zero _)]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t, leaves_19_stream m c t ht]
  rw [Phi_castSucc, PhiS_zero m c _ _ h0, PhiA0_eq]
  rw [← caseA_de m c t h0, ← caseA_agg1 m c t h0, ← caseA_agg2 m c t h0, ← caseA_g m c t ht]
  iintro ⟨⟨⟨⟨%dq, Hq⟩, ⟨%dd, Hd⟩, ⟨%d1, H1⟩, ⟨%d2, H2⟩, ⟨%dm, Hm⟩⟩, Hg⟩, Ho, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩, ⟨%e12, W12⟩, ⟨%e13, W13⟩, ⟨%e14, W14⟩, ⟨%e15, W15⟩, ⟨%e16, W16⟩, ⟨%e17, W17⟩, ⟨%e18, W18⟩, ⟨%e19, W19⟩, ⟨%e20, W20⟩⟩
  iapply (runA (F := F) c (grid0.coords t) (bufs t) (ins m c t) e19 e20 dq dd d1 d2 dm
    ((hcondInit t).mpr h0) ((hcondStream t).mpr ht) (fun h => absurd ((hcondNorm1 t).mp h) (by omega)) (fun h => absurd ((hcondScat1 t).mp h) (by omega)) (fun h => absurd ((hcondNorm2 t).mp h) (by omega)) (fun h => absurd ((hcondScat2 t).mp h) (by omega)) Set.univ _)
  unfold held bufs ins; dsimp only
  iframe W0 W1 W2 W3 W4 W5 W6 W7 W8 W9 W10 W11 W12 W13 W14 W15 W16 W17 W18 W19 W20 Hq Hd H1 H2 Hm
  iintro ⟨W0, W1, W2, W3, W4, W5, W6, W7, W8, W9, W10, W11, W12, W13, W14, W15, W16, W17, W18, W19, W20, ⟨%hq', %hput, Hq⟩, Hd, H1, H2, Hm⟩
  isplitl [Hq Hd H1 H2 Hm Hg]
  · isplitl [Hq Hd H1 H2 Hm]
    · isplitl [Hq]
      · iexists hq'
        isplitr
        swap; · iexact Hq
        ipureintro; exact caseA_hq m c t h0 dq hq' hput
      iframe Hd H1 H2
      iexists dm
      isplitr
      swap; · iexact Hm
      ipureintro; exact caseA_mn m c t h0 dm
    iexact Hg
  iframe Ho W0 W1 W2 W3 W4 W5 W6 W7 W8 W9 W10 W11 W12 W13 W14 W15 W16 W17 W18 W19
  iapply (leaves_20_early m c t (by omega) e20)
  iexact W20

end Cert.KernelIdeal.Hand

end
-- ==== Proof.CaseB.lean ====
import proofs.«134735_g40587440947829_cont_sun_m_1101_19_alg».proof.Proof.Dats
import proofs.«134735_g40587440947829_cont_sun_m_1101_19_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem cB_deAt_congr (c : Dev nD) (a b : ℕ) (ha : a < 50) (hb : b < 50) (h : a = b) : deAt m c a ha = deAt m c b hb := by
  subst h; rfl
theorem cB_agg1At_congr (c : Dev nD) (a b : ℕ) (ha : a < 50) (hb : b < 50) (h : a = b) : agg1At m c a ha = agg1At m c b hb := by
  subst h; rfl

theorem cB_de_step_nat (c : Dev nD) (k : ℕ) (hk : k < 50) (h0 : k ≠ 0) :
    k0_pay12 (Htile m c ⟨k, hk⟩) (deBefore m c k) = deBefore m c (k + 1) := by
  obtain ⟨n, rfl⟩ : ∃ n, k = n + 1 := ⟨k - 1, by omega⟩
  unfold deBefore
  rw [cB_deAt_congr m c (min (n + 1 + 1 - 1) 49) (n + 1) (by omega) hk (by omega),
    cB_deAt_congr m c (min (n + 1 - 1) 49) n (by omega) (by omega) (by omega)]
  rfl

theorem cB_agg1_step_nat (c : Dev nD) (k : ℕ) (hk : k < 50) (h0 : k ≠ 0) :
    k0_pay4 (agg1Before m c k) (agg1Tile m c ⟨k, hk⟩) = agg1Before m c (k + 1) := by
  obtain ⟨n, rfl⟩ : ∃ n, k = n + 1 := ⟨k - 1, by omega⟩
  unfold agg1Before
  rw [cB_agg1At_congr m c (min (n + 1 + 1 - 1) 49) (n + 1) (by omega) hk (by omega),
    cB_agg1At_congr m c (min (n + 1 - 1) 49) n (by omega) (by omega) (by omega)]
  rfl

theorem cB_agg2_stream (c : Dev nD) (k : ℕ) (hk : k < 50) : agg2Before m c (k + 1) = agg2Before m c k := by
  unfold agg2Before
  rw [if_pos (by omega), if_pos (by omega)]

theorem cB_MnOk_early (c : Dev nD) (n : ℕ) (hn : n ≤ 50) (mn : Vec F S2048x64 .bf16) : MnOk m c n mn :=
  ⟨fun h => absurd h (by omega), fun h => absurd h (by omega)⟩

theorem cB_gate_at (c : Dev nD) (t : Fin cfg0.N) (h50 : t.val < 50) :
    k0_pay16 (k0_pay13 (iblk m c 1 t : Vec F S200x128 .f32) (iblk m c 5 t : Vec F S128x32 .f32) (iblk m c 6 t : Vec F S1x32 .f32))
        (k0_pay14 (iblk m c 2 t : Vec F S200x16 .f32) (iblk m c 7 t : Vec F S16x32 .f32)) (iblk m c 8 t : Vec F S1x32 .f32)
        (iblk m c 9 t : Vec F S64x64 .f32) (iblk m c 10 t : Vec F S1x64 .f32) (iblk m c 11 t : Vec F S64x32 .f32) (iblk m c 12 t : Vec F S1x32 .f32)
      = gTile m c ⟨t.val, h50⟩ := by
  rw [iblk_1_stream m c t h50, iblk_2_stream m c t h50, iblk_5, iblk_6, iblk_7, iblk_8, iblk_9, iblk_10, iblk_11, iblk_12]
  rfl

theorem cB_de_at (c : Dev nD) (t : Fin cfg0.N) (h0 : t.val ≠ 0) (h50 : t.val < 50) :
    k0_pay12 (iblk m c 0 t : Vec F S200x2048 .f32) (deBefore m c t.val) = deBefore m c (t.val + 1) := by
  rw [iblk_0_stream m c t h50]
  exact cB_de_step_nat m c t.val h50 h0

theorem cB_agg1_at (c : Dev nD) (t : Fin cfg0.N) (h0 : t.val ≠ 0) (h50 : t.val < 50) :
    k0_pay4 (agg1Before m c t.val)
        (k0_pay17 (k0_pay9 (iblk m c 0 t : Vec F S200x2048 .f32)) (k0_pay11 (iblk m c 0 t : Vec F S200x2048 .f32) (iblk m c 3 t : Vec F S2048x1 .bf16))
          (k0_pay13 (iblk m c 1 t : Vec F S200x128 .f32) (iblk m c 5 t : Vec F S128x32 .f32) (iblk m c 6 t : Vec F S1x32 .f32))
          (k0_pay14 (iblk m c 2 t : Vec F S200x16 .f32) (iblk m c 7 t : Vec F S16x32 .f32)) (iblk m c 8 t : Vec F S1x32 .f32)
          (iblk m c 9 t : Vec F S64x64 .f32) (iblk m c 10 t : Vec F S1x64 .f32) (iblk m c 11 t : Vec F S64x32 .f32) (iblk m c 12 t : Vec F S1x32 .f32)
          (iblk m c 13 t : Vec F S32x64 .f32) (iblk m c 14 t : Vec F S1x64 .f32))
      = agg1Before m c (t.val + 1) := by
  rw [iblk_0_stream m c t h50, iblk_1_stream m c t h50, iblk_2_stream m c t h50, iblk_3, iblk_5, iblk_6, iblk_7, iblk_8, iblk_9, iblk_10, iblk_11, iblk_12, iblk_13, iblk_14]
  exact cB_agg1_step_nat m c t.val h50 h0

theorem cB_hq_at (c : Dev nD) (t : Fin cfg0.N) (h50 : t.val < 50) (old new : Vec F S10000x2048 .bf16)
    (hold : HqOk m c t.val old)
    (hput : PutTile ((k0_off1 (grid0.coords t)) 0) (k0_pay10 (iblk m c 0 t : Vec F S200x2048 .f32)) old new) :
    HqOk m c (t.val + 1) new := by
  rw [off_stream t h50, iblk_0_stream m c t h50] at hput
  exact HqOk_put m c t.val h50 old new hold hput

set_option maxHeartbeats 4800000 in
/-- The body's triple at points 1–49. -/
theorem caseB (c : Dev nD) (t : Fin cfg0.N) (h0 : t.val ≠ 0) (h50 : t.val < 50) :
    bodyPre m c t ⊢ wp frame (wpE (defs₀ (F := F)) Variants.none c none) Set.univ (bodyAt0 t) (fun _ => bodyPost m c t) := by
  have hN : cfg0.N = 60 := N_0
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_stream m c t h50, before_20 m c t]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t, leaves_19_stream m c t h50]
  rw [show (dats m 0 c).owesAt () t.succ = (dats m 0 c).owesAt () t.castSucc from rfl]
  rw [Phi_castSucc, PhiS_pos m c _ _ h0, Phi_succ, PhiS_pos m c _ _ (Nat.succ_ne_zero _)]
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runB (F := F) c (grid0.coords t) (bufs t) (ins m c t) d19 d20 hq (deBefore m c t.val) (agg1Before m c t.val) (agg2Before m c t.val) mn
    (fun h => absurd ((hcondInit t).mp h) h0) ((hcondStream t).mpr h50) (fun h => absurd ((hcondNorm1 t).mp h) (by omega)) (fun h => absurd ((hcondScat1 t).mp h) (by omega)) (fun h => absurd ((hcondNorm2 t).mp h) (by omega)) (fun h => absurd ((hcondScat2 t).mp h) (by omega)) Set.univ _)
  unfold held bufs ins; dsimp only
  iframe H0 H1 H2 H3 H4 H5 H6 H7 H8 H9 H10 H11 H12 H13 H14 H15 H16 H17 H18 H19 H20 Hq Hde Ha1 Ha2 Hmn
  iintro ⟨H0, H1, H2, H3, H4, H5, H6, H7, H8, H9, H10, H11, H12, H13, H14, H15, H16, H17, H18, H19, H20, ⟨%hq', %hput, Hq⟩, Hde, Ha1, Ha2, Hmn⟩
  rw [cB_gate_at m c t h50, cB_de_at m c t h0 h50, cB_agg1_at m c t h0 h50]
  isplitl [Hq Hde Ha1 Ha2 Hmn Hg]
  · isplitl [Hq Hde Ha1 Ha2 Hmn]
    · isplitl [Hq]
      · iexists hq'
        isplitr
        · ipureintro; exact cB_hq_at m c t h50 hq hq' hok hput
        · iexact Hq
      isplitl [Hde]; · iexact Hde
      isplitl [Ha1]; · iexact Ha1
      isplitl [Ha2]; · rw [cB_agg2_stream m c t.val h50]; iexact Ha2
      iexists mn
      isplitr
      · ipureintro; exact cB_MnOk_early m c (t.val + 1) (by omega) mn
      · iexact Hmn
    iexact Hg
  iframe Ho H0 H1 H2 H3 H4 H5 H6 H7 H8 H9 H10 H11 H12 H13 H14 H15 H16 H17 H18 H19
  iapply (leaves_20_early m c t (by omega) d20)
  iexact H20

end Cert.KernelIdeal.Hand

end
-- ==== Proof.CaseC.lean ====
import proofs.«134735_g40587440947829_cont_sun_m_1101_19_alg».proof.Proof.Dats
import proofs.«134735_g40587440947829_cont_sun_m_1101_19_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem cC_deAt_congr (c : Dev nD) (k k' : ℕ) (hk : k < 50) (hk' : k' < 50) (e : k = k') :
    deAt m c k hk = deAt m c k' hk' := by subst e; rfl
theorem cC_agg1At_congr (c : Dev nD) (k k' : ℕ) (hk : k < 50) (hk' : k' < 50) (e : k = k') :
    agg1At m c k hk = agg1At m c k' hk' := by subst e; rfl

theorem cC_deBefore_late (c : Dev nD) (n : ℕ) (h : 50 ≤ n) : deBefore m c n = deEnd m c :=
  cC_deAt_congr m c _ _ _ _ (by omega)
theorem cC_agg1Before_late (c : Dev nD) (n : ℕ) (h : 50 ≤ n) : agg1Before m c n = agg1End m c :=
  cC_agg1At_congr m c _ _ _ _ (by omega)

theorem cC_agg2Before_early (c : Dev nD) (n : ℕ) (h : n ≤ 50) : agg2Before m c n = k0_pay3 (F := F) := if_pos h
theorem cC_agg2Before_51 (c : Dev nD) (n : ℕ) (h : n = 50) :
    agg2Before m c (n + 1) = k0_pay6 (hqTile m c ⟨0, by decide⟩) (wcol m c) (mn1 m c) (c2W m c) (c2b m c) (k0_pay3 (F := F)) := by
  subst h; unfold agg2Before; rw [if_neg (by decide)]; rfl

theorem cC_HqOk_of_full (c : Dev nD) (n n' : ℕ) (hq : Vec F S10000x2048 .bf16) (h : 50 ≤ n) (hok : HqOk m c n hq) :
    HqOk m c n' hq := fun b _ => hok b (by have := b.isLt; omega)

theorem cC_getTile_congr (off off' : ℕ) (e : off = off') (h : off + 2000 ≤ 10000) (h' : off' + 2000 ≤ 10000)
    (hq : Vec F S10000x2048 .bf16) : getTile off h hq = getTile off' h' hq := by subst e; rfl

theorem cC_getTile_C (c : Dev nD) (t : Fin cfg0.N) (h50 : t.val = 50) (hb : (k0_off2 (grid0.coords t)) 0 + 2000 ≤ 10000)
    (hq : Vec F S10000x2048 .bf16) (hok : HqOk m c t.val hq) :
    getTile ((k0_off2 (grid0.coords t)) 0) hb hq = hqTile m c ⟨0, by decide⟩ := by
  have e : (k0_off2 (grid0.coords t)) 0 = 2000 * (0 : Fin 5).val := by
    rw [off_scat1 t (by omega) (by omega)]; show 2000 * (t.val - 50) = 2000 * 0; omega
  rw [cC_getTile_congr _ _ e hb (by decide) hq]
  exact getTile_of_HqOk m c hq (cC_HqOk_of_full m c t.val 50 hq (by omega) hok) 0 _

theorem cC_scMn_C (c : Dev nD) (t : Fin cfg0.N) (h50 : t.val = 50) :
    k0_pay5 (iblk m c 4 t) (deBefore m c t.val) (agg1Before m c t.val) = mn1 m c := by
  rw [iblk_4, cC_deBefore_late m c _ (by omega), cC_agg1Before_late m c _ (by omega)]; rfl

theorem cC_scA2_C (c : Dev nD) (t : Fin cfg0.N) (h50 : t.val = 50) (hb : (k0_off2 (grid0.coords t)) 0 + 2000 ≤ 10000)
    (hq : Vec F S10000x2048 .bf16) (hok : HqOk m c t.val hq) :
    k0_pay6 (getTile ((k0_off2 (grid0.coords t)) 0) hb hq) (iblk m c 3 t)
        (k0_pay5 (iblk m c 4 t) (deBefore m c t.val) (agg1Before m c t.val)) (iblk m c 15 t) (iblk m c 16 t) (agg2Before m c t.val)
      = agg2Before m c (t.val + 1) := by
  rw [cC_scMn_C m c t h50, cC_getTile_C m c t h50 hb hq hok, iblk_3, iblk_15, iblk_16, cC_agg2Before_early m c _ (by omega),
    cC_agg2Before_51 m c _ h50]

theorem cC_MnOk_51 (c : Dev nD) (n : ℕ) (h : n = 50) : MnOk m c (n + 1) (mn1 m c) :=
  ⟨fun _ _ => rfl, fun h' => by omega⟩

set_option maxHeartbeats 6400000 in
/-- The body's triple at point 50. -/
theorem caseC (c : Dev nD) (t : Fin cfg0.N) (h50 : t.val = 50) :
    bodyPre m c t ⊢ wp frame (wpE (defs₀ (F := F)) Variants.none c none) Set.univ (bodyAt0 t) (fun _ => bodyPost m c t) := by
  have hN : cfg0.N = 60 := N_0
  have ht50 : 50 ≤ t.val := by omega
  have ht55 : t.val < 55 := by omega
  have hb : (k0_off2 (grid0.coords t)) 0 + 2000 ≤ 10000 := by
    rw [off_scat1 t ht50 ht55]; show 2000 * (t.val - 50) + 2000 ≤ 10000; omega
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t ht50, before_20 m c]
  rw [show (dats m 0 c).owesAt () t.succ = (dats m 0 c).owesAt () t.castSucc from rfl]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t]
  rw [Phi_castSucc m c t, PhiS_pos m c _ _ (by omega), Phi_succ m c t, PhiS_pos m c (t.val + 1) _ (Nat.succ_ne_zero _)]
  rw [show deBefore m c (t.val + 1) = deBefore m c t.val from (cC_deBefore_late m c _ (by omega)).trans (cC_deBefore_late m c _ ht50).symm,
    show agg1Before m c (t.val + 1) = agg1Before m c t.val from (cC_agg1Before_late m c _ (by omega)).trans (cC_agg1Before_late m c _ ht50).symm]
  iintro ⟨⟨⟨⟨%hq, %hok, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runC (F := F) c (grid0.coords t) (bufs t) (ins m c t) (gTile m c ⟨49, by decide⟩) d20 hq (deBefore m c t.val) (agg1Before m c t.val) (agg2Before m c t.val) mn
    (fun h => absurd ((hcondInit t).mp h) (by omega)) (fun h => absurd ((hcondStream t).mp h) (by omega)) ((hcondNorm1 t).mpr h50) ((hcondScat1 t).mpr ⟨ht50, ht55⟩) (fun h => absurd ((hcondNorm2 t).mp h) (by omega)) (fun h => absurd ((hcondScat2 t).mp h) (by omega)) hb Set.univ _)
  unfold held bufs ins; dsimp only
  iframe H0 H1 H2 H3 H4 H5 H6 H7 H8 H9 H10 H11 H12 H13 H14 H15 H16 H17 H18 H19 H20 HS0 HS1 HS2 HS3 HS4
  iintro ⟨H0, H1, H2, H3, H4, H5, H6, H7, H8, H9, H10, H11, H12, H13, H14, H15, H16, H17, H18, H19, H20, HS0, HS1, HS2, HS3, HS4⟩
  rw [cC_scA2_C m c t h50 hb hq hok, cC_scMn_C m c t h50]
  isplitl [HS0 HS1 HS2 HS3 HS4 Hg]
  · isplitl [HS0 HS1 HS2 HS3 HS4]
    · isplitl [HS0]
      · iexists hq; isplitr
        · ipureintro; exact cC_HqOk_of_full m c t.val (t.val + 1) hq ht50 hok
        iexact HS0
      iframe HS1 HS2 HS3
      iexists (mn1 m c); isplitr
      · ipureintro; exact cC_MnOk_51 m c t.val h50
      iexact HS4
    iexact Hg
  iframe Ho H0 H1 H2 H3 H4 H5 H6 H7 H8 H9 H10 H11 H12 H13 H14 H15 H16 H17 H18
  isplitl [H19]; · iapply (leaves_19_late m c t ht50); iexact H19
  iapply (leaves_20_early m c t ht55 d20); iexact H20

end Cert.KernelIdeal.Hand

end
-- ==== Proof.CaseD.lean ====
import proofs.«134735_g40587440947829_cont_sun_m_1101_19_alg».proof.Proof.Dats
import proofs.«134735_g40587440947829_cont_sun_m_1101_19_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem cD_off2_zero (t : Fin cfg0.N) (h50 : 50 ≤ t.val) (h55 : t.val < 55) :
    (k0_off2 (grid0.coords t)) 0 = 2000 * (t.val - 50) := by
  rw [off_scat1 t h50 h55]; rfl

theorem cD_hb_scat1 (t : Fin cfg0.N) (h50 : 50 ≤ t.val) (h55 : t.val < 55) :
    (k0_off2 (grid0.coords t)) 0 + 2000 ≤ 10000 := by
  rw [cD_off2_zero t h50 h55]; omega

theorem cD_getTile_off (off off' : ℕ) (e : off = off') (h : off + 2000 ≤ 10000) (h' : off' + 2000 ≤ 10000)
    (hq : Vec F S10000x2048 .bf16) : getTile off h hq = getTile off' h' hq := by
  subst e; rfl

theorem cD_getTile_scat1 (c : Dev nD) (t : Fin cfg0.N) (h50 : 50 ≤ t.val) (h55 : t.val < 55)
    (hb : (k0_off2 (grid0.coords t)) 0 + 2000 ≤ 10000) (hq : Vec F S10000x2048 .bf16) (hok : HqOk m c t.val hq) :
    getTile ((k0_off2 (grid0.coords t)) 0) hb hq = hqTile m c ⟨t.val - 50, by omega⟩ := by
  rw [cD_getTile_off _ (2000 * (t.val - 50)) (cD_off2_zero t h50 h55) hb (by omega) hq]
  exact getTile_of_HqOk m c hq (fun b _ => hok b (by have := b.isLt; omega)) ⟨t.val - 50, by omega⟩ _

theorem cD_agg2_succ (c : Dev nD) (k : ℕ) (a b d : ℕ) (ha : a = k + 1) (hb : b = k) (hd : d = k + 1)
    (ha' : a < 5) (hb' : b < 5) (hd' : d < 5) :
    k0_pay6 (hqTile m c ⟨a, ha'⟩) (wcol m c) (mn1 m c) (c2W m c) (c2b m c) (agg2At m c b hb') = agg2At m c d hd' := by
  subst ha hb hd; rfl

theorem cD_agg2_step (c : Dev nD) (n : ℕ) (h51 : 51 ≤ n) (h54 : n ≤ 54) :
    k0_pay6 (hqTile m c ⟨n - 50, by omega⟩) (wcol m c) (mn1 m c) (c2W m c) (c2b m c) (agg2Before m c n)
      = agg2Before m c (n + 1) := by
  have h1 : ¬ n ≤ 50 := by omega
  have h2 : ¬ n + 1 ≤ 50 := by omega
  unfold agg2Before
  rw [if_neg h1, if_neg h2]
  exact cD_agg2_succ m c (n - 51) _ _ _ (by omega) (by omega) (by omega) _ _ _

theorem cD_deAt_idx (c : Dev nD) (a b : ℕ) (e : a = b) (ha : a < 50) (hb : b < 50) : deAt m c a ha = deAt m c b hb := by
  subst e; rfl
theorem cD_agg1At_idx (c : Dev nD) (a b : ℕ) (e : a = b) (ha : a < 50) (hb : b < 50) : agg1At m c a ha = agg1At m c b hb := by
  subst e; rfl

theorem cD_deBefore_late (c : Dev nD) (n : ℕ) (h : 50 ≤ n) : deBefore m c (n + 1) = deBefore m c n := by
  unfold deBefore; exact cD_deAt_idx m c _ _ (by omega) _ _
theorem cD_agg1Before_late (c : Dev nD) (n : ℕ) (h : 50 ≤ n) : agg1Before m c (n + 1) = agg1Before m c n := by
  unfold agg1Before; exact cD_agg1At_idx m c _ _ (by omega) _ _

theorem cD_HqOk_late (c : Dev nD) (n : ℕ) (h : 50 ≤ n) (hq : Vec F S10000x2048 .bf16) (hok : HqOk m c n hq) :
    HqOk m c (n + 1) hq := fun b _ => hok b (by have := b.isLt; omega)

theorem cD_MnOk_mn1 (c : Dev nD) (n : ℕ) (h51 : 51 ≤ n) (h55 : n ≤ 55) : MnOk m c n (mn1 m c) :=
  ⟨fun _ _ => rfl, fun h => absurd h (by omega)⟩

set_option maxHeartbeats 4800000 in
/-- The body's triple at points 51–54. -/
theorem caseD (c : Dev nD) (t : Fin cfg0.N) (h50 : 50 < t.val) (h55 : t.val < 55) :
    bodyPre m c t ⊢ wp frame (wpE (defs₀ (F := F)) Variants.none c none) Set.univ (bodyAt0 t) (fun _ => bodyPost m c t) := by
  have hN : cfg0.N = 60 := N_0
  have h50' : 50 ≤ t.val := by omega
  have hz : t.val ≠ 0 := by omega
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t h50', before_20 m c]
  rw [show (dats m 0 c).owesAt () t.succ = (dats m 0 c).owesAt () t.castSucc from rfl]
  rw [Phi_succ, Phi_castSucc, PhiS_pos m c t.val _ hz, PhiS_pos m c (t.val + 1) _ (Nat.succ_ne_zero _)]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t, leaves_16 m c t, leaves_17 m c t, leaves_18 m c t]
  rw [cD_deBefore_late m c t.val h50', cD_agg1Before_late m c t.val h50']
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hmn1 : mn = mn1 m c := hmn.1 (by omega) (by omega)
  subst hmn1
  have hA2 : k0_pay6 (getTile ((k0_off2 (grid0.coords t)) 0) (cD_hb_scat1 t h50' h55) hq) (iblk m c 3 t) (mn1 m c) (iblk m c 15 t) (iblk m c 16 t) (agg2Before m c t.val)
      = agg2Before m c (t.val + 1) := by
    rw [cD_getTile_scat1 m c t h50' h55 _ hq hok, iblk_3, iblk_15, iblk_16]
    exact cD_agg2_step m c t.val (by omega) (by omega)
  rw [← hA2]
  iapply (runD (F := F) c (grid0.coords t) (bufs t) (ins m c t) (gTile m c ⟨49, by decide⟩) d20 hq (deBefore m c t.val) (agg1Before m c t.val) (agg2Before m c t.val) (mn1 m c)
    (fun h => absurd ((hcondInit t).mp h) (by omega)) (fun h => absurd ((hcondStream t).mp h) (by omega)) (fun h => absurd ((hcondNorm1 t).mp h) (by omega)) ((hcondScat1 t).mpr ⟨h50', h55⟩) (fun h => absurd ((hcondNorm2 t).mp h) (by omega)) (fun h => absurd ((hcondScat2 t).mp h) (by omega)) (cD_hb_scat1 t h50' h55) Set.univ _)
  unfold held bufs ins; dsimp only
  iframe H0 H1 H2 H3 H4 H5 H6 H7 H8 H9 H10 H11 H12 H13 H14 H15 H16 H17 H18 H19 H20 Hq Hde Ha1 Ha2 Hmn
  iintro ⟨H0, H1, H2, H3, H4, H5, H6, H7, H8, H9, H10, H11, H12, H13, H14, H15, H16, H17, H18, H19, H20, Hq, Hde, Ha1, Ha2, Hmn⟩
  isplitl [Hq Hde Ha1 Ha2 Hmn Hg]
  · isplitr [Hg]
    swap; · iexact Hg
    isplitl [Hq]
    · iexists hq; isplitr
      · ipureintro; exact cD_HqOk_late m c t.val h50' hq hok
      · iexact Hq
    iframe Hde Ha1 Ha2
    iexists (mn1 m c); isplitr
    · ipureintro; exact cD_MnOk_mn1 m c (t.val + 1) (by omega) (by omega)
    · iexact Hmn
  iframe Ho H0 H1 H2 H3 H4 H5 H6 H7 H8 H9 H10 H11 H12 H13 H14 H15 H16 H17 H18
  isplitl [H19]
  · iapply (leaves_19_late m c t h50'); iexact H19
  iapply (leaves_20_early m c t h55 d20); iexact H20

end Cert.KernelIdeal.Hand

end
-- ==== Proof.CaseE.lean ====
import proofs.«134735_g40587440947829_cont_sun_m_1101_19_alg».proof.Proof.Dats
import proofs.«134735_g40587440947829_cont_sun_m_1101_19_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

private theorem deBefore_E (c : Dev nD) (n : ℕ) (h : n = 55) : deBefore m c n = deEnd m c := by
  subst h; rfl

private theorem agg2Before_E (c : Dev nD) (n : ℕ) (h : n = 55) : agg2Before m c n = agg2End m c := by
  subst h; rfl

private theorem deBefore_succ_E (c : Dev nD) (n : ℕ) (h : n = 55) : deBefore m c (n + 1) = deBefore m c n := by
  subst h; rfl
private theorem agg1Before_succ_E (c : Dev nD) (n : ℕ) (h : n = 55) : agg1Before m c (n + 1) = agg1Before m c n := by
  subst h; rfl
private theorem agg2Before_succ_E (c : Dev nD) (n : ℕ) (h : n = 55) : agg2Before m c (n + 1) = agg2Before m c n := by
  subst h; rfl

private theorem HqOk_succ_E (c : Dev nD) (n : ℕ) (h : n = 55) (hq : Vec F S10000x2048 .bf16) (hok : HqOk m c n hq) :
    HqOk m c (n + 1) hq := fun b _ r j => hok b (by have := b.isLt; omega) r j
private theorem HqOk_50_E (c : Dev nD) (n : ℕ) (h : n = 55) (hq : Vec F S10000x2048 .bf16) (hok : HqOk m c n hq) :
    HqOk m c 50 hq := fun b _ r j => hok b (by have := b.isLt; omega) r j

private theorem MnOk_succ_E (c : Dev nD) (n : ℕ) (h : n = 55) : MnOk m c (n + 1) (mn2 m c) :=
  ⟨fun _ h' => absurd h' (by omega), fun _ => rfl⟩

private theorem getTile_E (c : Dev nD) (t : Fin cfg0.N) (ht : 55 ≤ t.val)
    (hb : (k0_off3 (grid0.coords t)) 0 + 2000 ≤ 10000) (hq : Vec F S10000x2048 .bf16) (hok : HqOk m c 50 hq) :
    getTile ((k0_off3 (grid0.coords t)) 0) hb hq
      = hqTile m c ⟨t.val - 55, by have := t.isLt; have : cfg0.N = 60 := N_0; omega⟩ := by
  have e : (k0_off3 (grid0.coords t)) 0 = 2000 * (t.val - 55) := by rw [off_scat2 t ht]; rfl
  revert hb
  rw [e]
  intro hb
  exact getTile_of_HqOk m c hq hok ⟨t.val - 55, by have := t.isLt; have : cfg0.N = 60 := N_0; omega⟩ hb

private theorem mn_E (c : Dev nD) (t : Fin cfg0.N) (h55 : t.val = 55) :
    k0_pay7 (iblk m c 4 t : Vec F S1x2048 .f32) (deBefore m c t.val) (agg2Before m c t.val) = mn2 m c := by
  rw [iblk_4, deBefore_E m c _ h55, agg2Before_E m c _ h55]
  rfl

private theorem lo_E (c : Dev nD) (t : Fin cfg0.N) (h55 : t.val = 55)
    (hb : (k0_off3 (grid0.coords t)) 0 + 2000 ≤ 10000) (hq : Vec F S10000x2048 .bf16) (hok : HqOk m c t.val hq) :
    k0_pay8 (getTile ((k0_off3 (grid0.coords t)) 0) hb hq) (iblk m c 3 t : Vec F S2048x1 .bf16)
        (k0_pay7 (iblk m c 4 t : Vec F S1x2048 .f32) (deBefore m c t.val) (agg2Before m c t.val))
        (iblk m c 17 t : Vec F S64x2 .f32) (iblk m c 18 t : Vec F S1x2 .f32)
      = loTile m c ⟨t.val - 55, by have := t.isLt; have : cfg0.N = 60 := N_0; omega⟩ := by
  rw [mn_E m c t h55, getTile_E m c t (by omega) hb hq (HqOk_50_E m c _ h55 hq hok), iblk_3, iblk_17, iblk_18]
  rfl

set_option maxHeartbeats 4800000 in
/-- The body's triple at point 55. -/
theorem caseE (c : Dev nD) (t : Fin cfg0.N) (h55 : t.val = 55) :
    bodyPre m c t ⊢ wp frame (wpE (defs₀ (F := F)) Variants.none c none) Set.univ (bodyAt0 t) (fun _ => bodyPost m c t) := by
  have hN : cfg0.N = 60 := N_0
  have hInit : ¬condInit (grid0.coords t) := fun h => absurd ((hcondInit t).mp h) (by omega)
  have hS : ¬condStream (grid0.coords t) := fun h => absurd ((hcondStream t).mp h) (by omega)
  have hN1 : ¬condNorm1 (grid0.coords t) := fun h => absurd ((hcondNorm1 t).mp h) (by omega)
  have hP1 : ¬condScat1 (grid0.coords t) := fun h => absurd ((hcondScat1 t).mp h) (by omega)
  have hN2 : condNorm2 (grid0.coords t) := (hcondNorm2 t).mpr h55
  have hP2 : condScat2 (grid0.coords t) := (hcondScat2 t).mpr (by omega)
  have hb : (k0_off3 (grid0.coords t)) 0 + 2000 ≤ 10000 := by
    rw [off_scat2 t (by omega)]; show 2000 * (t.val - 55) + 2000 ≤ 10000; omega
  unfold bodyPre bodyPost
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t (by omega), before_20 m c]
  rw [show (dats m 0 c).owesAt () t.succ = (dats m 0 c).owesAt () t.castSucc from rfl]
  rw [Phi_succ, PhiS_pos m c (t.val + 1) _ (Nat.succ_ne_zero _), Phi_castSucc, PhiS_pos m c t.val _ (by omega)]
  rw [leaves_0, leaves_1, leaves_2, leaves_3, leaves_4, leaves_5, leaves_6, leaves_7, leaves_8, leaves_9, leaves_10, leaves_11, leaves_12, leaves_13, leaves_14, leaves_15, leaves_16, leaves_17, leaves_18, leaves_20_late m c t (by omega)]
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have eMn := mn_E m c t h55
  have eLo := lo_E m c t h55 hb hq hok
  iapply (runE (F := F) c (grid0.coords t) (bufs t) (ins m c t) (gTile m c ⟨49, by decide⟩) d20 hq (deBefore m c t.val) (agg1Before m c t.val) (agg2Before m c t.val) mn
    hInit hS hN1 hP1 hN2 hP2 hb Set.univ _)
  unfold held bufs ins; dsimp only
  iframe H0 H1 H2 H3 H4 H5 H6 H7 H8 H9 H10 H11 H12 H13 H14 H15 H16 H17 H18 H19 H20 Hq Hde Ha1 Ha2 Hmn
  rw [eLo, eMn]
  iintro ⟨H0, H1, H2, H3, H4, H5, H6, H7, H8, H9, H10, H11, H12, H13, H14, H15, H16, H17, H18, H19, H20, Hq, Hde, Ha1, Ha2, Hmn⟩
  isplitl [Hq Hde Ha1 Ha2 Hmn Hg]
  · isplitl [Hq Hde Ha1 Ha2 Hmn]
    · isplitl [Hq]
      · iexists hq
        isplitr
        · ipureintro; exact HqOk_succ_E m c _ h55 hq hok
        · iexact Hq
      isplitl [Hde]
      · rw [deBefore_succ_E m c _ h55]; iexact Hde
      isplitl [Ha1]
      · rw [agg1Before_succ_E m c _ h55]; iexact Ha1
      isplitl [Ha2]
      · rw [agg2Before_succ_E m c _ h55]; iexact Ha2
      iexists (mn2 m c)
      isplitr
      · ipureintro; exact MnOk_succ_E m c _ h55
      · iexact Hmn
    iexact Hg
  iframe Ho H0 H1 H2 H3 H4 H5 H6 H7 H8 H9 H10 H11 H12 H13 H14 H15 H16 H17 H18
  isplitl [H19]
  · iapply (leaves_19_late m c t (by omega)); iexact H19
  iexact H20

end Cert.KernelIdeal.Hand

end
-- ==== Proof.CaseF.lean ====
import proofs.«134735_g40587440947829_cont_sun_m_1101_19_alg».proof.Proof.Dats
import proofs.«134735_g40587440947829_cont_sun_m_1101_19_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem cF_deAt_congr (c : Dev nD) (a b : ℕ) (ha : a < 50) (hb : b < 50) (h : a = b) : deAt m c a ha = deAt m c b hb := by
  subst h; rfl
theorem cF_agg1At_congr (c : Dev nD) (a b : ℕ) (ha : a < 50) (hb : b < 50) (h : a = b) : agg1At m c a ha = agg1At m c b hb := by
  subst h; rfl
theorem cF_agg2At_congr (c : Dev nD) (a b : ℕ) (ha : a < 5) (hb : b < 5) (h : a = b) : agg2At m c a ha = agg2At m c b hb := by
  subst h; rfl

theorem cF_deBefore_succ_late (c : Dev nD) (n : ℕ) (h : 50 ≤ n) : deBefore m c (n + 1) = deBefore m c n := by
  unfold deBefore
  exact cF_deAt_congr m c _ _ _ _ (by omega)
theorem cF_agg1Before_succ_late (c : Dev nD) (n : ℕ) (h : 50 ≤ n) : agg1Before m c (n + 1) = agg1Before m c n := by
  unfold agg1Before
  exact cF_agg1At_congr m c _ _ _ _ (by omega)

theorem cF_agg2Before_succ_late (c : Dev nD) (n : ℕ) (h : 55 ≤ n) : agg2Before m c (n + 1) = agg2Before m c n := by
  unfold agg2Before
  rw [if_neg (by omega), if_neg (by omega)]
  exact cF_agg2At_congr m c _ _ _ _ (by omega)

theorem cF_HqOk_succ_late (c : Dev nD) (n : ℕ) (h : 50 ≤ n) (hq : Vec F S10000x2048 .bf16) (hok : HqOk m c n hq) : HqOk m c (n + 1) hq :=
  fun b hb => hok b (by have := b.isLt; omega)

theorem cF_MnOk_succ_late (c : Dev nD) (n : ℕ) (h : 56 ≤ n) (mn : Vec F S2048x64 .bf16) (hmn : MnOk m c n mn) : MnOk m c (n + 1) mn :=
  ⟨fun _ h2 => absurd h2 (by omega), fun _ => hmn.2 h⟩

theorem cF_hb_scat2 (t : Fin cfg0.N) (h : 55 ≤ t.val) : (k0_off3 (grid0.coords t)) 0 + 2000 ≤ 10000 := by
  have hN : cfg0.N = 60 := N_0
  have := t.isLt
  rw [off_scat2 t h]
  show 2000 * (t.val - 55) + 2000 ≤ 10000
  omega

theorem cF_getTile_scat2 (c : Dev nD) (t : Fin cfg0.N) (h : 55 ≤ t.val) (hb : (k0_off3 (grid0.coords t)) 0 + 2000 ≤ 10000)
    (hq : Vec F S10000x2048 .bf16) (hok : HqOk m c t.val hq) :
    getTile ((k0_off3 (grid0.coords t)) 0) hb hq = hqTile m c ⟨t.val - 55, by have := t.isLt; have : cfg0.N = 60 := N_0; omega⟩ := by
  have hoff : (k0_off3 (grid0.coords t)) 0 = 2000 * (t.val - 55) := by rw [off_scat2 t h]; rfl
  revert hb
  rw [hoff]
  intro hb
  exact getTile_of_HqOk m c hq (fun b hb' => hok b (by have := b.isLt; omega)) ⟨t.val - 55, by have := t.isLt; have : cfg0.N = 60 := N_0; omega⟩ hb

theorem cF_pay8_scat2 (c : Dev nD) (t : Fin cfg0.N) (h : 56 ≤ t.val) (hb : (k0_off3 (grid0.coords t)) 0 + 2000 ≤ 10000)
    (hq : Vec F S10000x2048 .bf16) (hok : HqOk m c t.val hq) (mn : Vec F S2048x64 .bf16) (hmn : MnOk m c t.val mn) :
    k0_pay8 (getTile ((k0_off3 (grid0.coords t)) 0) hb hq) (iblk m c 3 t) mn (iblk m c 17 t) (iblk m c 18 t)
      = loTile m c ⟨t.val - 55, by have := t.isLt; have : cfg0.N = 60 := N_0; omega⟩ := by
  rw [cF_getTile_scat2 m c t (by omega) hb hq hok, hmn.2 h, iblk_3, iblk_17, iblk_18]
  rfl

set_option maxHeartbeats 4800000 in
/-- The body's triple at points 56–59. -/
theorem caseF (c : Dev nD) (t : Fin cfg0.N) (h55 : 55 < t.val) :
    bodyPre m c t ⊢ wp frame (wpE (defs₀ (F := F)) Variants.none c none) Set.univ (bodyAt0 t) (fun _ => bodyPost m c t) := by
  have hN : cfg0.N = 60 := N_0
  have htN : t.val < 60 := lt_of_lt_of_eq t.isLt hN
  unfold bodyPre bodyPost bodyAt0
  simp only [before_0 m c, before_1 m c, before_2 m c, before_3 m c, before_4 m c, before_5 m c, before_6 m c, before_7 m c, before_8 m c, before_9 m c, before_10 m c, before_11 m c, before_12 m c, before_13 m c, before_14 m c, before_15 m c, before_16 m c, before_17 m c, before_18 m c, before_19_late m c t (by omega), before_20 m c]
  rw [show (dats m 0 c).owesAt () t.succ = (dats m 0 c).owesAt () t.castSucc from rfl]
  rw [leaves_0, leaves_1, leaves_2, leaves_3, leaves_4, leaves_5, leaves_6, leaves_7, leaves_8, leaves_9, leaves_10, leaves_11, leaves_12, leaves_13, leaves_14, leaves_15, leaves_16, leaves_17, leaves_18, leaves_20_late m c t (by omega)]
  rw [Phi_castSucc, PhiS_pos m c _ _ (by omega), Phi_succ, PhiS_pos m c (t.val + 1) _ (by omega)]
  rw [cF_deBefore_succ_late m c t.val (by omega), cF_agg1Before_succ_late m c t.val (by omega), cF_agg2Before_succ_late m c t.val (by omega)]
  iintro ⟨⟨⟨⟨%hq, %hok, Hq⟩, Hde, Ha1, Ha2, ⟨%mn, %hmn, Hmn⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runF (F := F) c (grid0.coords t) (bufs t) (ins m c t) (gTile m c ⟨49, by decide⟩) d20 hq (deBefore m c t.val) (agg1Before m c t.val) (agg2Before m c t.val) mn
    (fun h => absurd ((hcondInit t).mp h) (by omega)) (fun h => absurd ((hcondStream t).mp h) (by omega)) (fun h => absurd ((hcondNorm1 t).mp h) (by omega)) (fun h => absurd ((hcondScat1 t).mp h) (by omega)) (fun h => absurd ((hcondNorm2 t).mp h) (by omega)) ((hcondScat2 t).mpr (by omega)) (cF_hb_scat2 t (by omega)) Set.univ _)
  unfold held bufs ins; dsimp only
  iframe H0 H1 H2 H3 H4 H5 H6 H7 H8 H9 H10 H11 H12 H13 H14 H15 H16 H17 H18 H19 H20 Hq Hde Ha1 Ha2 Hmn
  iintro ⟨H0, H1, H2, H3, H4, H5, H6, H7, H8, H9, H10, H11, H12, H13, H14, H15, H16, H17, H18, H19, H20, Hq, Hde, Ha1, Ha2, Hmn⟩
  isplitl [Hq Hde Ha1 Ha2 Hmn Hg]
  · isplitl [Hq Hde Ha1 Ha2 Hmn]
    · isplitl [Hq]
      · iexists hq
        isplitr
        · ipureintro; exact cF_HqOk_succ_late m c t.val (by omega) hq hok
        iexact Hq
      iframe Hde Ha1 Ha2
      iexists mn
      isplitr
      · ipureintro; exact cF_MnOk_succ_late m c t.val (by omega) mn hmn
      iexact Hmn
    iexact Hg
  iframe Ho H0 H1 H2 H3 H4 H5 H6 H7 H8 H9 H10 H11 H12 H13 H14 H15 H16 H17 H18
  isplitl [H19]
  · iapply (leaves_19_late m c t (by omega)); iexact H19
  rw [cF_pay8_scat2 m c t (by omega) _ hq hok mn hmn]
  iexact H20

end Cert.KernelIdeal.Hand

end
-- ==== Proof.Body.lean ====
import proofs.«134735_g40587440947829_cont_sun_m_1101_19_alg».proof.Proof.CaseA
import proofs.«134735_g40587440947829_cont_sun_m_1101_19_alg».proof.Proof.CaseB
import proofs.«134735_g40587440947829_cont_sun_m_1101_19_alg».proof.Proof.CaseC
import proofs.«134735_g40587440947829_cont_sun_m_1101_19_alg».proof.Proof.CaseD
import proofs.«134735_g40587440947829_cont_sun_m_1101_19_alg».proof.Proof.CaseE
import proofs.«134735_g40587440947829_cont_sun_m_1101_19_alg».proof.Proof.CaseF
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple at every grid point: the six kinds of point cover the grid. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact caseA m c t h0
  by_cases h50 : t.val < 50
  · exact caseB m c t h0 h50
  by_cases h50' : t.val = 50
  · exact caseC m c t h50'
  by_cases h55 : t.val < 55
  · exact caseD m c t (by omega) h55
  by_cases h55' : t.val = 55
  · exact caseE m c t h55'
  · exact caseF m c t (by omega)

theorem body_obligation (c : Dev nD) : BodyObligation (dats (F := F) m 0 c) (defs₀ (F := F)) Variants.none () Set.univ :=
  body_obligation_of m c (sound_body m c)

set_option backward.isDefEq.respectTransparency.types false in
/-- The region's run: each output array ends at the blocks the points left, every other array as found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KFinal.lean ====
import proofs.«134735_g40587440947829_cont_sun_m_1101_19_alg».proof.Proof.Dats
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The gate and the logits as whole arrays: row i is row i mod the tile height of tile i div the tile height. -/
def gArr (c : Dev nD) : Vec F S10000x32 .f32 := fun y =>
  gTile m c ⟨(y 0).val / 200, by have : (y 0).val < 10000 := (y 0).isLt; omega⟩
    (ValueIdx.ix2 (⟨(y 0).val % 200, Nat.mod_lt _ (by decide)⟩ : Fin 200) (⟨(y 1).val, (y 1).isLt⟩ : Fin 32))

def loArr (c : Dev nD) : Vec F S10000x2 .f32 := fun y =>
  loTile m c ⟨(y 0).val / 2000, by have : (y 0).val < 10000 := (y 0).isLt; omega⟩
    (ValueIdx.ix2 (⟨(y 0).val % 2000, Nat.mod_lt _ (by decide)⟩ : Fin 2000) (⟨(y 1).val, (y 1).isLt⟩ : Fin 2))

theorem idx_19 : ∀ t : Fin cfg0.N, win0_19.index t (0 : Fin 2) = min t.val 49 ∧ win0_19.index t (1 : Fin 2) = 0 :=
  (by decide +kernel : ∀ t : Fin grid0.N, win0_19.index t (0 : Fin 2) = min t.val 49 ∧ win0_19.index t (1 : Fin 2) = 0)

theorem idx_20 : ∀ t : Fin cfg0.N, win0_20.index t (0 : Fin 2) = t.val - 55 ∧ win0_20.index t (1 : Fin 2) = 0 :=
  (by decide +kernel : ∀ t : Fin grid0.N, win0_20.index t (0 : Fin 2) = t.val - 55 ∧ win0_20.index t (1 : Fin 2) = 0)

theorem gTile_congr (c : Dev nD) (b b' : Fin 50) (x x' : S200x32.Idx) (hb : b.val = b'.val)
    (hx : ∀ a, (x a).val = (x' a).val) : gTile m c b x = gTile m c b' x' := by
  obtain rfl : b = b' := Fin.ext hb
  congr 1
  funext a
  exact Fin.ext (hx a)

theorem loTile_congr (c : Dev nD) (k k' : Fin 5) (x x' : S2000x2.Idx) (hk : k.val = k'.val)
    (hx : ∀ a, (x a).val = (x' a).val) : loTile m c k x = loTile m c k' x' := by
  obtain rfl : k = k' := Fin.ext hk
  congr 1
  funext a
  exact Fin.ext (hx a)

/-- What each point leaves of the two outputs is the corresponding block of those arrays. -/
theorem flushed_19 (c : Dev nD) (t : Fin cfg0.N) :
    (dats m 0 c).flushed 19 t = ((cfg0.win 19).blk t).view.read (Elt F) (gArr m c) := by
  show (cfg0.win 19).cut (grid0.coords t) ((dats m 0 c).after 19 t) = _
  rw [after_19]
  obtain ⟨e0, e1⟩ := idx_19 t
  funext j
  rw [View.read_apply]
  have hj0 : (j 0).val < 200 := Nat.lt_of_lt_of_le (j 0).isLt (win0_19.xsize_le (grid0.coords t) 0)
  have hj1 : (j 1).val < 32 := Nat.lt_of_lt_of_le (j 1).isLt (win0_19.xsize_le (grid0.coords t) 1)
  have h0 : ((((cfg0.win 19).blk t).view.emb j) 0).val = win0_19.index t (0 : Fin 2) * 200 + 1 * (j 0).val := rfl
  have h1 : ((((cfg0.win 19).blk t).view.emb j) 1).val = win0_19.index t (1 : Fin 2) * 32 + 1 * (j 1).val := rfl
  unfold gAfter gArr
  refine gTile_congr m c _ _ _ _ ?_ ?_
  · show min t.val 49 = ((((cfg0.win 19).blk t).view.emb j) 0).val / 200
    rw [h0, e0]; omega
  · intro a
    match a with
    | ⟨0, _⟩ => show (j 0).val = ((((cfg0.win 19).blk t).view.emb j) 0).val % 200; rw [h0, e0]; omega
    | ⟨1, _⟩ => show (j 1).val = ((((cfg0.win 19).blk t).view.emb j) 1).val; rw [h1, e1]; omega

theorem flushed_20 (c : Dev nD) (t : Fin cfg0.N) (hf : (cfg0.win 20).flush t = true) :
    (dats m 0 c).flushed 20 t = ((cfg0.win 20).blk t).view.read (Elt F) (loArr m c) := by
  have ht : 55 ≤ t.val := (flush_20 t).mp hf
  have hN : t.val < 60 := lt_of_lt_of_eq t.isLt N_eq
  show (cfg0.win 20).cut (grid0.coords t) ((dats m 0 c).after 20 t) = _
  rw [after_20]
  obtain ⟨e0, e1⟩ := idx_20 t
  funext j
  rw [View.read_apply]
  have hj0 : (j 0).val < 2000 := Nat.lt_of_lt_of_le (j 0).isLt (win0_20.xsize_le (grid0.coords t) 0)
  have hj1 : (j 1).val < 2 := Nat.lt_of_lt_of_le (j 1).isLt (win0_20.xsize_le (grid0.coords t) 1)
  have h0 : ((((cfg0.win 20).blk t).view.emb j) 0).val = win0_20.index t (0 : Fin 2) * 2000 + 1 * (j 0).val := rfl
  have h1 : ((((cfg0.win 20).blk t).view.emb j) 1).val = win0_20.index t (1 : Fin 2) * 2 + 1 * (j 1).val := rfl
  unfold loAfter loArr
  refine loTile_congr m c _ _ _ _ ?_ ?_
  · show min (t.val - 55) 4 = ((((cfg0.win 20).blk t).view.emb j) 0).val / 2000
    rw [h0, e0]; omega
  · intro a
    match a with
    | ⟨0, _⟩ => show (j 0).val = ((((cfg0.win 20).blk t).view.emb j) 0).val % 2000; rw [h0, e0]; omega
    | ⟨1, _⟩ => show (j 1).val = ((((cfg0.win 20).blk t).view.emb j) 1).val; rw [h1, e1]; omega

theorem mem_blk_19 (t : Fin cfg0.N) (i : S10000x32.Idx) :
    i ∈ ((cfg0.win 19).blk t).view.set ↔ ∀ a : Fin 2, win0_19.index t a * S200x32.size a ≤ (i a).val ∧ (i a).val < win0_19.index t a * S200x32.size a + S200x32.size a := by
  show i ∈ ((View.whole main_v10_0).slice (win0_19.rect t)).set ↔ _
  rw [View.set_slice_whole, Rect.mem_set_unit]
  exact Iff.rfl

theorem mem_blk_20 (t : Fin cfg0.N) (i : S10000x2.Idx) :
    i ∈ ((cfg0.win 20).blk t).view.set ↔ ∀ a : Fin 2, win0_20.index t a * S2000x2.size a ≤ (i a).val ∧ (i a).val < win0_20.index t a * S2000x2.size a + S2000x2.size a := by
  show i ∈ ((View.whole main_v10_1).slice (win0_20.rect t)).set ↔ _
  rw [View.set_slice_whole, Rect.mem_set_unit]
  exact Iff.rfl

/-- Those blocks cover the outputs, so after the run the two arrays are the ones above. -/
theorem final_g (c : Dev nD) : (dats m 0 c).arrAt 19 cfg0.N = gArr m c := by
  refine (dats m 0 c).arrAt_eq_of_cover 19 (gArr m c) (fun t _ => flushed_19 m c t) fun i => ?_
  have hi0 : (i 0).val < 10000 := (i 0).isLt
  have hi1 : (i 1).val < 32 := (i 1).isLt
  by_cases hlast : (i 0).val / 200 < 49
  · have hN : (i 0).val / 200 < cfg0.N := by rw [N_eq]; omega
    refine ⟨⟨(i 0).val / 200, hN⟩, (flush_19 _).mpr (Or.inl hlast), ?_⟩
    rw [mem_blk_19]
    obtain ⟨e0, e1⟩ := idx_19 ⟨(i 0).val / 200, hN⟩
    intro a
    match a with
    | ⟨0, _⟩ => show win0_19.index ⟨(i 0).val / 200, hN⟩ (0 : Fin 2) * 200 ≤ (i 0).val ∧ (i 0).val < win0_19.index ⟨(i 0).val / 200, hN⟩ (0 : Fin 2) * 200 + 200
                rw [e0]; dsimp only; omega
    | ⟨1, _⟩ => show win0_19.index ⟨(i 0).val / 200, hN⟩ (1 : Fin 2) * 32 ≤ (i 1).val ∧ (i 1).val < win0_19.index ⟨(i 0).val / 200, hN⟩ (1 : Fin 2) * 32 + 32
                rw [e1]; omega
  · have hN : 59 < cfg0.N := by rw [N_eq]; decide
    refine ⟨⟨59, hN⟩, (flush_19 _).mpr (Or.inr rfl), ?_⟩
    rw [mem_blk_19]
    obtain ⟨e0, e1⟩ := idx_19 ⟨59, hN⟩
    intro a
    match a with
    | ⟨0, _⟩ => show win0_19.index ⟨59, hN⟩ (0 : Fin 2) * 200 ≤ (i 0).val ∧ (i 0).val < win0_19.index ⟨59, hN⟩ (0 : Fin 2) * 200 + 200
                rw [e0]; dsimp only; omega
    | ⟨1, _⟩ => show win0_19.index ⟨59, hN⟩ (1 : Fin 2) * 32 ≤ (i 1).val ∧ (i 1).val < win0_19.index ⟨59, hN⟩ (1 : Fin 2) * 32 + 32
                rw [e1]; omega

theorem final_lo (c : Dev nD) : (dats m 0 c).arrAt 20 cfg0.N = loArr m c := by
  refine (dats m 0 c).arrAt_eq_of_cover 20 (loArr m c) (flushed_20 m c) fun i => ?_
  have hi0 : (i 0).val < 10000 := (i 0).isLt
  have hi1 : (i 1).val < 2 := (i 1).isLt
  have hN : 55 + (i 0).val / 2000 < cfg0.N := by rw [N_eq]; omega
  refine ⟨⟨55 + (i 0).val / 2000, hN⟩, (flush_20 _).mpr (by dsimp only; omega), ?_⟩
  rw [mem_blk_20]
  obtain ⟨e0, e1⟩ := idx_20 ⟨55 + (i 0).val / 2000, hN⟩
  intro a
  match a with
  | ⟨0, _⟩ => show win0_20.index ⟨55 + (i 0).val / 2000, hN⟩ (0 : Fin 2) * 2000 ≤ (i 0).val ∧ (i 0).val < win0_20.index ⟨55 + (i 0).val / 2000, hN⟩ (0 : Fin 2) * 2000 + 2000
              rw [e0]; dsimp only; omega
  | ⟨1, _⟩ => show win0_20.index ⟨55 + (i 0).val / 2000, hN⟩ (1 : Fin 2) * 2 ≤ (i 1).val ∧ (i 1).val < win0_20.index ⟨55 + (i 0).val / 2000, hN⟩ (1 : Fin 2) * 2 + 2
              rw [e1]; omega

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

/-- The arguments by coordinates: features x, z; incidence H; hyperedge weights w; each linear map's matrix and bias. -/
structure Args where
  x : Fin 10000 → Fin 128 → EReal
  z : Fin 10000 → Fin 16 → EReal
  H : Fin 10000 → Fin 2048 → EReal
  w : Fin 2048 → EReal
  psiW : Fin 128 → Fin 32 → EReal
  psib : Fin 32 → EReal
  phiW : Fin 16 → Fin 32 → EReal
  phib : Fin 32 → EReal
  g1W : Fin 64 → Fin 64 → EReal
  g1b : Fin 64 → EReal
  g2W : Fin 64 → Fin 32 → EReal
  g2b : Fin 32 → EReal
  c1W : Fin 32 → Fin 64 → EReal
  c1b : Fin 64 → EReal
  c2W : Fin 64 → Fin 64 → EReal
  c2b : Fin 64 → EReal
  hdW : Fin 64 → Fin 2 → EReal
  hdb : Fin 2 → EReal

/-- The arguments read off the argument arrays, in the programs' order. -/
def Args.ofArrays
    (x : (⟨2, ![10000, 128]⟩ : Shape).Idx → EReal) (z : (⟨2, ![10000, 16]⟩ : Shape).Idx → EReal)
    (H : (⟨2, ![10000, 2048]⟩ : Shape).Idx → EReal) (w : (⟨1, ![2048]⟩ : Shape).Idx → EReal)
    (psiW : (⟨2, ![128, 32]⟩ : Shape).Idx → EReal) (psib : (⟨1, ![32]⟩ : Shape).Idx → EReal)
    (phiW : (⟨2, ![16, 32]⟩ : Shape).Idx → EReal) (phib : (⟨1, ![32]⟩ : Shape).Idx → EReal)
    (g1W : (⟨2, ![64, 64]⟩ : Shape).Idx → EReal) (g1b : (⟨1, ![64]⟩ : Shape).Idx → EReal)
    (g2W : (⟨2, ![64, 32]⟩ : Shape).Idx → EReal) (g2b : (⟨1, ![32]⟩ : Shape).Idx → EReal)
    (c1W : (⟨2, ![32, 64]⟩ : Shape).Idx → EReal) (c1b : (⟨1, ![64]⟩ : Shape).Idx → EReal)
    (c2W : (⟨2, ![64, 64]⟩ : Shape).Idx → EReal) (c2b : (⟨1, ![64]⟩ : Shape).Idx → EReal)
    (hdW : (⟨2, ![64, 2]⟩ : Shape).Idx → EReal) (hdb : (⟨1, ![2]⟩ : Shape).Idx → EReal) : Args where
  x i k := x (ValueIdx.ix2 i k)
  z i k := z (ValueIdx.ix2 i k)
  H i j := H (ValueIdx.ix2 i j)
  w j := w (ValueIdx.ix1 j)
  psiW k a := psiW (ValueIdx.ix2 k a)
  psib a := psib (ValueIdx.ix1 a)
  phiW k a := phiW (ValueIdx.ix2 k a)
  phib a := phib (ValueIdx.ix1 a)
  g1W k b := g1W (ValueIdx.ix2 k b)
  g1b b := g1b (ValueIdx.ix1 b)
  g2W k a := g2W (ValueIdx.ix2 k a)
  g2b a := g2b (ValueIdx.ix1 a)
  c1W k d := c1W (ValueIdx.ix2 k d)
  c1b d := c1b (ValueIdx.ix1 d)
  c2W k d := c2W (ValueIdx.ix2 k d)
  c2b d := c2b (ValueIdx.ix1 d)
  hdW k o := hdW (ValueIdx.ix2 k o)
  hdb o := hdb (ValueIdx.ix1 o)

variable (A : Args)

/-- The stabiliser added to a degree (the f32 nearest 1e-9) and the f32 one. -/
def eps : EReal := Ideal.ofBits .f32 0x3089705F#32

def one : EReal := Ideal.ofBits .f32 0x3F800000#32

/-- Weighted node degree, its stabilised inverse root, hyperedge degree, hyperedge weight over stabilised degree. -/
def dv (i : Fin 10000) : EReal := ∑ j : Fin 2048, A.H i j * A.w j
def s (i : Fin 10000) : EReal := Ideal.rsqrt (dv A i + eps)
def de (j : Fin 2048) : EReal := ∑ i : Fin 10000, A.H i j
def se (j : Fin 2048) : EReal := Ideal.div (A.w j) (de A j + eps)

/-- The gated fusion: two projections, their concatenation, the gate network, the gate-weighted mix. -/
def x1 (i : Fin 10000) (a : Fin 32) : EReal := (∑ k : Fin 128, A.x i k * A.psiW k a) + A.psib a
def z1 (i : Fin 10000) (a : Fin 32) : EReal := (∑ k : Fin 16, A.z i k * A.phiW k a) + A.phib a

def cat (i : Fin 10000) (b : Fin 64) : EReal :=
  if h : b.val < 32 then x1 A i ⟨b.val, h⟩ else z1 A i ⟨b.val - 32, by have := b.isLt; omega⟩

def gh (i : Fin 10000) (b : Fin 64) : EReal := max ((∑ k : Fin 64, cat A i k * A.g1W k b) + A.g1b b) 0
def g (i : Fin 10000) (a : Fin 32) : EReal := Ideal.logistic ((∑ k : Fin 64, gh A i k * A.g2W k a) + A.g2b a)

def fused (i : Fin 10000) (a : Fin 32) : EReal := g A i a * z1 A i a + (one - g A i a) * x1 A i a

/-- A hypergraph convolution: linear map, scale by s, gather onto hyperedges, scale by se, scatter back, scale by s. -/
def lin {K : ℕ} (h : Fin 10000 → Fin K → EReal) (W : Fin K → Fin 64 → EReal) (b : Fin 64 → EReal)
    (i : Fin 10000) (d : Fin 64) : EReal := (∑ k : Fin K, h i k * W k d) + b d
def gather (X : Fin 10000 → Fin 64 → EReal) (j : Fin 2048) (d : Fin 64) : EReal :=
  ∑ i : Fin 10000, A.H i j * (X i d * s A i)
def scatter (mm : Fin 2048 → Fin 64 → EReal) (i : Fin 10000) (d : Fin 64) : EReal :=
  (∑ j : Fin 2048, A.H i j * (mm j d * se A j)) * s A i
def conv {K : ℕ} (h : Fin 10000 → Fin K → EReal) (W : Fin K → Fin 64 → EReal) (b : Fin 64 → EReal) :
    Fin 10000 → Fin 64 → EReal := scatter A (gather A (lin h W b))

/-- Two rectified layers and the linear head. -/
def h1 (i : Fin 10000) (d : Fin 64) : EReal := max (conv A (fused A) A.c1W A.c1b i d) 0
def h2 (i : Fin 10000) (d : Fin 64) : EReal := max (conv A (h1 A) A.c2W A.c2b i d) 0
def logits (i : Fin 10000) (o : Fin 2) : EReal := (∑ k : Fin 64, h2 A i k * A.hdW k o) + A.hdb o

end Cert.Spec

end
-- ==== Proof.KArgs.lean ====
import proofs.«134735_g40587440947829_cont_sun_m_1101_19_alg».proof.Proof.Step
import proofs.«134735_g40587440947829_cont_sun_m_1101_19_alg».proof.Proof.Spec
import Idealize.ShloMosaic.Lib.ValueLayout

noncomputable section

namespace Cert.KernelIdeal.Hand

open Idealize.ShloMosaic Idealize.ShloMosaic.TcCoe Idealize.SL.Sem
open Cert.KernelIdeal Cert.KernelIdeal.Gen
open ValueIdx (ix2)

variable (m : (ℓ : Loc nD τ sig) → Buf (Elt Ideal) ℓ) (c : Dev nD)

/-- The specification's arguments read off the kernel's memory at launch. -/
def kArgs : Cert.Spec.Args :=
  Cert.Spec.Args.ofArrays
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))

theorem xA_apply (i : Fin 10000) (k : Fin 128) : xA m c (ix2 i k) = (kArgs m c).x i k := congrFun (V_main_arg0 m c) _
theorem zA_apply (i : Fin 10000) (k : Fin 16) : zA m c (ix2 i k) = (kArgs m c).z i k := congrFun (V_main_arg1 m c) _
theorem HA_apply (i : Fin 10000) (j : Fin 2048) : HA m c (ix2 i j) = (kArgs m c).H i j := congrFun (V_main_arg2 m c) _
theorem psiW_apply (k : Fin 128) (a : Fin 32) : psiW m c (ix2 k a) = (kArgs m c).psiW k a := congrFun (V_main_arg4 m c) _
theorem phiW_apply (k : Fin 16) (a : Fin 32) : phiW m c (ix2 k a) = (kArgs m c).phiW k a := congrFun (V_main_arg6 m c) _
theorem g1W_apply (k b : Fin 64) : g1W m c (ix2 k b) = (kArgs m c).g1W k b := congrFun (V_main_arg8 m c) _
theorem g2W_apply (k : Fin 64) (a : Fin 32) : g2W m c (ix2 k a) = (kArgs m c).g2W k a := congrFun (V_main_arg10 m c) _
theorem c1W_apply (k : Fin 32) (d : Fin 64) : c1W m c (ix2 k d) = (kArgs m c).c1W k d := congrFun (V_main_arg12 m c) _
theorem c2W_apply (k d : Fin 64) : c2W m c (ix2 k d) = (kArgs m c).c2W k d := congrFun (V_main_arg14 m c) _
theorem hdW_apply (k : Fin 64) (o : Fin 2) : hdW m c (ix2 k o) = (kArgs m c).hdW k o := congrFun (V_main_arg16 m c) _

/-- The weights reach the region as a column, whose entry (j, 0) has the row-major position of entry j of the vector. -/
theorem wcol_apply (j : Fin 2048) : wcol m c (ix2 j (0 : Fin 1)) = (kArgs m c).w j :=
  (congrFun (show V m c main_v1 = shapeCast S2048x1 (m ((c.tc : Thread nD τ).loc main_arg3)) shapeCasts_S2048_S2048x1 by
    dsimp only [V, hostOps0]; after_results; rfl) _).trans (shapeCast_apply _ _ _ (ValueIdx.ix1 j) (by
      rw [Shape.rowMajor_val_two, Shape.rowMajor_val_one]; show j.val = j.val * 1 + 0; omega))
/-- … and as a row, like each bias. -/
theorem wrow_apply (j : Fin 2048) : wrow m c (ix2 (0 : Fin 1) j) = (kArgs m c).w j :=
  (congrFun (show V m c main_v2 = shapeCast S1x2048 (m ((c.tc : Thread nD τ).loc main_arg3)) shapeCasts_S2048_S1x2048 by
    dsimp only [V, hostOps0]; after_results; rfl) _).trans (ValueIdx.shapeCast_a_1a_apply _ _ 0 j)
theorem psib_apply (a : Fin 32) : psib m c (ix2 (0 : Fin 1) a) = (kArgs m c).psib a :=
  (congrFun (show V m c main_v3 = shapeCast S1x32 (m ((c.tc : Thread nD τ).loc main_arg5)) shapeCasts_S32_S1x32 by
    dsimp only [V, hostOps0]; after_results; rfl) _).trans (ValueIdx.shapeCast_a_1a_apply _ _ 0 a)
theorem phib_apply (a : Fin 32) : phib m c (ix2 (0 : Fin 1) a) = (kArgs m c).phib a :=
  (congrFun (show V m c main_v4 = shapeCast S1x32 (m ((c.tc : Thread nD τ).loc main_arg7)) shapeCasts_S32_S1x32 by
    dsimp only [V, hostOps0]; after_results; rfl) _).trans (ValueIdx.shapeCast_a_1a_apply _ _ 0 a)
theorem g1b_apply (b : Fin 64) : g1b m c (ix2 (0 : Fin 1) b) = (kArgs m c).g1b b :=
  (congrFun (show V m c main_v5 = shapeCast S1x64 (m ((c.tc : Thread nD τ).loc main_arg9)) shapeCasts_S64_S1x64 by
    dsimp only [V, hostOps0]; after_results; rfl) _).trans (ValueIdx.shapeCast_a_1a_apply _ _ 0 b)
theorem g2b_apply (a : Fin 32) : g2b m c (ix2 (0 : Fin 1) a) = (kArgs m c).g2b a :=
  (congrFun (show V m c main_v6 = shapeCast S1x32 (m ((c.tc : Thread nD τ).loc main_arg11)) shapeCasts_S32_S1x32 by
    dsimp only [V, hostOps0]; after_results; rfl) _).trans (ValueIdx.shapeCast_a_1a_apply _ _ 0 a)
theorem c1b_apply (d : Fin 64) : c1b m c (ix2 (0 : Fin 1) d) = (kArgs m c).c1b d :=
  (congrFun (show V m c main_v7 = shapeCast S1x64 (m ((c.tc : Thread nD τ).loc main_arg13)) shapeCasts_S64_S1x64 by
    dsimp only [V, hostOps0]; after_results; rfl) _).trans (ValueIdx.shapeCast_a_1a_apply _ _ 0 d)
theorem c2b_apply (d : Fin 64) : c2b m c (ix2 (0 : Fin 1) d) = (kArgs m c).c2b d :=
  (congrFun (show V m c main_v8 = shapeCast S1x64 (m ((c.tc : Thread nD τ).loc main_arg15)) shapeCasts_S64_S1x64 by
    dsimp only [V, hostOps0]; after_results; rfl) _).trans (ValueIdx.shapeCast_a_1a_apply _ _ 0 d)
theorem hdb_apply (o : Fin 2) : hdb m c (ix2 (0 : Fin 1) o) = (kArgs m c).hdb o :=
  (congrFun (show V m c main_v9 = shapeCast S1x2 (m ((c.tc : Thread nD τ).loc main_arg17)) shapeCasts_S2_S1x2 by
    dsimp only [V, hostOps0]; after_results; rfl) _).trans (ValueIdx.shapeCast_a_1a_apply _ _ 0 o)

end Cert.KernelIdeal.Hand

end
-- ==== Proof.Basic.lean ====
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Data.Fintype.BigOperators

noncomputable section

namespace Cert

open Idealize.ShloMosaic
open ValueIdx (ix2 contrEquiv1)

/-- A product over one contracted axis into a zero accumulator is, at `j`, the sum over that axis of the operands read where `L` and `R` say. -/
theorem matmul_zero_apply {sl sr so : Shape} {φ₁ φ₂ : FTy} (D : DotDims sl sr so) {K : ℕ} (hr : D.contr.rank = 1)
    (hs : D.contr.size ⟨0, by omega⟩ = K) (x : FVec Ideal sl φ₁) (y : FVec Ideal sr φ₂) (j : so.Idx)
    (L : Fin K → sl.Idx) (R : Fin K → sr.Idx)
    (hL : ∀ q a, (D.lhsIdx j q a).val = (L (contrEquiv1 D K hr hs q) a).val)
    (hR : ∀ q a, (D.rhsIdx j q a).val = (R (contrEquiv1 D K hr hs q) a).val) :
    matmul (F := Ideal) D none x y (constant (F := Ideal) so .f32 0x00000000#32) j = ∑ k, x (L k) * y (R k) := by
  simp only [matmul]
  rw [Ideal.matmul_constant_zero_apply, ← Equiv.sum_comp (contrEquiv1 D K hr hs)]
  exact Finset.sum_congr rfl fun q _ => by
    rw [show D.lhsIdx j q = L _ from funext fun a => Fin.ext (hL q a),
      show D.rhsIdx j q = R _ from funext fun a => Fin.ext (hR q a)]

/-- Rows by columns: at `(r, c)` the sum over the shared axis of row `r` against column `c`. -/
theorem matmul_rc_apply {m K n : ℕ} {φ₁ φ₂ : FTy} (D : DotDims ⟨2, ![m, K]⟩ ⟨2, ![K, n]⟩ ⟨2, ![m, n]⟩)
    (hD : (D.lhsContracting, D.rhsContracting, D.lhsNonContracting, D.rhsNonContracting, D.lhsBatch, D.rhsBatch)
      = ([1], [0], [0], [1], [], []))
    (x : FVec Ideal ⟨2, ![m, K]⟩ φ₁) (y : FVec Ideal ⟨2, ![K, n]⟩ φ₂) (r : Fin m) (c : Fin n) :
    matmul (F := Ideal) D none x y (constant (F := Ideal) ⟨2, ![m, n]⟩ .f32 0x00000000#32) (ix2 r c)
      = ∑ k : Fin K, x (ix2 r k) * y (ix2 k c) := by
  cases D
  cases hD
  exact matmul_zero_apply _ rfl rfl x y _ _ _ (fun _ a => match a with | ⟨0, _⟩ => rfl | ⟨1, _⟩ => rfl)
    (fun _ a => match a with | ⟨0, _⟩ => rfl | ⟨1, _⟩ => rfl)

/-- An `[a, 1]` column repeated along `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of block `b`, among `nb` blocks of `sz` rows laid end to end. -/
abbrev node {nb sz : ℕ} (b : Fin nb) (r : Fin sz) : Fin (nb * sz) :=
  ⟨sz * b.val + r.val, Nat.lt_of_lt_of_le (Nat.add_lt_add_left r.isLt _)
    (Nat.mul_comm nb sz ▸ Nat.mul_le_mul_left sz b.isLt)⟩

/-- A sum over all rows is the sum over the blocks of the sums over their rows. -/
theorem sum_blocks {M : Type*} [AddCommMonoid M] {nb sz : ℕ} (f : Fin (nb * sz) → M) :
    ∑ b : Fin nb, ∑ r : Fin sz, f (node b r) = ∑ i, f i := by
  rw [← Fintype.sum_prod_type']
  exact Fintype.sum_equiv finProdFinEquiv _ _ fun p => congrArg f (Fin.ext (Nat.add_comm _ _))

/-- An accumulator that starts at the first share and adds one share a step holds, after step `n`, the shares up to `n`. -/
theorem acc_eq_sum {M : Type*} [AddCommMonoid M] {N : ℕ} (acc sh : (n : ℕ) → n < N → M) (h0 : ∀ h, acc 0 h = sh 0 h)
    (hs : ∀ n h, acc (n + 1) h = acc n (Nat.lt_of_succ_lt h) + sh (n + 1) h) :
    ∀ n h, acc n h = ∑ b : Fin (n + 1), sh b.val (Nat.lt_of_le_of_lt (Nat.le_of_lt_succ b.isLt) h)
  | 0, h => by rw [Fin.sum_univ_one]; exact h0 h
  | n + 1, h => by rw [Fin.sum_univ_castSucc, hs, acc_eq_sum acc sh h0 hs n]; rfl

end Cert

end
-- ==== Proof.PayGate.lean ====
import proofs.«134735_g40587440947829_cont_sun_m_1101_19_alg».proof.Proof.Gen.KernelIdeal.Skeleton
import proofs.«134735_g40587440947829_cont_sun_m_1101_19_alg».proof.Proof.Basic

noncomputable section

namespace Cert.KernelIdeal.Hand

open Idealize.ShloMosaic Idealize.ShloMosaic.TcCoe Idealize.SL.Sem
open Cert.KernelIdeal Cert.KernelIdeal.Gen
open ValueIdx (ix2)

/-- Two `[200,32]` blocks joined along the features: the first below feature 32, the second from there. -/
theorem cat_apply {α : Type} (u v : S200x32.Idx → α) (r : Fin 200) (b : Fin 64) :
    concatenate S200x64 1 [⟨S200x32, u⟩, ⟨S200x32, v⟩] concatenates_S200x32_S200x32_S200x64_d1 (ix2 r b)
      = if h : b.val < 32 then u (ix2 r (⟨b.val, h⟩ : Fin 32))
        else v (ix2 r (⟨b.val - 32, by have := b.isLt; omega⟩ : Fin 32)) := by
  split
  · exact concatenate_pair_apply_left 1 u v _ (ix2 r b) rfl _ fun c => match c with | ⟨0, _⟩ => rfl | ⟨1, _⟩ => rfl
  · exact concatenate_pair_apply_right 1 u v _ (ix2 r b) rfl rfl _
      (fun c hc => match c, hc with | ⟨0, _⟩, _ => rfl | ⟨1, _⟩, hc => absurd rfl hc)
      (by show (b.val - 32) + 32 = b.val; omega)

variable (x : Vec Ideal S200x128 .f32) (psiW : Vec Ideal S128x32 .f32) (psib : Vec Ideal S1x32 .f32)
  (z : Vec Ideal S200x16 .f32) (phiW : Vec Ideal S16x32 .f32) (phib : Vec Ideal S1x32 .f32)
  (g1W : Vec Ideal S64x64 .f32) (g1b : Vec Ideal S1x64 .f32) (g2W : Vec Ideal S64x32 .f32) (g2b : Vec Ideal S1x32 .f32)
  (X1 Z0 : Vec Ideal S200x32 .f32)

theorem pay13_apply (r : Fin 200) (a : Fin 32) :
    k0_pay13 (F := Ideal) x psiW psib (ix2 r a)
      = (∑ k : Fin 128, x (ix2 r k) * psiW (ix2 k a)) + psib (ix2 (0 : Fin 1) a) := by
  unfold k0_pay13
  rw [ValueIdx.addf_apply, matmul_rc_apply _ rfl, shapeCast_self, ValueIdx.broadcastTo_1b_ab_apply]

theorem pay14_apply (r : Fin 200) (a : Fin 32) :
    k0_pay14 (F := Ideal) z phiW (ix2 r a) = ∑ k : Fin 16, z (ix2 r k) * phiW (ix2 k a) :=
  matmul_rc_apply _ rfl z phiW r a

theorem pay15_apply (r : Fin 200) (a : Fin 32) :
    k0_pay15 (F := Ideal) Z0 phib (ix2 r a) = Z0 (ix2 r a) + phib (ix2 (0 : Fin 1) a) := by
  unfold k0_pay15
  rw [ValueIdx.addf_apply, shapeCast_self, ValueIdx.broadcastTo_1b_ab_apply]

/-- The projected x rows and the biased projected z rows, joined along the features. -/
def catI (r : Fin 200) (b : Fin 64) : EReal :=
  if h : b.val < 32 then X1 (ix2 r (⟨b.val, h⟩ : Fin 32))
  else Z0 (ix2 r (⟨b.val - 32, by have := b.isLt; omega⟩ : Fin 32)) + phib (ix2 (0 : Fin 1) (⟨b.val - 32, by have := b.isLt; omega⟩ : Fin 32))

theorem pay16_apply (r : Fin 200) (a : Fin 32) :
    k0_pay16 (F := Ideal) X1 Z0 phib g1W g1b g2W g2b (ix2 r a)
      = Ideal.logistic ((∑ k : Fin 64, max ((∑ k' : Fin 64, catI phib X1 Z0 r k' * g1W (ix2 k' k)) + g1b (ix2 (0 : Fin 1) k)) 0 * g2W (ix2 k a))
          + g2b (ix2 (0 : Fin 1) a)) := by
  unfold k0_pay16 catI
  simp only [shapeCast_self]
  refine congrArg Ideal.logistic ?_
  rw [ValueIdx.addf_apply, matmul_rc_apply _ rfl, ValueIdx.broadcastTo_1b_ab_apply]
  refine congrArg (· + g2b (ix2 (0 : Fin 1) a)) (Finset.sum_congr rfl fun k _ => congrArg (· * g2W (ix2 k a)) ?_)
  rw [ValueIdx.maximumf_apply, ValueIdx.addf_apply, matmul_rc_apply _ rfl, ValueIdx.broadcastTo_1b_ab_apply]
  refine congrArg₂ max (congrArg (· + g1b (ix2 (0 : Fin 1) k))
    (Finset.sum_congr rfl fun k' _ => congrArg (· * g1W (ix2 k' k)) ?_)) Ideal.ofBits_zero_f32
  rw [cat_apply]
  split
  · rfl
  · exact pay15_apply phib Z0 r _

end Cert.KernelIdeal.Hand

end
-- ==== Proof.PayStream.lean ====
import proofs.«134735_g40587440947829_cont_sun_m_1101_19_alg».proof.Proof.PayGate
import proofs.«134735_g40587440947829_cont_sun_m_1101_19_alg».proof.Proof.Basic

noncomputable section

namespace Cert.KernelIdeal.Hand

open Idealize.ShloMosaic Idealize.ShloMosaic.TcCoe Idealize.SL.Sem
open Cert.KernelIdeal Cert.KernelIdeal.Gen
open ValueIdx (ix2)

variable (Hq : Vec Ideal S200x2048 .f32) (W : Vec Ideal S2048x1 .bf16) (acc1 : Vec Ideal S1x2048 .f32)
  (phib : Vec Ideal S1x32 .f32)
  (g1W : Vec Ideal S64x64 .f32) (g1b : Vec Ideal S1x64 .f32) (g2W : Vec Ideal S64x32 .f32) (g2b : Vec Ideal S1x32 .f32)
  (c1W : Vec Ideal S32x64 .f32) (c1b : Vec Ideal S1x64 .f32)
  (X1 Z0 : Vec Ideal S200x32 .f32) (H16 : Vec Ideal S200x2048 .bf16) (S : Vec Ideal S200x1 .f32)
  (acc : Vec Ideal S64x2048 .f32) (v : Vec Ideal S64x2048 .f32)

/-- The 16-bit pattern 0x3F80 is one: exponent 127 at bias 127, significand 128 · 2⁻⁷. -/
theorem ofBits_one_bf16 : Ideal.ofBits .bf16 0x3F80#16 = 1 := by
  simp [Ideal.ofBits, Ideal.ieee]
  rw [← EReal.coe_mul]
  norm_num

theorem pay1_apply (y : S1x2048.Idx) : k0_pay1 (F := Ideal) y = 0 := by
  unfold k0_pay1
  simp only [shapeCast_self]
  exact Ideal.ofBits_zero_f32
theorem pay2_apply (y : S64x2048.Idx) : k0_pay2 (F := Ideal) y = 0 := by
  unfold k0_pay2
  simp only [shapeCast_self]
  exact Ideal.ofBits_zero_f32
theorem pay3_apply (y : S64x2048.Idx) : k0_pay3 (F := Ideal) y = 0 := by
  unfold k0_pay3
  simp only [shapeCast_self]
  exact Ideal.ofBits_zero_f32

theorem pay9_eq : k0_pay9 (F := Ideal) Hq = Hq := rfl
theorem pay10_eq : k0_pay10 (F := Ideal) Hq = Hq := by
  unfold k0_pay10
  simp only [shapeCast_self]
  rfl

theorem pay11_apply (r : Fin 200) :
    k0_pay11 (F := Ideal) Hq W (ix2 r (0 : Fin 1))
      = Ideal.rsqrt ((∑ j : Fin 2048, Hq (ix2 r j) * W (ix2 j (0 : Fin 1))) + Ideal.ofBits .f32 0x3089705F#32) := by
  unfold k0_pay11
  simp only [shapeCast_self]
  exact congrArg (fun t => Ideal.rsqrt (t + Ideal.ofBits .f32 0x3089705F#32)) (matmul_rc_apply (φ₂ := .bf16) _ rfl _ W r 0)

theorem pay12_apply (j : Fin 2048) :
    k0_pay12 (F := Ideal) Hq acc1 (ix2 (0 : Fin 1) j) = acc1 (ix2 (0 : Fin 1) j) + ∑ r : Fin 200, Hq (ix2 r j) := by
  unfold k0_pay12
  rw [shapeCast_self, ValueIdx.addf_apply, matmul_rc_apply _ rfl]
  refine congrArg (acc1 (ix2 (0 : Fin 1) j) + ·) (Finset.sum_congr rfl fun r _ => ?_)
  show Ideal.ofBits .bf16 0x3F80#16 * Hq (ix2 r j) = _
  rw [ofBits_one_bf16, one_mul]

theorem pay4_apply (y : S64x2048.Idx) : k0_pay4 (F := Ideal) acc v y = acc y + v y := by
  unfold k0_pay4
  simp only [shapeCast_self]
  rfl

/-- The tile's share of the first aggregation, transposed: a sum over the tile's rows. -/
theorem pay17_apply (d : Fin 64) (j : Fin 2048) :
    k0_pay17 (F := Ideal) H16 S X1 Z0 phib g1W g1b g2W g2b c1W c1b (ix2 d j)
      = ∑ r : Fin 200,
          (((∑ k : Fin 32,
                (k0_pay16 (F := Ideal) X1 Z0 phib g1W g1b g2W g2b (ix2 r k) * (Z0 (ix2 r k) + phib (ix2 (0 : Fin 1) k))
                  + (Ideal.ofBits .f32 0x3F800000#32 - k0_pay16 (F := Ideal) X1 Z0 phib g1W g1b g2W g2b (ix2 r k)) * X1 (ix2 r k)) * c1W (ix2 k d))
              + c1b (ix2 (0 : Fin 1) d)) * S (ix2 r (0 : Fin 1)))
            * H16 (ix2 r j) := by
  unfold k0_pay17
  refine (matmul_zero_apply (φ₂ := .bf16) (K := 200) _ rfl rfl _ H16 _ (fun r => ix2 r d) (fun r => ix2 r j)
    (fun _ a => match a with | ⟨0, _⟩ => rfl | ⟨1, _⟩ => rfl) (fun _ a => match a with | ⟨0, _⟩ => rfl | ⟨1, _⟩ => rfl)).trans ?_
  refine Finset.sum_congr rfl fun r _ => congrArg (· * H16 (ix2 r j)) ?_
  simp only [shapeCast_self]
  rw [ValueIdx.truncf_apply, ValueIdx.mulf_apply, ValueIdx.addf_apply, broadcastTo_a1_ab_apply,
    ValueIdx.broadcastTo_1b_ab_apply, matmul_rc_apply _ rfl]
  refine congrArg (fun t => (t + c1b (ix2 (0 : Fin 1) d)) * S (ix2 r (0 : Fin 1)))
    (Finset.sum_congr rfl fun k _ => congrArg (· * c1W (ix2 k d)) ?_)
  show _ * k0_pay15 (F := Ideal) Z0 phib (ix2 r k) + _ = _
  rw [pay15_apply]
  rfl

end Cert.KernelIdeal.Hand

end
-- ==== Proof.KStream.lean ====
import proofs.«134735_g40587440947829_cont_sun_m_1101_19_alg».proof.Proof.Step
import proofs.«134735_g40587440947829_cont_sun_m_1101_19_alg».proof.Proof.Spec
import proofs.«134735_g40587440947829_cont_sun_m_1101_19_alg».proof.Proof.PayGate
import proofs.«134735_g40587440947829_cont_sun_m_1101_19_alg».proof.Proof.PayStream
import proofs.«134735_g40587440947829_cont_sun_m_1101_19_alg».proof.Proof.Basic

noncomputable section

namespace Cert.KernelIdeal.Hand

open Idealize.ShloMosaic Idealize.ShloMosaic.TcCoe Idealize.SL.Sem
open Cert.KernelIdeal Cert.KernelIdeal.Gen
open ValueIdx (ix2)

variable (m : (ℓ : Loc nD τ sig) → Buf (Elt Ideal) ℓ) (c : Dev nD) (A : Cert.Spec.Args)

/-- The arrays the region finds are the specification's arguments, coordinate by coordinate. -/
structure StreamArgs : Prop where
  H : ∀ (i : Fin 10000) (j : Fin 2048), HA m c (ix2 i j) = A.H i j
  x : ∀ (i : Fin 10000) (k : Fin 128), xA m c (ix2 i k) = A.x i k
  z : ∀ (i : Fin 10000) (k : Fin 16), zA m c (ix2 i k) = A.z i k
  wcol : ∀ (j : Fin 2048), wcol m c (ix2 j (0 : Fin 1)) = A.w j
  psiW : ∀ (k : Fin 128) (a : Fin 32), psiW m c (ix2 k a) = A.psiW k a
  psib : ∀ (a : Fin 32), psib m c (ix2 (0 : Fin 1) a) = A.psib a
  phiW : ∀ (k : Fin 16) (a : Fin 32), phiW m c (ix2 k a) = A.phiW k a
  phib : ∀ (a : Fin 32), phib m c (ix2 (0 : Fin 1) a) = A.phib a
  g1W : ∀ (k b : Fin 64), g1W m c (ix2 k b) = A.g1W k b
  g1b : ∀ (b : Fin 64), g1b m c (ix2 (0 : Fin 1) b) = A.g1b b
  g2W : ∀ (k : Fin 64) (a : Fin 32), g2W m c (ix2 k a) = A.g2W k a
  g2b : ∀ (a : Fin 32), g2b m c (ix2 (0 : Fin 1) a) = A.g2b a
  c1W : ∀ (k : Fin 32) (d : Fin 64), c1W m c (ix2 k d) = A.c1W k d
  c1b : ∀ (d : Fin 64), c1b m c (ix2 (0 : Fin 1) d) = A.c1b d

variable (h : StreamArgs m c A)
include h

theorem Htile_apply (b : Fin 50) (r : Fin 200) (j : Fin 2048) : Htile m c b (ix2 r j) = A.H (node b r) j := h.H _ j
theorem xtile_apply (b : Fin 50) (r : Fin 200) (k : Fin 128) : xtile m c b (ix2 r k) = A.x (node b r) k := h.x _ k
theorem ztile_apply (b : Fin 50) (r : Fin 200) (k : Fin 16) : ztile m c b (ix2 r k) = A.z (node b r) k := h.z _ k

/-- A window of 2000 rows of the kept copy is H on those rows: row r of window k is row r mod 200 of tile 10·k + r div 200. -/
theorem hqTile_apply (k : Fin 5) (r : Fin 2000) (j : Fin 2048) : hqTile m c k (ix2 r j) = A.H (node k r) j := by
  refine ((congrFun (pay10_eq _) _).trans (h.H _ j)).trans (congrArg (A.H · j) (Fin.ext ?_))
  show 200 * (10 * k.val + r.val / 200) + r.val % 200 = 2000 * k.val + r.val
  omega

theorem x1Tile_apply (b : Fin 50) (r : Fin 200) (a : Fin 32) : x1Tile m c b (ix2 r a) = Cert.Spec.x1 A (node b r) a := by
  unfold x1Tile Cert.Spec.x1
  simp only [pay13_apply, h.psib, xtile_apply m c A h, h.psiW]

theorem z1Tile_apply (b : Fin 50) (r : Fin 200) (a : Fin 32) :
    z0Tile m c b (ix2 r a) + phib m c (ix2 (0 : Fin 1) a) = Cert.Spec.z1 A (node b r) a := by
  unfold z0Tile Cert.Spec.z1
  simp only [pay14_apply, h.phib, ztile_apply m c A h, h.phiW]

theorem gTile_spec (b : Fin 50) (r : Fin 200) (a : Fin 32) : gTile m c b (ix2 r a) = Cert.Spec.g A (node b r) a := by
  have hcat : ∀ k, catI (phib m c) (x1Tile m c b) (z0Tile m c b) r k = Cert.Spec.cat A (node b r) k := fun k => by
    unfold catI Cert.Spec.cat
    split
    · exact x1Tile_apply m c A h b r _
    · exact z1Tile_apply m c A h b r _
  unfold gTile Cert.Spec.g Cert.Spec.gh
  simp only [pay16_apply, h.g2b, h.g2W, h.g1b, h.g1W, hcat]

/-- Tile b's share of the first aggregation: the gather's summand over the tile's rows. -/
theorem agg1Tile_spec (b : Fin 50) (d : Fin 64) (j : Fin 2048) :
    agg1Tile m c b (ix2 d j)
      = ∑ r : Fin 200, A.H (node b r) j * (Cert.Spec.lin (Cert.Spec.fused A) A.c1W A.c1b (node b r) d * Cert.Spec.s A (node b r)) := by
  have hg := gTile_spec m c A h b
  unfold gTile at hg
  unfold agg1Tile Cert.Spec.lin Cert.Spec.fused Cert.Spec.one Cert.Spec.s Cert.Spec.dv Cert.Spec.eps
  simp only [pay17_apply, pay11_apply, pay9_eq, hg, z1Tile_apply m c A h, x1Tile_apply m c A h, Htile_apply m c A h,
    h.wcol, h.c1W, h.c1b, mul_comm (A.H _ j)]

/-- When the streaming phase ends the degree accumulator holds the hyperedge degrees. -/
theorem deEnd_spec (j : Fin 2048) : deEnd m c (ix2 (0 : Fin 1) j) = Cert.Spec.de A j :=
  (acc_eq_sum (fun n hn => deAt m c n hn (ix2 (0 : Fin 1) j)) (fun n hn => ∑ r : Fin 200, A.H (node ⟨n, hn⟩ r) j)
    (fun hn => by simp only [deAt, pay12_apply, pay1_apply, zero_add, Htile_apply m c A h])
    (fun n hn => by simp only [deAt, pay12_apply, Htile_apply m c A h]) 49 (by decide)).trans
  (sum_blocks (nb := 50) (sz := 200) fun i => A.H i j)

/-- … and the first accumulator the first convolution's gather, transposed. -/
theorem agg1End_spec (d : Fin 64) (j : Fin 2048) :
    agg1End m c (ix2 d j) = Cert.Spec.gather A (Cert.Spec.lin (Cert.Spec.fused A) A.c1W A.c1b) j d :=
  (acc_eq_sum (fun n hn => agg1At m c n hn (ix2 d j)) (fun n hn => agg1Tile m c ⟨n, hn⟩ (ix2 d j))
    (fun hn => by simp only [agg1At, pay4_apply, pay2_apply, zero_add])
    (fun n hn => by simp only [agg1At, pay4_apply]) 49 (by decide)).trans
  ((Finset.sum_congr rfl fun b _ => agg1Tile_spec m c A h b d j).trans
    (sum_blocks (nb := 50) (sz := 200) fun i => A.H i j * (Cert.Spec.lin (Cert.Spec.fused A) A.c1W A.c1b i d * Cert.Spec.s A i)))

end Cert.KernelIdeal.Hand

end
-- ==== Proof.PayScatter.lean ====
import proofs.«134735_g40587440947829_cont_sun_m_1101_19_alg».proof.Proof.Gen.KernelIdeal.Skeleton
import proofs.«134735_g40587440947829_cont_sun_m_1101_19_alg».proof.Proof.Basic

noncomputable section

namespace Cert.KernelIdeal.Hand

open Idealize.ShloMosaic Idealize.ShloMosaic.TcCoe Idealize.SL.Sem
open Cert.KernelIdeal Cert.KernelIdeal.Gen
open ValueIdx (ix2)

variable (wrow de : Vec Ideal S1x2048 .f32) (a1 : Vec Ideal S64x2048 .f32)
  (T : Vec Ideal S2000x2048 .bf16) (W : Vec Ideal S2048x1 .bf16) (M : Vec Ideal S2048x64 .bf16)
  (C : Vec Ideal S64x64 .f32) (B : Vec Ideal S1x64 .f32) (acc : Vec Ideal S64x2048 .f32)
  (hdW : Vec Ideal S64x2 .f32) (hdb : Vec Ideal S1x2 .f32)

/-- An aggregation scaled per hyperedge by weight over stabilised degree, and transposed. -/
theorem pay5_apply (j : Fin 2048) (d : Fin 64) :
    k0_pay5 (F := Ideal) wrow de a1 (ix2 j d)
      = a1 (ix2 d j) * Ideal.div (wrow (ix2 (0 : Fin 1) j)) (de (ix2 (0 : Fin 1) j) + Ideal.ofBits .f32 0x3089705F#32) := by
  unfold k0_pay5
  rw [shapeCast_self, ValueIdx.transpose_ix2_apply, ValueIdx.truncf_apply, ValueIdx.mulf_apply,
    ValueIdx.broadcastTo_1b_ab_apply, ValueIdx.divf_apply, shapeCast_self]
  rfl
theorem pay7_apply (j : Fin 2048) (d : Fin 64) :
    k0_pay7 (F := Ideal) wrow de a1 (ix2 j d)
      = a1 (ix2 d j) * Ideal.div (wrow (ix2 (0 : Fin 1) j)) (de (ix2 (0 : Fin 1) j) + Ideal.ofBits .f32 0x3089705F#32) :=
  pay5_apply wrow de a1 j d

/-- A row's inverse root degree, recomputed from the kept copy. -/
def rsI (r : Fin 2000) : EReal := Ideal.rsqrt ((∑ j : Fin 2048, T (ix2 r j) * W (ix2 j (0 : Fin 1))) + Ideal.ofBits .f32 0x3089705F#32)
/-- A row of a layer's output: the normalised aggregation scattered back, scaled, rectified. -/
def hI (r : Fin 2000) (k : Fin 64) : EReal := max ((∑ j : Fin 2048, T (ix2 r j) * M (ix2 j k)) * rsI T W r) 0

section Body
variable (Tf : FVec Ideal S2000x2048 .bf16) (Wf : FVec Ideal S2048x1 .bf16) (Mf : FVec Ideal S2048x64 .bf16)

/-- The column of inverse root degrees and the layer's output rows, as the two scatter bodies form them. -/
abbrev rsV : FVec Ideal S2000x1 .f32 :=
  rsqrt (addf (matmul (F := Ideal) dot_S2000x2048_S2048x1_S2000x1_1_0_0_1_n_n none Tf
      (shapeCast S2048x1 Wf shapeCasts_S2048x1_S2048x1) (constant (F := Ideal) S2000x1 .f32 0x00000000#32))
    (broadcast S2000x1 (Scalar.ofBits .f32 0x3089705F#32)))
abbrev hV : FVec Ideal S2000x64 .f32 :=
  maximumf (mulf (matmul (F := Ideal) dot_S2000x2048_S2048x64_S2000x64_1_0_0_1_n_n none Tf Mf
        (constant (F := Ideal) S2000x64 .f32 0x00000000#32))
      (broadcastTo S2000x64 (rsV Tf Wf) broadcasts_S2000x1_S2000x64))
    (broadcast S2000x64 (Scalar.ofBits .f32 0x00000000#32))

theorem rsV_apply (r : Fin 2000) : rsV Tf Wf (ix2 r (0 : Fin 1)) = rsI Tf Wf r := by
  unfold rsV
  simp only [shapeCast_self]
  exact congrArg (fun t => Ideal.rsqrt (t + Ideal.ofBits .f32 0x3089705F#32)) (matmul_rc_apply _ rfl Tf Wf r 0)

theorem hV_apply (r : Fin 2000) (k : Fin 64) : hV Tf Wf Mf (ix2 r k) = hI Tf Wf Mf r k := by
  unfold hV
  rw [ValueIdx.maximumf_apply, ValueIdx.mulf_apply, broadcastTo_a1_ab_apply, rsV_apply, matmul_rc_apply _ rfl]
  exact congrArg (max ((∑ j : Fin 2048, Tf (ix2 r j) * Mf (ix2 j k)) * rsI Tf Wf r)) Ideal.ofBits_zero_f32
end Body

/-- A window's share of the next aggregation (transposed), added to the accumulator. -/
theorem pay6_apply (d : Fin 64) (j : Fin 2048) :
    k0_pay6 (F := Ideal) T W M C B acc (ix2 d j)
      = acc (ix2 d j) + ∑ r : Fin 2000,
          (((∑ k : Fin 64, hI T W M r k * C (ix2 k d)) + B (ix2 (0 : Fin 1) d)) * rsI T W r) * T (ix2 r j) := by
  unfold k0_pay6
  rw [shapeCast_self, ValueIdx.addf_apply]
  refine congrArg (acc (ix2 d j) + ·) ((matmul_zero_apply (φ₂ := .bf16) (K := 2000) _ rfl rfl _ T _ (fun r => ix2 r d) (fun r => ix2 r j)
    (fun _ a => match a with | ⟨0, _⟩ => rfl | ⟨1, _⟩ => rfl) (fun _ a => match a with | ⟨0, _⟩ => rfl | ⟨1, _⟩ => rfl)).trans ?_)
  refine Finset.sum_congr rfl fun r _ => congrArg (· * T (ix2 r j)) ?_
  rw [ValueIdx.truncf_apply, ValueIdx.mulf_apply, ValueIdx.addf_apply, broadcastTo_a1_ab_apply,
    ValueIdx.broadcastTo_1b_ab_apply, shapeCast_self B]
  exact congrArg₂ (fun s t => (s + B (ix2 (0 : Fin 1) d)) * t)
    ((matmul_rc_apply (φ₂ := .f32) _ rfl (hV T W M) C r d).trans
      (Finset.sum_congr rfl fun k _ => congrArg (· * C (ix2 k d)) (hV_apply T W M r k)))
    (rsV_apply T W r)

theorem pay8_apply (r : Fin 2000) (o : Fin 2) :
    k0_pay8 (F := Ideal) T W M hdW hdb (ix2 r o)
      = (∑ k : Fin 64, hI T W M r k * hdW (ix2 k o)) + hdb (ix2 (0 : Fin 1) o) := by
  unfold k0_pay8
  rw [ValueIdx.addf_apply, ValueIdx.broadcastTo_1b_ab_apply, shapeCast_self hdb]
  exact congrArg (· + hdb (ix2 (0 : Fin 1) o)) ((matmul_rc_apply (φ₂ := .f32) _ rfl (hV T W M) hdW r o).trans
    (Finset.sum_congr rfl fun k _ => congrArg (· * hdW (ix2 k o)) (hV_apply T W M r k)))

end Cert.KernelIdeal.Hand

end
-- ==== Proof.KScatter.lean ====
import proofs.«134735_g40587440947829_cont_sun_m_1101_19_alg».proof.Proof.Step
import proofs.«134735_g40587440947829_cont_sun_m_1101_19_alg».proof.Proof.Spec
import proofs.«134735_g40587440947829_cont_sun_m_1101_19_alg».proof.Proof.PayStream
import proofs.«134735_g40587440947829_cont_sun_m_1101_19_alg».proof.Proof.PayScatter
import proofs.«134735_g40587440947829_cont_sun_m_1101_19_alg».proof.Proof.Basic

noncomputable section

namespace Cert.KernelIdeal.Hand

open Idealize.ShloMosaic Idealize.ShloMosaic.TcCoe Idealize.SL.Sem
open Cert.KernelIdeal Cert.KernelIdeal.Gen
open ValueIdx (ix2)

variable (m : (ℓ : Loc nD τ sig) → Buf (Elt Ideal) ℓ) (c : Dev nD) (A : Cert.Spec.Args)

/-- The arrays the region finds are the specification's arguments, and the streaming phase left its three results. -/
structure ScatterArgs : Prop where
  wcol : ∀ (j : Fin 2048), wcol m c (ix2 j (0 : Fin 1)) = A.w j
  wrow : ∀ (j : Fin 2048), wrow m c (ix2 (0 : Fin 1) j) = A.w j
  c2W : ∀ (k d : Fin 64), c2W m c (ix2 k d) = A.c2W k d
  c2b : ∀ (d : Fin 64), c2b m c (ix2 (0 : Fin 1) d) = A.c2b d
  hdW : ∀ (k : Fin 64) (o : Fin 2), hdW m c (ix2 k o) = A.hdW k o
  hdb : ∀ (o : Fin 2), hdb m c (ix2 (0 : Fin 1) o) = A.hdb o
  hq : ∀ (k : Fin 5) (r : Fin 2000) (j : Fin 2048),
    hqTile m c k (ix2 r j) = A.H (⟨2000 * k.val + r.val, by have := k.isLt; have := r.isLt; omega⟩ : Fin 10000) j
  de : ∀ (j : Fin 2048), deEnd m c (ix2 (0 : Fin 1) j) = Cert.Spec.de A j
  agg1 : ∀ (d : Fin 64) (j : Fin 2048),
    agg1End m c (ix2 d j) = Cert.Spec.gather A (Cert.Spec.lin (Cert.Spec.fused A) A.c1W A.c1b) j d

variable (h : ScatterArgs m c A)
include h

theorem mn1_spec (j : Fin 2048) (d : Fin 64) :
    mn1 m c (ix2 j d) = Cert.Spec.gather A (Cert.Spec.lin (Cert.Spec.fused A) A.c1W A.c1b) j d * Cert.Spec.se A j := by
  unfold mn1
  rw [pay5_apply, h.agg1, h.wrow, h.de]
  rfl

theorem rsI_spec (k : Fin 5) (r : Fin 2000) : rsI (hqTile m c k) (wcol m c) r = Cert.Spec.s A (node k r) := by
  unfold rsI Cert.Spec.s Cert.Spec.dv Cert.Spec.eps
  simp only [h.hq, h.wcol]

/-- A window's rows scattered back from a normalised aggregation: the layer's convolution at those nodes, rectified. -/
theorem hI_spec {K : ℕ} (M : Vec Ideal S2048x64 .bf16) (f : Fin 10000 → Fin K → EReal) (W : Fin K → Fin 64 → EReal) (b : Fin 64 → EReal)
    (hM : ∀ j d, M (ix2 j d) = Cert.Spec.gather A (Cert.Spec.lin f W b) j d * Cert.Spec.se A j) (k : Fin 5) (r : Fin 2000) (d : Fin 64) :
    hI (hqTile m c k) (wcol m c) M r d = max (Cert.Spec.conv A f W b (node k r) d) 0 := by
  unfold hI
  rw [rsI_spec m c A h]
  simp only [h.hq, hM]
  rfl

/-- When the first scatter phase ends the second accumulator holds the second convolution's gather, transposed. -/
theorem agg2End_spec (d : Fin 64) (j : Fin 2048) :
    agg2End m c (ix2 d j) = Cert.Spec.gather A (Cert.Spec.lin (Cert.Spec.h1 A) A.c2W A.c2b) j d :=
  have step (k : Fin 5) (acc : Vec Ideal S64x2048 .f32) :
      k0_pay6 (hqTile m c k) (wcol m c) (mn1 m c) (c2W m c) (c2b m c) acc (ix2 d j)
        = acc (ix2 d j) + ∑ r : Fin 2000, A.H (node k r) j
            * (Cert.Spec.lin (Cert.Spec.h1 A) A.c2W A.c2b (node k r) d * Cert.Spec.s A (node k r)) := by
    rw [pay6_apply]
    unfold Cert.Spec.lin Cert.Spec.h1
    simp only [rsI_spec m c A h, hI_spec m c A h _ _ _ _ (mn1_spec m c A h), h.hq, h.c2b, h.c2W, mul_comm (A.H _ j)]
  (acc_eq_sum (fun n hn => agg2At m c n hn (ix2 d j)) (fun n hn => ∑ r : Fin 2000, A.H (node ⟨n, hn⟩ r) j
      * (Cert.Spec.lin (Cert.Spec.h1 A) A.c2W A.c2b (node ⟨n, hn⟩ r) d * Cert.Spec.s A (node ⟨n, hn⟩ r)))
    (fun hn => by simp only [agg2At, step, pay3_apply, zero_add]) (fun n hn => by simp only [agg2At, step]) 4 (by decide)).trans
  (sum_blocks (nb := 5) (sz := 2000) fun i => A.H i j * (Cert.Spec.lin (Cert.Spec.h1 A) A.c2W A.c2b i d * Cert.Spec.s A i))

theorem mn2_spec (j : Fin 2048) (d : Fin 64) :
    mn2 m c (ix2 j d) = Cert.Spec.gather A (Cert.Spec.lin (Cert.Spec.h1 A) A.c2W A.c2b) j d * Cert.Spec.se A j := by
  unfold mn2
  rw [pay7_apply, agg2End_spec m c A h, h.wrow, h.de]
  rfl

/-- The head's rows of window k are the specification's logits at those nodes. -/
theorem loTile_spec (k : Fin 5) (r : Fin 2000) (o : Fin 2) : loTile m c k (ix2 r o) = Cert.Spec.logits A (node k r) o := by
  unfold loTile Cert.Spec.logits Cert.Spec.h2
  simp only [pay8_apply, hI_spec m c A h _ _ _ _ (mn2_spec m c A h), h.hdb, h.hdW]

end Cert.KernelIdeal.Hand

end
-- ==== Proof.KValue.lean ====
import proofs.«134735_g40587440947829_cont_sun_m_1101_19_alg».proof.Proof.Body
import proofs.«134735_g40587440947829_cont_sun_m_1101_19_alg».proof.Proof.KFinal
import proofs.«134735_g40587440947829_cont_sun_m_1101_19_alg».proof.Proof.KArgs
import proofs.«134735_g40587440947829_cont_sun_m_1101_19_alg».proof.Proof.KStream
import proofs.«134735_g40587440947829_cont_sun_m_1101_19_alg».proof.Proof.KScatter

noncomputable section

namespace Cert.KernelIdeal.Hand

open Idealize.ShloMosaic Idealize.ShloMosaic.TcCoe Idealize.SL.Sem
open Cert.KernelIdeal Cert.KernelIdeal.Gen
open ValueIdx (ix2)

variable (m : (ℓ : Loc nD τ sig) → Buf (Elt Ideal) ℓ) (ρ : Dev nD → PrngReg) (c : Dev nD)

theorem streamArgs : StreamArgs m c (kArgs m c) :=
  ⟨HA_apply m c, xA_apply m c, zA_apply m c, wcol_apply m c, psiW_apply m c, psib_apply m c, phiW_apply m c, phib_apply m c,
    g1W_apply m c, g1b_apply m c, g2W_apply m c, g2b_apply m c, c1W_apply m c, c1b_apply m c⟩

theorem scatterArgs : ScatterArgs m c (kArgs m c) :=
  ⟨wcol_apply m c, wrow_apply m c, c2W_apply m c, c2b_apply m c, hdW_apply m c, hdb_apply m c,
    fun k r j => hqTile_apply m c (kArgs m c) (streamArgs m c) k r j,
    fun j => deEnd_spec m c (kArgs m c) (streamArgs m c) j,
    fun d j => agg1End_spec m c (kArgs m c) (streamArgs m c) d j⟩

/-- The two output arrays are the specification's gate and logits of the kernel's arguments. -/
theorem gArr_spec : gArr m c = fun y => Cert.Spec.g (kArgs m c) ⟨(y 0).val, (y 0).isLt⟩ ⟨(y 1).val, (y 1).isLt⟩ := by
  funext y
  unfold gArr
  rw [gTile_spec m c (kArgs m c) (streamArgs m c)]
  congr 1
  apply Fin.ext
  show 200 * ((y 0).val / 200) + (y 0).val % 200 = (y 0).val
  exact Nat.div_add_mod _ _

theorem loArr_spec : loArr m c = fun y => Cert.Spec.logits (kArgs m c) ⟨(y 0).val, (y 0).isLt⟩ ⟨(y 1).val, (y 1).isLt⟩ := by
  funext y
  unfold loArr
  rw [loTile_spec m c (kArgs m c) (scatterArgs m c)]
  congr 1
  apply Fin.ext
  show 2000 * ((y 0).val / 2000) + (y 0).val % 2000 = (y 0).val
  exact Nat.div_add_mod _ _

/-- The idealized kernel's run ends with the specification's logits and gate, its arguments unchanged. -/
theorem value_run :
    θ_run defs (onTc (τ := τ) (main (F := Ideal))) ⟨m, fun _ => 0, ρ⟩ (fun r => ∀ c : Dev nD,
      r.2.mem ((c.tc : Thread nD τ).loc main_v10_1) = (fun y => Cert.Spec.logits (kArgs m c) ⟨(y 0).val, (y 0).isLt⟩ ⟨(y 1).val, (y 1).isLt⟩)
      ∧ r.2.mem ((c.tc : Thread nD τ).loc main_v10_0) = (fun y => Cert.Spec.g (kArgs m c) ⟨(y 0).val, (y 0).isLt⟩ ⟨(y 1).val, (y 1).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 20).trans ((final_lo m c).trans (loArr_spec m c)),
      ((h c).1 19).trans ((final_g m c).trans (gArr_spec m c)),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).1 13).trans (((dats m 0 c).arrAt_in 13 rfl _).trans ((A_eq m c 13).trans (V_main_arg12 m c))),
      ((h c).2 main_arg13 (Pipeline.mem_restRefs_of main_arg13 (by decide) (by decide))).trans (V_main_arg13 m c),
      ((h c).1 15).trans (((dats m 0 c).arrAt_in 15 rfl _).trans ((A_eq m c 15).trans (V_main_arg14 m c))),
      ((h c).2 main_arg15 (Pipeline.mem_restRefs_of main_arg15 (by decide) (by decide))).trans (V_main_arg15 m c),
      ((h c).1 17).trans (((dats m 0 c).arrAt_in 17 rfl _).trans ((A_eq m c 17).trans (V_main_arg16 m c))),
      ((h c).2 main_arg17 (Pipeline.mem_restRefs_of main_arg17 (by decide) (by decide))).trans (V_main_arg17 m c)⟩)
    (run_main m ρ)

end Cert.KernelIdeal.Hand

end
-- ==== Proof.RefRead.lean ====
import proofs.«134735_g40587440947829_cont_sun_m_1101_19_alg».proof.Proof.Gen.ReferenceIdeal.Run
import proofs.«134735_g40587440947829_cont_sun_m_1101_19_alg».proof.Proof.Gen.ReferenceIdeal.Read
-- ==== Proof.RefGate.lean ====
import proofs.«134735_g40587440947829_cont_sun_m_1101_19_alg».proof.Proof.RefRead
import proofs.«134735_g40587440947829_cont_sun_m_1101_19_alg».proof.Proof.Spec

noncomputable section

namespace Cert.ReferenceIdeal.RefValue

open Cert.ReferenceIdeal Cert.ReferenceIdeal.Gen Cert.ReferenceIdeal.Read Idealize.ShloMosaic
open ValueIdx (ix1 ix2 eq_ix1 eq_ix2)

set_option quotPrecheck false in
local notation "𝔸" S:max => (⟨S, .f32⟩ : BufTy).Contents (Elt Ideal)

/-- The specification's arguments, read off the reference's eighteen argument arrays. -/
def refArgs (x0 : 𝔸 S10000x128) (x1 : 𝔸 S10000x16) (x2 : 𝔸 S10000x2048) (x3 : 𝔸 S2048)
    (x4 : 𝔸 S128x32) (x5 : 𝔸 S32) (x6 : 𝔸 S16x32) (x7 : 𝔸 S32) (x8 : 𝔸 S64x64) (x9 : 𝔸 S64)
    (x10 : 𝔸 S64x32) (x11 : 𝔸 S32) (x12 : 𝔸 S32x64) (x13 : 𝔸 S64) (x14 : 𝔸 S64x64) (x15 : 𝔸 S64)
    (x16 : 𝔸 S64x2) (x17 : 𝔸 S2) : Cert.Spec.Args :=
  Cert.Spec.Args.ofArrays x0 x1 x2 x3 x4 x5 x6 x7 x8 x9 x10 x11 x12 x13 x14 x15 x16 x17

variable (x0 : 𝔸 S10000x128) (x1 : 𝔸 S10000x16) (x2 : 𝔸 S10000x2048) (x3 : 𝔸 S2048)
    (x4 : 𝔸 S128x32) (x5 : 𝔸 S32) (x6 : 𝔸 S16x32) (x7 : 𝔸 S32) (x8 : 𝔸 S64x64) (x9 : 𝔸 S64)
    (x10 : 𝔸 S64x32) (x11 : 𝔸 S32) (x12 : 𝔸 S32x64) (x13 : 𝔸 S64) (x14 : 𝔸 S64x64) (x15 : 𝔸 S64)
    (x16 : 𝔸 S64x2) (x17 : 𝔸 S2)

theorem ofBits_one_f32 : Ideal.ofBits .f32 0x3F800000#32 = 1 := by
  simp [Ideal.ofBits, Ideal.ieee, -EReal.coe_mul]; norm_num

/-- The gated fusion stage by stage; the reference spells the sigmoid as 1 / (1 + exp(−·)). -/
theorem ref_gate (i : Fin 10000) (a : Fin 32) :
    val_main_v23 (F := Ideal) x0 x1 x4 x5 x6 x7 x8 x9 x10 x11 (ix2 i a) = Cert.Spec.g (refArgs x0 x1 x2 x3 x4 x5 x6 x7 x8 x9 x10 x11 x12 x13 x14 x15 x16 x17) i a
    ∧ val_main_v28 (F := Ideal) x0 x1 x4 x5 x6 x7 x8 x9 x10 x11 (ix2 i a) = Cert.Spec.fused (refArgs x0 x1 x2 x3 x4 x5 x6 x7 x8 x9 x10 x11 x12 x13 x14 x15 x16 x17) i a := by
  have hx1 : ∀ a, val_main_v3 (F := Ideal) x0 x4 x5 (ix2 i a) = Cert.Spec.x1 (refArgs x0 x1 x2 x3 x4 x5 x6 x7 x8 x9 x10 x11 x12 x13 x14 x15 x16 x17) i a := fun a => by
    have el : ∀ k, lidx_main_v0 (ix2 i a) k = ix2 i k := fun _ => eq_ix2 _
    have er : ∀ k, ridx_main_v0 (ix2 i a) k = ix2 k a := fun _ => eq_ix2 _
    have eb : idx_main_v1 (idx_main_v2 (ix2 i a)) = ix1 a := eq_ix1 _
    rw [val_main_v3_apply, val_main_v0_apply, val_main_v2_apply, val_main_v1_apply]
    simp only [Ideal.addf_def, el, er, eb]
    rfl
  have hz1 : ∀ a, val_main_v7 (F := Ideal) x1 x6 x7 (ix2 i a) = Cert.Spec.z1 (refArgs x0 x1 x2 x3 x4 x5 x6 x7 x8 x9 x10 x11 x12 x13 x14 x15 x16 x17) i a := fun a => by
    have el : ∀ k, lidx_main_v4 (ix2 i a) k = ix2 i k := fun _ => eq_ix2 _
    have er : ∀ k, ridx_main_v4 (ix2 i a) k = ix2 k a := fun _ => eq_ix2 _
    have eb : idx_main_v5 (idx_main_v6 (ix2 i a)) = ix1 a := eq_ix1 _
    rw [val_main_v7_apply, val_main_v4_apply, val_main_v6_apply, val_main_v5_apply]
    simp only [Ideal.addf_def, el, er, eb]
    rfl
  have hcat : ∀ b, val_main_v8 (F := Ideal) x0 x1 x4 x5 x6 x7 (ix2 i b) = Cert.Spec.cat (refArgs x0 x1 x2 x3 x4 x5 x6 x7 x8 x9 x10 x11 x12 x13 x14 x15 x16 x17) i b := fun b => by
    unfold val_main_v8 Cert.Spec.cat
    split
    · rw [← hx1]
      exact concatenate_pair_apply_left (s₁ := S10000x32) (s₂ := S10000x32) (1 : Fin S10000x64.rank) _ _ _ (ix2 i b) rfl _
        fun d => match d with | ⟨0, _⟩ => rfl | ⟨1, _⟩ => rfl
    · rw [← hz1]
      exact concatenate_pair_apply_right (s₁ := S10000x32) (s₂ := S10000x32) (1 : Fin S10000x64.rank) _ _ _ (ix2 i b) rfl rfl _
        (fun d => match d with | ⟨0, _⟩ => fun _ => rfl | ⟨1, _⟩ => fun hne => absurd rfl hne)
        (by show b.val - 32 + 32 = b.val; omega)
  have hgh : ∀ b, val_main_v13 (F := Ideal) x0 x1 x4 x5 x6 x7 x8 x9 (ix2 i b) = Cert.Spec.gh (refArgs x0 x1 x2 x3 x4 x5 x6 x7 x8 x9 x10 x11 x12 x13 x14 x15 x16 x17) i b := fun b => by
    have el : ∀ k, lidx_main_v9 (ix2 i b) k = ix2 i k := fun _ => eq_ix2 _
    have er : ∀ k, ridx_main_v9 (ix2 i b) k = ix2 k b := fun _ => eq_ix2 _
    have eb : idx_main_v10 (idx_main_v11 (ix2 i b)) = ix1 b := eq_ix1 _
    rw [val_main_v13_apply, val_main_v12_apply, val_main_v9_apply, val_main_v11_apply, val_main_v10_apply,
      val_main_call0_v0_apply, val_main_call0_cst_apply]
    simp only [Ideal.maximumf_def, Ideal.addf_def, Ideal.ofBits_def, Ideal.ofBits_zero_f32, el, er, eb, hcat]
    rfl
  have hg : val_main_v23 (F := Ideal) x0 x1 x4 x5 x6 x7 x8 x9 x10 x11 (ix2 i a) = Cert.Spec.g (refArgs x0 x1 x2 x3 x4 x5 x6 x7 x8 x9 x10 x11 x12 x13 x14 x15 x16 x17) i a := by
    have el : ∀ k, lidx_main_v14 (ix2 i a) k = ix2 i k := fun _ => eq_ix2 _
    have er : ∀ k, ridx_main_v14 (ix2 i a) k = ix2 k a := fun _ => eq_ix2 _
    have eb : idx_main_v15 (idx_main_v16 (ix2 i a)) = ix1 a := eq_ix1 _
    rw [val_main_v23_apply, val_main_v22_apply, val_main_cst_0_apply, val_main_v21_apply, val_main_v20_apply,
      val_main_cst_apply, val_main_v19_apply, val_main_v18_apply, val_main_v17_apply, val_main_v14_apply,
      val_main_v16_apply, val_main_v15_apply]
    simp only [Ideal.hostDivf_def, Ideal.addf_def, Ideal.hostUnary_exp_def, Ideal.hostNegf_def, Ideal.negf_def,
      Ideal.ofBits_def, ofBits_one_f32, el, er, eb, hgh]
    rfl
  refine ⟨hg, ?_⟩
  rw [val_main_v28_apply, val_main_v24_apply, val_main_v27_apply, val_main_v26_apply, val_main_v25_apply,
    val_main_cst_1_apply, hg, hx1, hz1]
  simp only [Ideal.addf_def, Ideal.mulf_def, Ideal.subf_def, Ideal.ofBits_def]
  rfl

/-- The reference's second result, the gate, is the specification's gate. -/
theorem ref_g :
    val_main_v23 (F := Ideal) x0 x1 x4 x5 x6 x7 x8 x9 x10 x11
      = fun y => Cert.Spec.g (refArgs x0 x1 x2 x3 x4 x5 x6 x7 x8 x9 x10 x11 x12 x13 x14 x15 x16 x17) ⟨(y 0).val, (y 0).isLt⟩ ⟨(y 1).val, (y 1).isLt⟩ :=
  funext fun y => (congrArg _ (eq_ix2 y)).trans (ref_gate x0 x1 x2 x3 x4 x5 x6 x7 x8 x9 x10 x11 x12 x13 x14 x15 x16 x17 (y 0) (y 1)).1

/-- The fused features the first hypergraph convolution reads are the specification's. -/
theorem ref_fused (i : Fin 10000) (a : Fin 32) :
    val_main_v28 (F := Ideal) x0 x1 x4 x5 x6 x7 x8 x9 x10 x11 (ix2 i a) = Cert.Spec.fused (refArgs x0 x1 x2 x3 x4 x5 x6 x7 x8 x9 x10 x11 x12 x13 x14 x15 x16 x17) i a :=
  (ref_gate x0 x1 x2 x3 x4 x5 x6 x7 x8 x9 x10 x11 x12 x13 x14 x15 x16 x17 i a).2

end Cert.ReferenceIdeal.RefValue

end
-- ==== Proof.RefConv.lean ====
import proofs.«134735_g40587440947829_cont_sun_m_1101_19_alg».proof.Proof.RefRead
import proofs.«134735_g40587440947829_cont_sun_m_1101_19_alg».proof.Proof.Spec

noncomputable section

namespace Cert.ReferenceIdeal.RefValue

open Cert.ReferenceIdeal Cert.ReferenceIdeal.Gen Cert.ReferenceIdeal.Read Idealize.ShloMosaic
open ValueIdx (ix1 ix2 eq_ix1 eq_ix2)

variable (x0 : (⟨S10000x128, .f32⟩ : BufTy).Contents (Elt Ideal))
  (x1 : (⟨S10000x16, .f32⟩ : BufTy).Contents (Elt Ideal))
  (x2 : (⟨S10000x2048, .f32⟩ : BufTy).Contents (Elt Ideal))
  (x3 : (⟨S2048, .f32⟩ : BufTy).Contents (Elt Ideal))
  (x4 : (⟨S128x32, .f32⟩ : BufTy).Contents (Elt Ideal))
  (x5 : (⟨S32, .f32⟩ : BufTy).Contents (Elt Ideal))
  (x6 : (⟨S16x32, .f32⟩ : BufTy).Contents (Elt Ideal))
  (x7 : (⟨S32, .f32⟩ : BufTy).Contents (Elt Ideal))
  (x8 : (⟨S64x64, .f32⟩ : BufTy).Contents (Elt Ideal))
  (x9 : (⟨S64, .f32⟩ : BufTy).Contents (Elt Ideal))
  (x10 : (⟨S64x32, .f32⟩ : BufTy).Contents (Elt Ideal))
  (x11 : (⟨S32, .f32⟩ : BufTy).Contents (Elt Ideal))
  (x12 : (⟨S32x64, .f32⟩ : BufTy).Contents (Elt Ideal))
  (x13 : (⟨S64, .f32⟩ : BufTy).Contents (Elt Ideal))
  (x14 : (⟨S64x64, .f32⟩ : BufTy).Contents (Elt Ideal))
  (x15 : (⟨S64, .f32⟩ : BufTy).Contents (Elt Ideal))
  (x16 : (⟨S64x2, .f32⟩ : BufTy).Contents (Elt Ideal))
  (x17 : (⟨S2, .f32⟩ : BufTy).Contents (Elt Ideal))

local notation "𝔸" => Cert.Spec.Args.ofArrays x0 x1 x2 x3 x4 x5 x6 x7 x8 x9 x10 x11 x12 x13 x14 x15 x16 x17

/-- From the fused features on: the degrees and scales, two rectified convolution layers stage by stage, the head. -/
theorem ref_logits (hfused : ∀ (i : Fin 10000) (a : Fin 32),
      val_main_v28 (F := Ideal) x0 x1 x4 x5 x6 x7 x8 x9 x10 x11 (ix2 i a)
        = Cert.Spec.fused (Cert.Spec.Args.ofArrays x0 x1 x2 x3 x4 x5 x6 x7 x8 x9 x10 x11 x12 x13 x14 x15 x16 x17) i a) :
    val_main_v88 (F := Ideal) x0 x1 x2 x3 x4 x5 x6 x7 x8 x9 x10 x11 x12 x13 x14 x15 x16 x17
      = fun y => Cert.Spec.logits 𝔸 ⟨(y 0).val, (y 0).isLt⟩ ⟨(y 1).val, (y 1).isLt⟩ := by
  have hs : ∀ i, val_main_v40 (F := Ideal) x2 x3 (ix1 i) = Cert.Spec.s 𝔸 i := fun i => by
    have e1 : ∀ k, idx_main_v36 (ix1 i) k = ix2 i k := fun _ => eq_ix2 _
    have e2 : ∀ k, idx_main_v33 (idx_main_v34 (ix2 i k)) = ix1 k := fun _ => eq_ix1 _
    rw [val_main_v40_apply, val_main_v39_apply, val_main_v38_apply, val_main_cst_4_apply, val_main_v36_apply, val_main_cst_2_apply]
    simp only [e1, val_main_v35_apply, val_main_v34_apply, val_main_v33_apply, e2, Ideal.mulf_def, Ideal.ofBits_def,
      Ideal.ofBits_zero_f32, zero_add]
    rfl
  have hse : ∀ j, val_main_v48 (F := Ideal) x2 x3 (ix1 j) = Cert.Spec.se 𝔸 j := fun j => by
    have e1 : ∀ k, idx_main_v37 (ix1 j) k = ix2 k j := fun _ => eq_ix2 _
    rw [val_main_v48_apply, val_main_v47_apply, val_main_v46_apply, val_main_cst_5_apply, val_main_v37_apply, val_main_cst_3_apply]
    simp only [e1, Ideal.ofBits_def, Ideal.ofBits_zero_f32, zero_add]
    rfl
  have hs' : ∀ i, val_main_v68 (F := Ideal) x2 x3 (ix1 i) = Cert.Spec.s 𝔸 i := hs
  have hse' : ∀ j, val_main_v76 (F := Ideal) x2 x3 (ix1 j) = Cert.Spec.se 𝔸 j := hse
  have hlin1 : ∀ i d, val_main_v32 (F := Ideal) x0 x1 x4 x5 x6 x7 x8 x9 x10 x11 x12 x13 (ix2 i d) = Cert.Spec.lin (Cert.Spec.fused 𝔸) (Cert.Spec.Args.c1W 𝔸) (Cert.Spec.Args.c1b 𝔸) i d := fun i d => by
    have el : ∀ k, lidx_main_v29 (ix2 i d) k = ix2 i k := fun _ => eq_ix2 _
    have er : ∀ k, ridx_main_v29 (ix2 i d) k = ix2 k d := fun _ => eq_ix2 _
    have eb : idx_main_v30 (idx_main_v31 (ix2 i d)) = ix1 d := eq_ix1 _
    rw [val_main_v32_apply, val_main_v29_apply, val_main_v31_apply, val_main_v30_apply, eb]
    simp only [el, er, hfused, Ideal.addf_def]
    rfl
  have hxn1 : ∀ i d, val_main_v43 (F := Ideal) x0 x1 x2 x3 x4 x5 x6 x7 x8 x9 x10 x11 x12 x13 (ix2 i d) = Cert.Spec.lin (Cert.Spec.fused 𝔸) (Cert.Spec.Args.c1W 𝔸) (Cert.Spec.Args.c1b 𝔸) i d * Cert.Spec.s 𝔸 i := fun i d => by
    have es : idx_main_v41 (idx_main_v42 (ix2 i d)) = ix1 i := eq_ix1 _
    rw [val_main_v43_apply, hlin1, val_main_v42_apply, val_main_v41_apply, es, hs]
    rfl
  have hga1 : ∀ j d, val_main_v45 (F := Ideal) x0 x1 x2 x3 x4 x5 x6 x7 x8 x9 x10 x11 x12 x13 (ix2 j d) = Cert.Spec.gather 𝔸 (Cert.Spec.lin (Cert.Spec.fused 𝔸) (Cert.Spec.Args.c1W 𝔸) (Cert.Spec.Args.c1b 𝔸)) j d := fun j d => by
    have el : ∀ k, idx_main_v44 (lidx_main_v45 (ix2 j d) k) = ix2 k j := fun _ => eq_ix2 _
    have er : ∀ k, ridx_main_v45 (ix2 j d) k = ix2 k d := fun _ => eq_ix2 _
    rw [val_main_v45_apply]
    simp only [val_main_v44_apply, el, er, hxn1]
    rfl
  have hms1 : ∀ j d, val_main_v51 (F := Ideal) x0 x1 x2 x3 x4 x5 x6 x7 x8 x9 x10 x11 x12 x13 (ix2 j d) = Cert.Spec.gather 𝔸 (Cert.Spec.lin (Cert.Spec.fused 𝔸) (Cert.Spec.Args.c1W 𝔸) (Cert.Spec.Args.c1b 𝔸)) j d * Cert.Spec.se 𝔸 j := fun j d => by
    have es : idx_main_v49 (idx_main_v50 (ix2 j d)) = ix1 j := eq_ix1 _
    rw [val_main_v51_apply, hga1, val_main_v50_apply, val_main_v49_apply, es, hse]
    rfl
  have hh1 : ∀ i d, val_main_v56 (F := Ideal) x0 x1 x2 x3 x4 x5 x6 x7 x8 x9 x10 x11 x12 x13 (ix2 i d) = Cert.Spec.h1 𝔸 i d := fun i d => by
    have el : ∀ k, lidx_main_v52 (ix2 i d) k = ix2 i k := fun _ => eq_ix2 _
    have er : ∀ k, ridx_main_v52 (ix2 i d) k = ix2 k d := fun _ => eq_ix2 _
    have es : idx_main_v53 (idx_main_v54 (ix2 i d)) = ix1 i := eq_ix1 _
    rw [val_main_v56_apply, val_main_v55_apply, val_main_v52_apply, val_main_v54_apply, val_main_v53_apply, es, hs,
      val_main_call1_v0_apply, val_main_call1_cst_apply]
    simp only [el, er, hms1, Ideal.maximumf_def, Ideal.ofBits_def, Ideal.ofBits_zero_f32]
    rfl
  have hlin2 : ∀ i d, val_main_v60 (F := Ideal) x0 x1 x2 x3 x4 x5 x6 x7 x8 x9 x10 x11 x12 x13 x14 x15 (ix2 i d) = Cert.Spec.lin (Cert.Spec.h1 𝔸) (Cert.Spec.Args.c2W 𝔸) (Cert.Spec.Args.c2b 𝔸) i d := fun i d => by
    have el : ∀ k, lidx_main_v57 (ix2 i d) k = ix2 i k := fun _ => eq_ix2 _
    have er : ∀ k, ridx_main_v57 (ix2 i d) k = ix2 k d := fun _ => eq_ix2 _
    have eb : idx_main_v58 (idx_main_v59 (ix2 i d)) = ix1 d := eq_ix1 _
    rw [val_main_v60_apply, val_main_v57_apply, val_main_v59_apply, val_main_v58_apply, eb]
    simp only [el, er, hh1, Ideal.addf_def]
    rfl
  have hxn2 : ∀ i d, val_main_v71 (F := Ideal) x0 x1 x2 x3 x4 x5 x6 x7 x8 x9 x10 x11 x12 x13 x14 x15 (ix2 i d) = Cert.Spec.lin (Cert.Spec.h1 𝔸) (Cert.Spec.Args.c2W 𝔸) (Cert.Spec.Args.c2b 𝔸) i d * Cert.Spec.s 𝔸 i := fun i d => by
    have es : idx_main_v69 (idx_main_v70 (ix2 i d)) = ix1 i := eq_ix1 _
    rw [val_main_v71_apply, hlin2, val_main_v70_apply, val_main_v69_apply, es, hs']
    rfl
  have hga2 : ∀ j d, val_main_v73 (F := Ideal) x0 x1 x2 x3 x4 x5 x6 x7 x8 x9 x10 x11 x12 x13 x14 x15 (ix2 j d) = Cert.Spec.gather 𝔸 (Cert.Spec.lin (Cert.Spec.h1 𝔸) (Cert.Spec.Args.c2W 𝔸) (Cert.Spec.Args.c2b 𝔸)) j d := fun j d => by
    have el : ∀ k, idx_main_v72 (lidx_main_v73 (ix2 j d) k) = ix2 k j := fun _ => eq_ix2 _
    have er : ∀ k, ridx_main_v73 (ix2 j d) k = ix2 k d := fun _ => eq_ix2 _
    rw [val_main_v73_apply]
    simp only [val_main_v72_apply, el, er, hxn2]
    rfl
  have hms2 : ∀ j d, val_main_v79 (F := Ideal) x0 x1 x2 x3 x4 x5 x6 x7 x8 x9 x10 x11 x12 x13 x14 x15 (ix2 j d) = Cert.Spec.gather 𝔸 (Cert.Spec.lin (Cert.Spec.h1 𝔸) (Cert.Spec.Args.c2W 𝔸) (Cert.Spec.Args.c2b 𝔸)) j d * Cert.Spec.se 𝔸 j := fun j d => by
    have es : idx_main_v77 (idx_main_v78 (ix2 j d)) = ix1 j := eq_ix1 _
    rw [val_main_v79_apply, hga2, val_main_v78_apply, val_main_v77_apply, es, hse']
    rfl
  have hh2 : ∀ i d, val_main_v84 (F := Ideal) x0 x1 x2 x3 x4 x5 x6 x7 x8 x9 x10 x11 x12 x13 x14 x15 (ix2 i d) = Cert.Spec.h2 𝔸 i d := fun i d => by
    have el : ∀ k, lidx_main_v80 (ix2 i d) k = ix2 i k := fun _ => eq_ix2 _
    have er : ∀ k, ridx_main_v80 (ix2 i d) k = ix2 k d := fun _ => eq_ix2 _
    have es : idx_main_v81 (idx_main_v82 (ix2 i d)) = ix1 i := eq_ix1 _
    rw [val_main_v84_apply, val_main_v83_apply, val_main_v80_apply, val_main_v82_apply, val_main_v81_apply, es, hs',
      val_main_call2_v0_apply, val_main_call2_cst_apply]
    simp only [el, er, hms2, Ideal.maximumf_def, Ideal.ofBits_def, Ideal.ofBits_zero_f32]
    rfl
  funext y
  obtain ⟨i, o, rfl⟩ : ∃ (i : Fin 10000) (o : Fin 2), y = ix2 i o := ⟨y 0, y 1, eq_ix2 y⟩
  have el : ∀ k, lidx_main_v85 (ix2 i o) k = ix2 i k := fun _ => eq_ix2 _
  have er : ∀ k, ridx_main_v85 (ix2 i o) k = ix2 k o := fun _ => eq_ix2 _
  have eb : idx_main_v86 (idx_main_v87 (ix2 i o)) = ix1 o := eq_ix1 _
  rw [val_main_v88_apply, val_main_v85_apply, val_main_v87_apply, val_main_v86_apply, eb]
  simp only [el, er, hh2, Ideal.addf_def]
  rfl

end Cert.ReferenceIdeal.RefValue

end
-- ==== Proof.lean ====
import proofs.«134735_g40587440947829_cont_sun_m_1101_19_alg».proof.Defs
import proofs.«134735_g40587440947829_cont_sun_m_1101_19_alg».proof.Proof.Gen.Kernel
import proofs.«134735_g40587440947829_cont_sun_m_1101_19_alg».proof.Proof.Gen.KernelIdeal
import proofs.«134735_g40587440947829_cont_sun_m_1101_19_alg».proof.Proof.Gen.ReferenceIdeal
import proofs.«134735_g40587440947829_cont_sun_m_1101_19_alg».proof.Proof.Gen.Pre_finite_inputs
import proofs.«134735_g40587440947829_cont_sun_m_1101_19_alg».proof.Proof.Word.Body
import proofs.«134735_g40587440947829_cont_sun_m_1101_19_alg».proof.Proof.KValue
import proofs.«134735_g40587440947829_cont_sun_m_1101_19_alg».proof.Proof.RefGate
import proofs.«134735_g40587440947829_cont_sun_m_1101_19_alg».proof.Proof.RefConv
import Idealize.ShloMosaic.Adequacy
import Idealize.ShloMosaic.Init

noncomputable section

namespace Cert.Proof

open Idealize.ShloMosaic Idealize.ShloMosaic.TcCoe Idealize.SL.Sem

theorem frame_word : Cert.frame_Kernel := fun m ρ _ =>
  Cert.Kernel.Gen.frame_of m ρ (Cert.Kernel.Hand.dats m) (Cert.Kernel.Hand.A_eq m) (Cert.Kernel.Hand.run_main m ρ)

theorem frame_ideal : Cert.frame_KernelIdeal := fun m ρ _ =>
  Cert.KernelIdeal.Gen.frame_of m ρ (Cert.KernelIdeal.Hand.dats m) (Cert.KernelIdeal.Hand.A_eq m) (Cert.KernelIdeal.Hand.run_main m ρ)

theorem frame_ref : Cert.frame_ReferenceIdeal := fun m ρ _ =>
  (θ_run Cert.ReferenceIdeal.defs _ _).mono (fun _ h c => (h c).2.2) (Cert.ReferenceIdeal.Value.run (F := Ideal) m ρ)

/-- The kernel's run names its two results as the specification's logits and gate of its arguments; the
    reference's two results are the specification's of its own arguments, which are the kernel's. -/
theorem algebraic : Cert.algebraic_KernelIdeal_ReferenceIdeal := by
  intro m ρ m' ρ' _ hagree
  refine ⟨_, _, Cert.KernelIdeal.Hand.value_run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17⟩ := hagree c
  refine ⟨(h c).1.trans ?_, (h c).2.1.trans ?_, (h c).2.2⟩
  · refine (Cert.ReferenceIdeal.Read.val_main_v88_eq m' c).trans ?_
    refine (Cert.ReferenceIdeal.RefValue.ref_logits _ _ _ _ _ _ _ _ _ _ _ _ _ _ _ _ _ _ fun i a => Cert.ReferenceIdeal.RefValue.ref_fused _ _ _ _ _ _ _ _ _ _ _ _ _ _ _ _ _ _ i a).trans ?_
    rw [h0, h1, h2, h3, h4, h5, h6, h7, h8, h9, h10, h11, h12, h13, h14, h15, h16, h17]
    rfl
  · refine (Cert.ReferenceIdeal.Read.val_main_v23_eq _ _ _ _ _ _ _ _ _ _).trans ?_
    refine (Cert.ReferenceIdeal.RefValue.ref_g _ _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) _ _ _ _ _ _ _ _ (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans ?_
    unfold Cert.ReferenceIdeal.RefValue.refArgs
    rw [h0, h1, h2, h3, h4, h5, h6, h7, h8, h9, h10, h11, h12, h13, h14, h15, h16, h17]
    rfl

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
